-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S1024 : Shape := ⟨1, ![1024]⟩
abbrev S8192x2048 : Shape := ⟨2, ![8192, 2048]⟩
abbrev S8192 : Shape := ⟨1, ![8192]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S1024 : S_.BroadcastsInDim S1024 (![] : Fin 0 → Fin S1024.rank)
  reducesTo_S1024_S_d0 : S1024.ReducesTo [0] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg2 : IVec S1024 32) (main_arg4 : IVec S8192 32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_c_6 : IVec S_ 32 := constantI S_ 32 0#32
  let main_v19 : IVec S1024 32 := broadcastInDim S1024 ![] bcast_S_S1024 main_c_6
  let main_v20 : IVec S1024 1 := cmpi .sge main_arg2 main_v19
  let main_c_7 : IVec S_ 1 := constantI S_ 1 1#1
  let main_v21 : IVec S_ 1 := (fun x v => Host.reduce IntOp.andi x v reducesTo_S1024_S_d0 h_S_) main_v20 main_c_7
  let main_v22 : IVec S_ 1 := andi main_v18 main_v21
  let main_c_8 : IVec S_ 32 := constantI S_ 32 8192#32
  let main_v23 : IVec S1024 32 := broadcastInDim S1024 ![] bcast_S_S1024 main_c_8
  let main_v24 : IVec S1024 1 := cmpi .slt main_arg2 main_v23
  let main_c_9 : IVec S_ 1 := constantI S_ 1 1#1
  let main_v25 : IVec S_ 1 := (fun x v => Host.reduce IntOp.andi x v reducesTo_S1024_S_d0 h_S_) main_v24 main_c_9
  let main_v26 : IVec S_ 1 := andi main_v22 main_v25
  let main_c_10 : IVec S_ 32 := constantI S_ 32 0#32
  let main_v27 : IVec S8192 32 := broadcastInDim S8192 ![] bcast_S_S8192 main_c_10
  let main_v28 : IVec S8192 1 := cmpi .sge main_arg4 main_v27
  let main_c_11 : IVec S_ 1 := constantI S_ 1 1#1
  let main_v29 : IVec S_ 1 := (fun x v => Host.reduce IntOp.andi x v reducesTo_S8192_S_d0 h_S_) main_v28 main_c_11
  let main_v30 : IVec S_ 1 := andi main_v26 main_v29
  main_v30

def fn {F : FTy → Type} [FloatOps F] (main_arg0 : FVec F S1024x2048 .f32) (main_arg1 : FVec F S1024x2048 .f32) (main_arg2 : IVec S1024 32) (main_arg3 : FVec F S8192x2048 .f32) (main_arg4 : IVec S8192 32) (main_arg5 : FVec F S8192x2048 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S8192x2048 .f32 := Host.absf main_arg3
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S8192x2048 .f32 := Host.absf main_arg5
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg2 main_arg4 main_v13 main_v16
-- ==== Kernel.lean ====
abbrev S1024x2048 : Shape := ⟨2, ![1024, 2048]⟩
abbrev S1024 : Shape := ⟨1, ![1024]⟩
abbrev S8192x2048 : Shape := ⟨2, ![8192, 2048]⟩
abbrev S8192 : Shape := ⟨1, ![8192]⟩
abbrev S7168x2048 : Shape := ⟨2, ![7168, 2048]⟩
abbrev S7168 : Shape := ⟨1, ![7168]⟩
abbrev S_ : Shape := ⟨0, ![]⟩
abbrev S1024x1 : Shape := ⟨2, ![1024, 1]⟩
abbrev S8192x1 : Shape := ⟨2, ![8192, 1]⟩
abbrev S1x8192 : Shape := ⟨2, ![1, 8192]⟩
abbrev S1024x8192 : Shape := ⟨2, ![1024, 8192]⟩
abbrev S256x2048 : Shape := ⟨2, ![256, 2048]⟩
abbrev S2048x2048 : Shape := ⟨2, ![2048, 2048]⟩
abbrev S256x1 : Shape := ⟨2, ![256, 1]⟩
abbrev S1x2048 : Shape := ⟨2, ![1, 2048]⟩
abbrev S256 : Shape := ⟨1, ![256]⟩

abbrev nBuf : Space → Nat
  | .hbm => 136
  | .vmem => 26
  | .smem => 0
  | _ => 0

abbrev hbmTy0_0 (i : Nat) : BufTy := match i % 128 with
  | 0 => ⟨S1024x2048, .f32⟩
  | 1 => ⟨S1024x2048, .f32⟩
  | 2 => ⟨S1024, .i32⟩
  | 3 => ⟨S8192x2048, .f32⟩
  | 4 => ⟨S8192, .i32⟩
  | 5 => ⟨S8192x2048, .f32⟩
  | 6 => ⟨S7168x2048, .f32⟩
  | 7 => ⟨S8192x2048, .f32⟩
  | 8 => ⟨S7168, .i32⟩
  | 9 => ⟨S8192, .i32⟩
  | 10 => ⟨S1024x2048, .f32⟩
  | 11 => ⟨S_, .f32⟩
  | 12 => ⟨S1024, .f32⟩
  | 13 => ⟨S1024x1, .f32⟩
  | 14 => ⟨S1024x1, .f32⟩
  | 15 => ⟨S_, .f32⟩
  | 16 => ⟨S_, .f32⟩
  | 17 => ⟨S1024x1, .f32⟩
  | 18 => ⟨S1024x1, .f32⟩
  | 19 => ⟨S1024x2048, .f32⟩
  | 20 => ⟨S1024x2048, .f32⟩
  | 21 => ⟨S8192x2048, .f32⟩
  | 22 => ⟨S_, .f32⟩
  | 23 => ⟨S8192, .f32⟩
  | 24 => ⟨S8192x1, .f32⟩
  | 25 => ⟨S8192x1, .f32⟩
  | 26 => ⟨S_, .f32⟩
  | 27 => ⟨S_, .f32⟩
  | 28 => ⟨S8192x1, .f32⟩
  | 29 => ⟨S8192x1, .f32⟩
  | 30 => ⟨S8192x2048, .f32⟩
  | 31 => ⟨S8192x2048, .f32⟩
  | 32 => ⟨S_, .i32⟩
  | 33 => ⟨S1024, .i32⟩
  | 34 => ⟨S1024, .i1⟩
  | 35 => ⟨S_, .i32⟩
  | 36 => ⟨S1024, .i32⟩
  | 37 => ⟨S1024, .i32⟩
  | 38 => ⟨S1024, .i32⟩
  | 39 => ⟨S1024x1, .i32⟩
  | 40 => ⟨S1024x2048, .f32⟩
  | 41 => ⟨S1024x2048, .f32⟩
  | 42 => ⟨S_, .f32⟩
  | 43 => ⟨S1024, .f32⟩
  | 44 => ⟨S1024x1, .f32⟩
  | 45 => ⟨S1024x1, .f32⟩
  | 46 => ⟨S_, .f32⟩
  | 47 => ⟨S_, .f32⟩
  | 48 => ⟨S1024x1, .f32⟩
  | 49 => ⟨S1024x1, .f32⟩
  | 50 => ⟨S1024x2048, .f32⟩
  | 51 => ⟨S1024x2048, .f32⟩
  | 52 => ⟨S1024x2048, .f32⟩
  | 53 => ⟨S_, .f32⟩
  | 54 => ⟨S1024, .f32⟩
  | 55 => ⟨S_, .f32⟩
  | 56 => ⟨S_, .f32⟩
  | 57 => ⟨S_, .f32⟩
  | 58 => ⟨S1024, .f32⟩
  | 59 => ⟨S1024, .f32⟩
  | 60 => ⟨S_, .f32⟩
  | 61 => ⟨S1024, .f32⟩
  | 62 => ⟨S1024, .f32⟩
  | 63 => ⟨S1024, .f32⟩
  | 64 => ⟨S_, .f32⟩
  | 65 => ⟨S1024, .f32⟩
  | 66 => ⟨S1024, .f32⟩
  | 67 => ⟨S_, .f32⟩
  | 68 => ⟨S_, .f32⟩
  | 69 => ⟨S_, .f32⟩
  | 70 => ⟨S1024, .f32⟩
  | 71 => ⟨S1024, .f32⟩
  | 72 => ⟨S_, .f32⟩
  | 73 => ⟨S1024, .f32⟩
  | 74 => ⟨S1024, .f32⟩
  | 75 => ⟨S1024, .f32⟩
  | 76 => ⟨S_, .f32⟩
  | 77 => ⟨S1024, .f32⟩
  | 78 => ⟨S1024, .f32⟩
  | 79 => ⟨S_, .f32⟩
  | 80 => ⟨S1024, .f32⟩
  | 81 => ⟨S1024, .f32⟩
  | 82 => ⟨S1024, .f32⟩
  | 83 => ⟨S_, .f32⟩
  | 84 => ⟨S1024, .f32⟩
  | 85 => ⟨S1024, .i1⟩
  | 86 => ⟨S_, .f32⟩
  | 87 => ⟨S1024, .f32⟩
  | 88 => ⟨S1024, .f32⟩
  | 89 => ⟨S1024, .f32⟩
  | 90 => ⟨S_, .f32⟩
  | 91 => ⟨S1024, .f32⟩
  | 92 => ⟨S1024, .f32⟩
  | 93 => ⟨S1024x2048, .bf16⟩
  | 94 => ⟨S8192x2048, .bf16⟩
  | 95 => ⟨S1024x1, .i32⟩
  | 96 => ⟨S1x8192, .i32⟩
  | 97 => ⟨S1024x1, .f32⟩
  | 98 => ⟨S1024x8192, .f32⟩
  | 99 => ⟨S1024x1, .f32⟩
  | 100 => ⟨S1024x1, .f32⟩
  | 101 => ⟨S_, .f32⟩
  | 102 => ⟨S_, .f32⟩
  | 103 => ⟨S_, .i32⟩
  | 104 => ⟨S8192, .i32⟩
  | 105 => ⟨S_, .i32⟩
  | 106 => ⟨S1024, .i32⟩
  | 107 => ⟨S1024, .i1⟩
  | 108 => ⟨S_, .i32⟩
  | 109 => ⟨S1024, .i32⟩
  | 110 => ⟨S1024, .i32⟩
  | 111 => ⟨S1024, .i32⟩
  | 112 => ⟨S1024x1, .i32⟩
  | 113 => ⟨S_, .i32⟩
  | 114 => ⟨S1024, .i32⟩
  | 115 => ⟨S8192, .i32⟩
  | 116 => ⟨S_, .i32⟩
  | 117 => ⟨S8192, .i32⟩
  | 118 => ⟨S_, .i32⟩
  | 119 => ⟨S8192, .i32⟩
  | 120 => ⟨S8192, .i1⟩
  | 121 => ⟨S_, .i32⟩
  | 122 => ⟨S8192, .i32⟩
  | 123 => ⟨S8192, .i32⟩
  | 124 => ⟨S8192, .i32⟩
  | 125 => ⟨S8192x1, .i32⟩
  | 126 => ⟨S_, .i32⟩
  | 127 => ⟨S8192, .i32⟩
  | _ => ⟨S1024x2048, .f32⟩

abbrev hbmTy0_1 (i : Nat) : BufTy := match i % 128 with
  | 0 => ⟨S8192, .i32⟩
  | 1 => ⟨S8192, .i32⟩
  | 2 => ⟨S_, .i32⟩
  | 3 => ⟨S_, .i32⟩
  | 4 => ⟨S_, .i32⟩
  | 5 => ⟨S_, .i32⟩
  | 6 => ⟨S_, .f32⟩
  | 7 => ⟨S_, .f32⟩
  | _ => ⟨S1024x2048, .f32⟩

abbrev hbmTy (i : Nat) : BufTy := match i / 128 with
  | 0 => hbmTy0_0 i
  | 1 => hbmTy0_1 i
  | _ => ⟨S1024x2048, .f32⟩

abbrev bufTy : (tb : Table) → Fin (tcTables nBuf tb) → BufTy
  | .hbm, ⟨i, _⟩ => hbmTy i
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S2048x2048, .bf16⟩
  | .local _ .vmem, ⟨4, _⟩ => ⟨S256x1, .i32⟩
  | .local _ .vmem, ⟨5, _⟩ => ⟨S256x1, .i32⟩
  | .local _ .vmem, ⟨6, _⟩ => ⟨S1x2048, .i32⟩
  | .local _ .vmem, ⟨7, _⟩ => ⟨S1x2048, .i32⟩
  | .local _ .vmem, ⟨8, _⟩ => ⟨S256x1, .f32⟩
  | .local _ .vmem, ⟨9, _⟩ => ⟨S256x1, .f32⟩
  | .local _ .vmem, ⟨10, _⟩ => ⟨S256x2048, .f32⟩
  | .local _ .vmem, ⟨11, _⟩ => ⟨S256x2048, .f32⟩
  | .local _ .vmem, ⟨12, _⟩ => ⟨S256x1, .f32⟩
  | .local _ .vmem, ⟨13, _⟩ => ⟨S256x1, .f32⟩
  | .local _ .vmem, ⟨14, _⟩ => ⟨S256x1, .f32⟩
  | .local _ .vmem, ⟨15, _⟩ => ⟨S256x2048, .f32⟩
  | .local _ .vmem, ⟨16, _⟩ => ⟨S256x2048, .f32⟩
  | .local _ .vmem, ⟨17, _⟩ => ⟨S256x1, .i32⟩
  | .local _ .vmem, ⟨18, _⟩ => ⟨S256x1, .i32⟩
  | .local _ .vmem, ⟨19, _⟩ => ⟨S1x2048, .i32⟩
  | .local _ .vmem, ⟨20, _⟩ => ⟨S1x2048, .i32⟩
  | .local _ .vmem, ⟨21, _⟩ => ⟨S256x1, .f32⟩
  | .local _ .vmem, ⟨22, _⟩ => ⟨S256x1, .f32⟩
  | .local _ .vmem, ⟨23, _⟩ => ⟨S256x1, .f32⟩
  | .local _ .vmem, ⟨24, _⟩ => ⟨S256x1, .f32⟩
  | .local _ .vmem, ⟨25, _⟩ => ⟨S256x1, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v4 : Ref sig .tc := ⟨.hbm, 14, rfl⟩
abbrev main_cst : Ref sig .tc := ⟨.hbm, 15, rfl⟩
abbrev main_call1_v0 : Ref sig .tc := ⟨.hbm, 16, rfl⟩
abbrev main_call1_v1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call2_v0 : Ref sig .tc := ⟨.hbm, 21, rfl⟩
abbrev main_call2_cst : Ref sig .tc := ⟨.hbm, 22, rfl⟩
abbrev main_call2_v1 : Ref sig .tc := ⟨.hbm, 23, rfl⟩
abbrev main_call2_v2 : Ref sig .tc := ⟨.hbm, 24, rfl⟩
abbrev main_v8 : Ref sig .tc := ⟨.hbm, 25, rfl⟩
abbrev main_cst_0 : Ref sig .tc := ⟨.hbm, 26, rfl⟩
abbrev main_call3_v0 : Ref sig .tc := ⟨.hbm, 27, rfl⟩
abbrev main_call3_v1 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c : Ref sig .tc := ⟨.hbm, 32, rfl⟩
abbrev main_v12 : Ref sig .tc := ⟨.hbm, 33, rfl⟩
abbrev main_v13 : Ref sig .tc := ⟨.hbm, 34, rfl⟩
abbrev main_c_1 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_call4_v0 : Ref sig .tc := ⟨.hbm, 41, rfl⟩
abbrev main_call4_cst : Ref sig .tc := ⟨.hbm, 42, rfl⟩
abbrev main_call4_v1 : Ref sig .tc := ⟨.hbm, 43, rfl⟩
abbrev main_call4_v2 : Ref sig .tc := ⟨.hbm, 44, rfl⟩
abbrev main_v19 : Ref sig .tc := ⟨.hbm, 45, rfl⟩
abbrev main_cst_2 : Ref sig .tc := ⟨.hbm, 46, rfl⟩
abbrev main_call5_v0 : Ref sig .tc := ⟨.hbm, 47, rfl⟩
abbrev main_call5_v1 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_cst_3 : Ref sig .tc := ⟨.hbm, 53, rfl⟩
abbrev main_v24 : Ref sig .tc := ⟨.hbm, 54, rfl⟩
abbrev main_cst_4 : Ref sig .tc := ⟨.hbm, 55, rfl⟩
abbrev main_cst_5 : Ref sig .tc := ⟨.hbm, 56, rfl⟩
abbrev main_call6_v0 : Ref sig .tc := ⟨.hbm, 57, rfl⟩
abbrev main_call6_v1 : Ref sig .tc := ⟨.hbm, 58, rfl⟩
abbrev main_call6_v2 : Ref sig .tc := ⟨.hbm, 59, rfl⟩
abbrev main_call6_v3 : Ref sig .tc := ⟨.hbm, 60, rfl⟩
abbrev main_call6_v4 : Ref sig .tc := ⟨.hbm, 61, rfl⟩
abbrev main_v25 : Ref sig .tc := ⟨.hbm, 62, rfl⟩
abbrev main_v26 : Ref sig .tc := ⟨.hbm, 63, rfl⟩
abbrev main_cst_6 : Ref sig .tc := ⟨.hbm, 64, rfl⟩
abbrev main_v27 : Ref sig .tc := ⟨.hbm, 65, rfl⟩
abbrev main_v28 : Ref sig .tc := ⟨.hbm, 66, rfl⟩
abbrev main_cst_7 : Ref sig .tc := ⟨.hbm, 67, rfl⟩
abbrev main_cst_8 : Ref sig .tc := ⟨.hbm, 68, rfl⟩
abbrev main_call7_v0 : Ref sig .tc := ⟨.hbm, 69, rfl⟩
abbrev main_call7_v1 : Ref sig .tc := ⟨.hbm, 70, rfl⟩
abbrev main_call7_v2 : Ref sig .tc := ⟨.hbm, 71, rfl⟩
abbrev main_call7_v3 : Ref sig .tc := ⟨.hbm, 72, rfl⟩
abbrev main_call7_v4 : Ref sig .tc := ⟨.hbm, 73, rfl⟩
abbrev main_v29 : Ref sig .tc := ⟨.hbm, 74, rfl⟩
abbrev main_v30 : Ref sig .tc := ⟨.hbm, 75, rfl⟩
abbrev main_cst_9 : Ref sig .tc := ⟨.hbm, 76, rfl⟩
abbrev main_v31 : Ref sig .tc := ⟨.hbm, 77, rfl⟩
abbrev main_v32 : Ref sig .tc := ⟨.hbm, 78, rfl⟩
abbrev main_cst_10 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_cst_11 : Ref sig .tc := ⟨.hbm, 83, rfl⟩
abbrev main_v36 : Ref sig .tc := ⟨.hbm, 84, rfl⟩
abbrev main_v37 : Ref sig .tc := ⟨.hbm, 85, rfl⟩
abbrev main_cst_12 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_cst_13 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48_0 : Ref sig .tc := ⟨.hbm, 98, rfl⟩
abbrev main_v48_1 : Ref sig .tc := ⟨.hbm, 99, rfl⟩
abbrev main_v49 : Ref sig .tc := ⟨.hbm, 100, rfl⟩
abbrev main_cst_14 : Ref sig .tc := ⟨.hbm, 101, rfl⟩
abbrev main_v50 : Ref sig .tc := ⟨.hbm, 102, rfl⟩
abbrev main_c_15 : Ref sig .tc := ⟨.hbm, 103, rfl⟩
abbrev main_v51 : Ref sig .tc := ⟨.hbm, 104, rfl⟩
abbrev main_c_16 : Ref sig .tc := ⟨.hbm, 105, rfl⟩
abbrev main_v52 : Ref sig .tc := ⟨.hbm, 106, rfl⟩
abbrev main_v53 : Ref sig .tc := ⟨.hbm, 107, rfl⟩
abbrev main_c_17 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_c_18 : Ref sig .tc := ⟨.hbm, 113, rfl⟩
abbrev main_v58 : Ref sig .tc := ⟨.hbm, 114, rfl⟩
abbrev main_v59 : Ref sig .tc := ⟨.hbm, 115, rfl⟩
abbrev main_c_19 : Ref sig .tc := ⟨.hbm, 116, rfl⟩
abbrev main_v60 : Ref sig .tc := ⟨.hbm, 117, rfl⟩
abbrev main_c_20 : Ref sig .tc := ⟨.hbm, 118, rfl⟩
abbrev main_v61 : Ref sig .tc := ⟨.hbm, 119, rfl⟩
abbrev main_v62 : Ref sig .tc := ⟨.hbm, 120, rfl⟩
abbrev main_c_21 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_c_22 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_c_23 : Ref sig .tc := ⟨.hbm, 130, rfl⟩
abbrev main_v70 : Ref sig .tc := ⟨.hbm, 131, rfl⟩
abbrev main_c_24 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v39 : BitVec 1 := Scalar.cmpi .eq arg1 c3_i32
  let v40 : BitVec 32 := Scalar.extui v39
  let c0_i32_19 : BitVec 32 := 0#32
  let v41 : BitVec 1 := Scalar.cmpi .ne v40 c0_i32_19
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v33 : BitVec 1 := Scalar.cmpi .eq arg1 c3_i32
  let v34 : BitVec 32 := Scalar.extui v33
  let c0_i32_16 : BitVec 32 := 0#32
  let v35 : BitVec 1 := Scalar.cmpi .ne v34 c0_i32_16
  v35

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S256x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S256x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  slices_S8192x2048_S7168x2048_0_0 : S8192x2048.Slices ![0, 0] S7168x2048
  concatenates_S1024x2048_S7168x2048_S8192x2048_d0 : Shape.Concatenates [S1024x2048, S7168x2048] S8192x2048 0
  slices_S8192_S7168_0 : S8192.Slices ![0] S7168
  concatenates_S1024_S7168_S8192_d0 : Shape.Concatenates [S1024, S7168] S8192 0
  reducesTo_S1024x2048_S1024_d1 : S1024x2048.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x2048_0_1 : S1024x1.BroadcastsInDim S1024x2048 (![0, 1] : Fin 2 → Fin S1024x2048.rank)
  reducesTo_S8192x2048_S8192_d1 : S8192x2048.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x2048_0_1 : S8192x1.BroadcastsInDim S8192x2048 (![0, 1] : Fin 2 → Fin S8192x2048.rank)
  bcast_S_S1024 : S_.BroadcastsInDim S1024 (![] : Fin 0 → Fin S1024.rank)
  bitsLt_bf16_f32 : FTy.bits .bf16 < FTy.bits .f32
  shapeCasts_S1024_S1024x1 : S1024.ShapeCasts S1024x1
  shapeCasts_S8192_S1x8192 : S8192.ShapeCasts S1x8192
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  iota_S256x2048_d1_w32 : S256x2048.Iotas .tc 32 [1]
  broadcasts_S256x1_S256x2048 : S256x1.Broadcasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  reduces_S256x2048_S256 : S256x2048.Reduces [1] S256
  shapeCasts_S256_S256x1 : S256.ShapeCasts S256x1
  reducesTo_S1024x1_S_d0_1 : S1024x1.ReducesTo [0, 1] S_
  bcast_S_S8192 : S_.BroadcastsInDim S8192 (![] : Fin 0 → Fin S8192.rank)
  reducesTo_S8192_S_d0 : S8192.ReducesTo [0] S_
  gather_S8192x2048_S1024x1_S1024x2048_1_0_n_n_0_1_12048_wf : GatherDims.WF S8192x2048 S1024x1 S1024x2048 [1] [0] [] [0] [] 1 ![1, 2048]
  dot_S256x2048_S2048x2048_S256x2048_1_1_0_0_n_n_wf : DotDims.WF S256x2048 S2048x2048 S256x2048 [1] [1] [0] [0] [] []
  scatter_S8192_S1024x1_S1024_n_0_0_1_wf : ScatterDims.WF S8192 S1024x1 S1024 [] [0] [0] 1
  scatter_S8192_S8192x1_S8192_n_0_0_1_wf : ScatterDims.WF S8192 S8192x1 S8192 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S1024x2048.size a
  hwx0_0 : ∀ i : grid0.Coords, EltTy.bits .bf16 = 32 ∨ (Rect.block (s := S1024x2048) S256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S8192x2048.size a
  hwx0_1 : ∀ i : grid0.Coords, EltTy.bits .bf16 = 32 ∨ (Rect.block (s := S8192x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S1024x1.size a
  hwx0_2 : ∀ i : grid0.Coords, EltTy.bits .i32 = 32 ∨ (Rect.block (s := S1024x1) S256x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .i32 = 32 ∨ (Rect.block (s := S1x8192) S1x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S1024x1.size a
  hwx0_4 : ∀ i : grid0.Coords, EltTy.bits .f32 = 32 ∨ (Rect.block (s := S1024x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S1024x8192.size a
  hwx0_5 : ∀ i : grid0.Coords, EltTy.bits .f32 = 32 ∨ (Rect.block (s := S1024x8192) S256x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S1024x1.size a
  hwx0_6 : ∀ i : grid0.Coords, EltTy.bits .f32 = 32 ∨ (Rect.block (s := S1024x1) S256x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S1024x8192.size a
  hwx1_0 : ∀ i : grid1.Coords, EltTy.bits .f32 = 32 ∨ (Rect.block (s := S1024x8192) S256x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1.size a ≤ S1024x1.size a
  hwx1_1 : ∀ i : grid1.Coords, EltTy.bits .i32 = 32 ∨ (Rect.block (s := S1024x1) S256x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x8192.size a
  hwx1_2 : ∀ i : grid1.Coords, EltTy.bits .i32 = 32 ∨ (Rect.block (s := S1x8192) S1x2048.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1.size a ≤ S1024x1.size a
  hwx1_3 : ∀ i : grid1.Coords, EltTy.bits .f32 = 32 ∨ (Rect.block (s := S1024x1) S256x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x1.size a ≤ S1024x1.size a
  hwx1_4 : ∀ i : grid1.Coords, EltTy.bits .f32 = 32 ∨ (Rect.block (s := S1024x1) S256x1.size (cc1_transform_4 i) (hinb1_4 i)).WholeWords (EltTy.packing .f32)

variable [Facts₀]

def gather_S8192x2048_S1024x1_S1024x2048_1_0_n_n_0_1_12048 : GatherDims S8192x2048 S1024x1 S1024x2048 where
  offsetDims := [1]
  collapsedSliceDims := [0]
  operandBatchingDims := []
  startIndicesBatchingDims := []
  startIndexMap := [0]
  indexVectorDim := 1
  sliceSizes := ![1, 2048]
  wf := gather_S8192x2048_S1024x1_S1024x2048_1_0_n_n_0_1_12048_wf
def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf
def scatter_S8192_S1024x1_S1024_n_0_0_1 : ScatterDims S8192 S1024x1 S1024 where
  updateWindowDims := []
  insertedWindowDims := [0]
  scatterDimsToOperandDims := [0]
  indexVectorDim := 1
  wf := scatter_S8192_S1024x1_S1024_n_0_0_1_wf
def scatter_S8192_S8192x1_S8192_n_0_0_1 : ScatterDims S8192 S8192x1 S8192 where
  updateWindowDims := []
  insertedWindowDims := [0]
  scatterDimsToOperandDims := [0]
  indexVectorDim := 1
  wf := scatter_S8192_S8192x1_S8192_n_0_0_1_wf

abbrev win0_0 : Pipeline.Window sig grid0 :=
  Pipeline.Window.ofSpec (Memref.whole main_v43) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v44) S2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v45) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v46) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v47) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v48_0) S256x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v48_1) S256x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v48_0) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S256x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v48_1) S256x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v49) S256x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S1024x2048 : Shape := ⟨2, ![1024, 2048]⟩
abbrev S1024 : Shape := ⟨1, ![1024]⟩
abbrev S8192x2048 : Shape := ⟨2, ![8192, 2048]⟩
abbrev S8192 : Shape := ⟨1, ![8192]⟩
abbrev S7168x2048 : Shape := ⟨2, ![7168, 2048]⟩
abbrev S7168 : Shape := ⟨1, ![7168]⟩
abbrev S_ : Shape := ⟨0, ![]⟩
abbrev S1024x1 : Shape := ⟨2, ![1024, 1]⟩
abbrev S8192x1 : Shape := ⟨2, ![8192, 1]⟩
abbrev S2048x8192 : Shape := ⟨2, ![2048, 8192]⟩
abbrev S1024x8192 : Shape := ⟨2, ![1024, 8192]⟩
abbrev S1024x2 : Shape := ⟨2, ![1024, 2]⟩
abbrev S1x8192 : Shape := ⟨2, ![1, 8192]⟩

abbrev nBuf : Space → Nat
  | .hbm => 154
  | .vmem => 0
  | .smem => 0
  | _ => 0

abbrev hbmTy0_0 (i : Nat) : BufTy := match i % 128 with
  | 0 => ⟨S1024x2048, .f32⟩
  | 1 => ⟨S1024x2048, .f32⟩
  | 2 => ⟨S1024, .i32⟩
  | 3 => ⟨S8192x2048, .f32⟩
  | 4 => ⟨S8192, .i32⟩
  | 5 => ⟨S8192x2048, .f32⟩
  | 6 => ⟨S7168x2048, .f32⟩
  | 7 => ⟨S8192x2048, .f32⟩
  | 8 => ⟨S7168, .i32⟩
  | 9 => ⟨S8192, .i32⟩
  | 10 => ⟨S1024x2048, .f32⟩
  | 11 => ⟨S_, .f32⟩
  | 12 => ⟨S1024, .f32⟩
  | 13 => ⟨S1024x1, .f32⟩
  | 14 => ⟨S1024x1, .f32⟩
  | 15 => ⟨S_, .f32⟩
  | 16 => ⟨S_, .f32⟩
  | 17 => ⟨S1024x1, .f32⟩
  | 18 => ⟨S1024x1, .f32⟩
  | 19 => ⟨S1024x2048, .f32⟩
  | 20 => ⟨S1024x2048, .f32⟩
  | 21 => ⟨S8192x2048, .f32⟩
  | 22 => ⟨S_, .f32⟩
  | 23 => ⟨S8192, .f32⟩
  | 24 => ⟨S8192x1, .f32⟩
  | 25 => ⟨S8192x1, .f32⟩
  | 26 => ⟨S_, .f32⟩
  | 27 => ⟨S_, .f32⟩
  | 28 => ⟨S8192x1, .f32⟩
  | 29 => ⟨S8192x1, .f32⟩
  | 30 => ⟨S8192x2048, .f32⟩
  | 31 => ⟨S8192x2048, .f32⟩
  | 32 => ⟨S2048x8192, .f32⟩
  | 33 => ⟨S1024x8192, .f32⟩
  | 34 => ⟨S8192x2048, .f32⟩
  | 35 => ⟨S_, .f32⟩
  | 36 => ⟨S8192, .f32⟩
  | 37 => ⟨S8192x1, .f32⟩
  | 38 => ⟨S8192x1, .f32⟩
  | 39 => ⟨S_, .f32⟩
  | 40 => ⟨S_, .f32⟩
  | 41 => ⟨S8192x1, .f32⟩
  | 42 => ⟨S8192x1, .f32⟩
  | 43 => ⟨S8192x2048, .f32⟩
  | 44 => ⟨S8192x2048, .f32⟩
  | 45 => ⟨S_, .i32⟩
  | 46 => ⟨S1024, .i32⟩
  | 47 => ⟨S1024, .i1⟩
  | 48 => ⟨S_, .i32⟩
  | 49 => ⟨S1024, .i32⟩
  | 50 => ⟨S1024, .i32⟩
  | 51 => ⟨S1024, .i32⟩
  | 52 => ⟨S1024x1, .i32⟩
  | 53 => ⟨S1024x2048, .f32⟩
  | 54 => ⟨S1024x2048, .f32⟩
  | 55 => ⟨S_, .f32⟩
  | 56 => ⟨S1024, .f32⟩
  | 57 => ⟨S_, .f32⟩
  | 58 => ⟨S_, .f32⟩
  | 59 => ⟨S_, .f32⟩
  | 60 => ⟨S1024, .f32⟩
  | 61 => ⟨S1024, .f32⟩
  | 62 => ⟨S_, .f32⟩
  | 63 => ⟨S1024, .f32⟩
  | 64 => ⟨S1024, .f32⟩
  | 65 => ⟨S1024, .f32⟩
  | 66 => ⟨S_, .f32⟩
  | 67 => ⟨S1024, .f32⟩
  | 68 => ⟨S1024, .f32⟩
  | 69 => ⟨S_, .f32⟩
  | 70 => ⟨S_, .f32⟩
  | 71 => ⟨S_, .f32⟩
  | 72 => ⟨S1024, .f32⟩
  | 73 => ⟨S1024, .f32⟩
  | 74 => ⟨S_, .f32⟩
  | 75 => ⟨S1024, .f32⟩
  | 76 => ⟨S1024, .f32⟩
  | 77 => ⟨S1024, .f32⟩
  | 78 => ⟨S_, .f32⟩
  | 79 => ⟨S1024, .f32⟩
  | 80 => ⟨S1024, .f32⟩
  | 81 => ⟨S_, .f32⟩
  | 82 => ⟨S1024, .f32⟩
  | 83 => ⟨S1024, .f32⟩
  | 84 => ⟨S1024, .f32⟩
  | 85 => ⟨S_, .f32⟩
  | 86 => ⟨S1024, .f32⟩
  | 87 => ⟨S1024, .i1⟩
  | 88 => ⟨S_, .f32⟩
  | 89 => ⟨S1024, .f32⟩
  | 90 => ⟨S1024, .f32⟩
  | 91 => ⟨S1024, .f32⟩
  | 92 => ⟨S_, .f32⟩
  | 93 => ⟨S1024, .f32⟩
  | 94 => ⟨S1024, .f32⟩
  | 95 => ⟨S1024, .i32⟩
  | 96 => ⟨S_, .i32⟩
  | 97 => ⟨S1024, .i32⟩
  | 98 => ⟨S1024, .i1⟩
  | 99 => ⟨S_, .i32⟩
  | 100 => ⟨S1024, .i32⟩
  | 101 => ⟨S1024, .i32⟩
  | 102 => ⟨S1024, .i32⟩
  | 103 => ⟨S_, .i32⟩
  | 104 => ⟨S1024, .i32⟩
  | 105 => ⟨S1024, .i1⟩
  | 106 => ⟨S_, .i32⟩
  | 107 => ⟨S1024, .i32⟩
  | 108 => ⟨S1024, .i32⟩
  | 109 => ⟨S1024, .i32⟩
  | 110 => ⟨S1024x1, .i32⟩
  | 111 => ⟨S1024x1, .i32⟩
  | 112 => ⟨S1024x2, .i32⟩
  | 113 => ⟨S1024x8192, .f32⟩
  | 114 => ⟨S1x8192, .i32⟩
  | 115 => ⟨S1024x1, .i32⟩
  | 116 => ⟨S1024x8192, .i32⟩
  | 117 => ⟨S1024x8192, .i32⟩
  | 118 => ⟨S1024x8192, .i1⟩
  | 119 => ⟨S_, .f32⟩
  | 120 => ⟨S1024x8192, .f32⟩
  | 121 => ⟨S1024x8192, .f32⟩
  | 122 => ⟨S1024x8192, .f32⟩
  | 123 => ⟨S_, .f32⟩
  | 124 => ⟨S_, .f32⟩
  | 125 => ⟨S1024x8192, .f32⟩
  | 126 => ⟨S1024x8192, .f32⟩
  | 127 => ⟨S_, .f32⟩
  | _ => ⟨S1024x2048, .f32⟩

abbrev hbmTy0_1 (i : Nat) : BufTy := match i % 128 with
  | 0 => ⟨S1024, .f32⟩
  | 1 => ⟨S1024x1, .f32⟩
  | 2 => ⟨S_, .f32⟩
  | 3 => ⟨S1024x8192, .f32⟩
  | 4 => ⟨S1024x8192, .f32⟩
  | 5 => ⟨S1024x8192, .f32⟩
  | 6 => ⟨S1024x8192, .f32⟩
  | 7 => ⟨S_, .f32⟩
  | 8 => ⟨S1024x8192, .f32⟩
  | 9 => ⟨S1024x8192, .f32⟩
  | 10 => ⟨S1024x8192, .f32⟩
  | 11 => ⟨S1024x8192, .f32⟩
  | 12 => ⟨S1024x8192, .f32⟩
  | 13 => ⟨S1024x8192, .i32⟩
  | 14 => ⟨S_, .i32⟩
  | 15 => ⟨S_, .i32⟩
  | 16 => ⟨S_, .i32⟩
  | 17 => ⟨S_, .i32⟩
  | 18 => ⟨S_, .f32⟩
  | 19 => ⟨S_, .f32⟩
  | 20 => ⟨S1024x8192, .f32⟩
  | 21 => ⟨S1024x8192, .f32⟩
  | 22 => ⟨S_, .f32⟩
  | 23 => ⟨S_, .f32⟩
  | 24 => ⟨S_, .f32⟩
  | 25 => ⟨S_, .f32⟩
  | _ => ⟨S1024x2048, .f32⟩

abbrev hbmTy (i : Nat) : BufTy := match i / 128 with
  | 0 => hbmTy0_0 i
  | 1 => hbmTy0_1 i
  | _ => ⟨S1024x2048, .f32⟩

abbrev bufTy : (tb : Table) → Fin (tcTables nBuf tb) → BufTy
  | .hbm, ⟨i, _⟩ => hbmTy i
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v4 : Ref sig .tc := ⟨.hbm, 14, rfl⟩
abbrev main_cst : Ref sig .tc := ⟨.hbm, 15, rfl⟩
abbrev main_call1_v0 : Ref sig .tc := ⟨.hbm, 16, rfl⟩
abbrev main_call1_v1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call2_v0 : Ref sig .tc := ⟨.hbm, 21, rfl⟩
abbrev main_call2_cst : Ref sig .tc := ⟨.hbm, 22, rfl⟩
abbrev main_call2_v1 : Ref sig .tc := ⟨.hbm, 23, rfl⟩
abbrev main_call2_v2 : Ref sig .tc := ⟨.hbm, 24, rfl⟩
abbrev main_v8 : Ref sig .tc := ⟨.hbm, 25, rfl⟩
abbrev main_cst_0 : Ref sig .tc := ⟨.hbm, 26, rfl⟩
abbrev main_call3_v0 : Ref sig .tc := ⟨.hbm, 27, rfl⟩
abbrev main_call3_v1 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_call4_v0 : Ref sig .tc := ⟨.hbm, 34, rfl⟩
abbrev main_call4_cst : Ref sig .tc := ⟨.hbm, 35, rfl⟩
abbrev main_call4_v1 : Ref sig .tc := ⟨.hbm, 36, rfl⟩
abbrev main_call4_v2 : Ref sig .tc := ⟨.hbm, 37, rfl⟩
abbrev main_v14 : Ref sig .tc := ⟨.hbm, 38, rfl⟩
abbrev main_cst_1 : Ref sig .tc := ⟨.hbm, 39, rfl⟩
abbrev main_call5_v0 : Ref sig .tc := ⟨.hbm, 40, rfl⟩
abbrev main_call5_v1 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_c : Ref sig .tc := ⟨.hbm, 45, rfl⟩
abbrev main_v18 : Ref sig .tc := ⟨.hbm, 46, rfl⟩
abbrev main_v19 : Ref sig .tc := ⟨.hbm, 47, rfl⟩
abbrev main_c_2 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_3 : Ref sig .tc := ⟨.hbm, 55, rfl⟩
abbrev main_v26 : Ref sig .tc := ⟨.hbm, 56, rfl⟩
abbrev main_cst_4 : Ref sig .tc := ⟨.hbm, 57, rfl⟩
abbrev main_cst_5 : Ref sig .tc := ⟨.hbm, 58, rfl⟩
abbrev main_call6_v0 : Ref sig .tc := ⟨.hbm, 59, rfl⟩
abbrev main_call6_v1 : Ref sig .tc := ⟨.hbm, 60, rfl⟩
abbrev main_call6_v2 : Ref sig .tc := ⟨.hbm, 61, rfl⟩
abbrev main_call6_v3 : Ref sig .tc := ⟨.hbm, 62, rfl⟩
abbrev main_call6_v4 : Ref sig .tc := ⟨.hbm, 63, rfl⟩
abbrev main_v27 : Ref sig .tc := ⟨.hbm, 64, rfl⟩
abbrev main_v28 : Ref sig .tc := ⟨.hbm, 65, rfl⟩
abbrev main_cst_6 : Ref sig .tc := ⟨.hbm, 66, rfl⟩
abbrev main_v29 : Ref sig .tc := ⟨.hbm, 67, rfl⟩
abbrev main_v30 : Ref sig .tc := ⟨.hbm, 68, rfl⟩
abbrev main_cst_7 : Ref sig .tc := ⟨.hbm, 69, rfl⟩
abbrev main_cst_8 : Ref sig .tc := ⟨.hbm, 70, rfl⟩
abbrev main_call7_v0 : Ref sig .tc := ⟨.hbm, 71, rfl⟩
abbrev main_call7_v1 : Ref sig .tc := ⟨.hbm, 72, rfl⟩
abbrev main_call7_v2 : Ref sig .tc := ⟨.hbm, 73, rfl⟩
abbrev main_call7_v3 : Ref sig .tc := ⟨.hbm, 74, rfl⟩
abbrev main_call7_v4 : Ref sig .tc := ⟨.hbm, 75, rfl⟩
abbrev main_v31 : Ref sig .tc := ⟨.hbm, 76, rfl⟩
abbrev main_v32 : Ref sig .tc := ⟨.hbm, 77, rfl⟩
abbrev main_cst_9 : Ref sig .tc := ⟨.hbm, 78, rfl⟩
abbrev main_v33 : Ref sig .tc := ⟨.hbm, 79, rfl⟩
abbrev main_v34 : Ref sig .tc := ⟨.hbm, 80, rfl⟩
abbrev main_cst_10 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_cst_11 : Ref sig .tc := ⟨.hbm, 85, rfl⟩
abbrev main_v38 : Ref sig .tc := ⟨.hbm, 86, rfl⟩
abbrev main_v39 : Ref sig .tc := ⟨.hbm, 87, rfl⟩
abbrev main_cst_12 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_cst_13 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_c_14 : Ref sig .tc := ⟨.hbm, 96, rfl⟩
abbrev main_v46 : Ref sig .tc := ⟨.hbm, 97, rfl⟩
abbrev main_v47 : Ref sig .tc := ⟨.hbm, 98, rfl⟩
abbrev main_c_15 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_c_16 : Ref sig .tc := ⟨.hbm, 103, rfl⟩
abbrev main_v51 : Ref sig .tc := ⟨.hbm, 104, rfl⟩
abbrev main_v52 : Ref sig .tc := ⟨.hbm, 105, rfl⟩
abbrev main_c_17 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_cst_18 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_cst_19 : Ref sig .tc := ⟨.hbm, 123, rfl⟩
abbrev main_call9_v0 : Ref sig .tc := ⟨.hbm, 124, rfl⟩
abbrev main_call9_v1 : Ref sig .tc := ⟨.hbm, 125, rfl⟩
abbrev main_v68 : Ref sig .tc := ⟨.hbm, 126, rfl⟩
abbrev main_cst_20 : Ref sig .tc := ⟨.hbm, 127, rfl⟩
abbrev main_v69 : Ref sig .tc := ⟨.hbm, 128, rfl⟩
abbrev main_v70 : Ref sig .tc := ⟨.hbm, 129, rfl⟩
abbrev main_cst_21 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_cst_22 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_c_23 : Ref sig .tc := ⟨.hbm, 142, rfl⟩
abbrev main_v81 : Ref sig .tc := ⟨.hbm, 143, rfl⟩
abbrev main_c_24 : Ref sig .tc := ⟨.hbm, 144, rfl⟩
abbrev main_v82 : Ref sig .tc := ⟨.hbm, 145, rfl⟩
abbrev main_cst_25 : Ref sig .tc := ⟨.hbm, 146, rfl⟩
abbrev main_call10_v0 : Ref sig .tc := ⟨.hbm, 147, rfl⟩
abbrev main_call10_v1 : Ref sig .tc := ⟨.hbm, 148, rfl⟩
abbrev main_v83 : Ref sig .tc := ⟨.hbm, 149, rfl⟩
abbrev main_cst_26 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩

abbrev nD : Nat := 1
abbrev τ : Topo := Topo.v7x

variable {F : FTy → Type} [FloatOps F]

class Facts₀ : Prop where
  slices_S8192x2048_S7168x2048_0_0 : S8192x2048.Slices ![0, 0] S7168x2048
  concatenates_S1024x2048_S7168x2048_S8192x2048_d0 : Shape.Concatenates [S1024x2048, S7168x2048] S8192x2048 0
  slices_S8192_S7168_0 : S8192.Slices ![0] S7168
  concatenates_S1024_S7168_S8192_d0 : Shape.Concatenates [S1024, S7168] S8192 0
  reducesTo_S1024x2048_S1024_d1 : S1024x2048.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x2048_0_1 : S1024x1.BroadcastsInDim S1024x2048 (![0, 1] : Fin 2 → Fin S1024x2048.rank)
  reducesTo_S8192x2048_S8192_d1 : S8192x2048.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x2048_0_1 : S8192x1.BroadcastsInDim S8192x2048 (![0, 1] : Fin 2 → Fin S8192x2048.rank)
  transposes_S8192x2048_S2048x8192_1_0 : S8192x2048.Transposes [1, 0] S2048x8192
  bcast_S_S1024 : S_.BroadcastsInDim S1024 (![] : Fin 0 → Fin S1024.rank)
  concatenates_S1024x1_S1024x1_S1024x2_d1 : Shape.Concatenates [S1024x1, S1024x1] S1024x2 1
  bcast_S8192_S1x8192_1 : S8192.BroadcastsInDim S1x8192 (![1] : Fin 1 → Fin S1x8192.rank)
  bcast_S1x8192_S1024x8192_0_1 : S1x8192.BroadcastsInDim S1024x8192 (![0, 1] : Fin 2 → Fin S1024x8192.rank)
  bcast_S1024x1_S1024x8192_0_1 : S1024x1.BroadcastsInDim S1024x8192 (![0, 1] : Fin 2 → Fin S1024x8192.rank)
  bcast_S_S1024x8192 : S_.BroadcastsInDim S1024x8192 (![] : Fin 0 → Fin S1024x8192.rank)
  reducesTo_S1024x8192_S1024_d1 : S1024x8192.ReducesTo [1] S1024
  natLt_1_32 : 1 < 32
  reducesTo_S1024x8192_S_d0_1 : S1024x8192.ReducesTo [0, 1] S_
  dot_S1024x2048_S2048x8192_S1024x8192_1_0_0_1_n_n_wf : DotDims.WF S1024x2048 S2048x8192 S1024x8192 [1] [0] [0] [1] [] []
  gather_S8192x2048_S1024x1_S1024x2048_1_0_n_n_0_1_12048_wf : GatherDims.WF S8192x2048 S1024x1 S1024x2048 [1] [0] [] [0] [] 1 ![1, 2048]
  scatter_S1024x8192_S1024x2_S1024_n_01_01_1_wf : ScatterDims.WF S1024x8192 S1024x2 S1024 [] [0, 1] [0, 1] 1

variable [Facts₀]

def dot_S1024x2048_S2048x8192_S1024x8192_1_0_0_1_n_n : DotDims S1024x2048 S2048x8192 S1024x8192 where
  lhsContracting := [1]
  rhsContracting := [0]
  lhsNonContracting := [0]
  rhsNonContracting := [1]
  lhsBatch := []
  rhsBatch := []
  wf := dot_S1024x2048_S2048x8192_S1024x8192_1_0_0_1_n_n_wf
def gather_S8192x2048_S1024x1_S1024x2048_1_0_n_n_0_1_12048 : GatherDims S8192x2048 S1024x1 S1024x2048 where
  offsetDims := [1]
  collapsedSliceDims := [0]
  operandBatchingDims := []
  startIndicesBatchingDims := []
  startIndexMap := [0]
  indexVectorDim := 1
  sliceSizes := ![1, 2048]
  wf := gather_S8192x2048_S1024x1_S1024x2048_1_0_n_n_0_1_12048_wf
def scatter_S1024x8192_S1024x2_S1024_n_01_01_1 : ScatterDims S1024x8192 S1024x2 S1024 where
  updateWindowDims := []
  insertedWindowDims := [0, 1]
  scatterDimsToOperandDims := [0, 1]
  indexVectorDim := 1
  wf := scatter_S1024x8192_S1024x2_S1024_n_01_01_1_wf

class Facts : Prop extends Facts₀ where

variable [Facts]
-- ==== Proof.LibOwns.lean ====
import Idealize.ShloMosaic.Lib.Memref
import Idealize.ShloMosaic.Lib.Pipeline.Frame

noncomputable section

namespace Idealize.ShloMosaic

open Idealize.SL
open Idealize.SL.BI (sProp)
open scoped Idealize.SL.BI
open Idealize.SL.BI.BIBase Idealize.SL.BI.Laws Idealize.SL.ProofMode
open Idealize.SL.RA

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

-- Reading through a whole memref is a bijection, so owning it at what it reads is its points-to at the one contents that read so.
theorem owns_eq_unread (c : Dev nD) {sp : Space} {sh : Shape} {e : EltTy} {m : Memref sig .tc sp sh e} (h : m.IsWhole)
    (q : PosShare TreeShare) (x : sh.Idx → Val e) :
    (owns (c.tc : Thread nD τ) m q x : sProp 𝕄) = (m.view.loc (c.tc : Thread nD τ) ↦[m.view.set]{q} h.unread x) := by
  unfold owns
  have h₁ : iprop(∃ f, ⌜m.view.read Val f = x⌝ ∗ (m.view.loc (c.tc : Thread nD τ) ↦[m.view.set]{q} f)) ⊢ (m.view.loc (c.tc : Thread nD τ) ↦[m.view.set]{q} h.unread x : sProp 𝕄) := by
    iintro ⟨%f, %hf, H⟩; obtain rfl := h.eq_unread hf; iexact H
  have h₂ : (m.view.loc (c.tc : Thread nD τ) ↦[m.view.set]{q} h.unread x : sProp 𝕄) ⊢ iprop(∃ f, ⌜m.view.read Val f = x⌝ ∗ (m.view.loc (c.tc : Thread nD τ) ↦[m.view.set]{q} f)) := by
    iintro H; iexists _; isplitr
    · ipureintro; exact h.read_unread _
    iexact H
  exact BI.equiv_iff.mp ⟨h₁, h₂⟩

end Idealize.ShloMosaic

end
-- ==== Proof.K.Reg0Runs.lean ====
import proofs.«419856_j5566277616543_1_alg».proof.Proof.Gen.Kernel.Launch
import proofs.«419856_j5566277616543_1_alg».proof.Proof.Gen.Kernel.Skeleton
import proofs.«419856_j5566277616543_1_alg».proof.Proof.Gen.Kernel.Points
import proofs.«419856_j5566277616543_1_alg».proof.Proof.LibOwns
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
theorem liveAt0_6_C : ∀ t : Fin cfg0.N, ¬cond0_0 (grid0.coords t) → cond0_1 (grid0.coords t) → cfg0.idle 6 (grid0.coords t) = false := by decide +kernel

abbrev VO0_5 : View sig .tc .vmem S256x2048 .f32 := (Memref.whole cc0_stg5_0 : Memref sig .tc .vmem S256x2048 .f32).view
abbrev VO0_6 : View sig .tc .vmem S256x1 .f32 := (Memref.whole cc0_stg6_0 : Memref sig .tc .vmem S256x1 .f32).view
abbrev ms0_0 (t : Fin cfg0.N) : Memref sig .tc .vmem S256x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1 .f32 := win0_6.stage (cfg0.slots t 6)
abbrev hs0_6 (t : Fin cfg0.N) : (ms0_6 t).IsWhole := hstage0_6 ((cfg0.slots t 6).cast nbuf0_6)
abbrev scM0_0 : Memref sig .tc .vmem S256x1 .f32 := Memref.whole cc0_scratch0
abbrev VS0_0 : View sig .tc .vmem S256x1 .f32 := scM0_0.view

abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA; rw [scopedRest0_eq]; simp only [scM0_0, owns_whole]; try rfl

variable (c : Dev nD) (i : grid0.Coords) (arg2 : Memref sig .tc .vmem S256x2048 .bf16) (harg2 : arg2.IsWhole) (arg3 : Memref sig .tc .vmem S2048x2048 .bf16) (harg3 : arg3.IsWhole) (arg4 : Memref sig .tc .vmem S256x1 .i32) (harg4 : arg4.IsWhole) (arg5 : Memref sig .tc .vmem S1x2048 .i32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (arg9 : Memref sig .tc .vmem S256x1 .f32) (harg9 : arg9.IsWhole)

set_option maxHeartbeats 1000000 in
noncomputable def kernelRun0_A (hc0 : cond0_0 i) (hc1 : ¬cond0_1 i)
    (x0 : Vec F S256x2048 .bf16) (x1 : Vec F S2048x2048 .bf16) (x2 : Vec F S256x1 .i32) (x3 : Vec F S1x2048 .i32) (x4 : Vec F S256x1 .f32) :
    Σ' (L5 : List (View.Piece (Elt F) S256x2048 .f32)) (L6 : List (View.Piece (Elt F) S256x1 .f32)), { LS0 : List (View.Piece (Elt F) S256x1 .f32) //
      ∀ (xi6 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__kernelA_body i arg2 harg2 arg3 harg3 arg4 harg4 arg5 harg5 arg6 harg6 arg7 harg7 arg8 harg8 arg9 harg9) K } := by
  refine ⟨?_, [], ?_, fun xi6 E K => ?run⟩
  case run =>
    simp only [cc0__kernelA_body_eq_skeleton]; unfold cc0__kernelA_body_skel
    simp only [k0_part1_eq_skeleton]; unfold k0_part1_skel
    simp only [owns_eq_unread c harg2, owns_eq_unread c harg3, owns_eq_unread c harg4, owns_eq_unread c harg5, owns_eq_unread c harg6, owns_eq_unread c harg7, owns_eq_unread c harg8, owns_eq_unread c harg9]
    iintro ⟨H0, H1, H2, H3, H4, ⟨%d5, H5⟩, H6, ⟨%ds0, HS0⟩, Hk⟩
    sl_exec (disch := first | exact hc0 | exact hc1)
    sl_step
    iapply Hk
    iframe H0 H1 H2 H3 H4 H6
    isplitl [H5]; · iexists _; iexact H5
    iexists _; iexact HS0

set_option maxHeartbeats 1000000 in
noncomputable def kernelRun0_B (hc0 : ¬cond0_0 i) (hc1 : ¬cond0_1 i)
    (x0 : Vec F S256x2048 .bf16) (x1 : Vec F S2048x2048 .bf16) (x2 : Vec F S256x1 .i32) (x3 : Vec F S1x2048 .i32) (x4 : Vec F S256x1 .f32) (xs0 : Vec F S256x1 .f32) :
    Σ' (L5 : List (View.Piece (Elt F) S256x2048 .f32)) (L6 : List (View.Piece (Elt F) S256x1 .f32)), { LS0 : List (View.Piece (Elt F) S256x1 .f32) //
      ∀ (xi6 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__kernelA_body i arg2 harg2 arg3 harg3 arg4 harg4 arg5 harg5 arg6 harg6 arg7 harg7 arg8 harg8 arg9 harg9) K } := by
  refine ⟨?_, [], ?_, fun xi6 E K => ?run⟩
  case run =>
    simp only [cc0__kernelA_body_eq_skeleton]; unfold cc0__kernelA_body_skel
    simp only [k0_part1_eq_skeleton]; unfold k0_part1_skel
    simp only [owns_eq_unread c harg2, owns_eq_unread c harg3, owns_eq_unread c harg4, owns_eq_unread c harg5, owns_eq_unread c harg6, owns_eq_unread c harg7, owns_eq_unread c harg8, owns_eq_unread c harg9]
    iintro ⟨H0, H1, H2, H3, H4, ⟨%d5, H5⟩, H6, HS0, Hk⟩
    sl_exec (disch := first | exact hc0 | exact hc1)
    sl_step
    iapply Hk
    iframe H0 H1 H2 H3 H4 H6
    isplitl [H5]; · iexists _; iexact H5
    iexists _; iexact HS0

set_option maxHeartbeats 1000000 in
noncomputable def kernelRun0_C (hc0 : ¬cond0_0 i) (hc1 : cond0_1 i)
    (x0 : Vec F S256x2048 .bf16) (x1 : Vec F S2048x2048 .bf16) (x2 : Vec F S256x1 .i32) (x3 : Vec F S1x2048 .i32) (x4 : Vec F S256x1 .f32) (xs0 : Vec F S256x1 .f32) :
    Σ' (L5 : List (View.Piece (Elt F) S256x2048 .f32)) (L6 : List (View.Piece (Elt F) S256x1 .f32)), { LS0 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__kernelA_body i arg2 harg2 arg3 harg3 arg4 harg4 arg5 harg5 arg6 harg6 arg7 harg7 arg8 harg8 arg9 harg9) K } := by
  refine ⟨?_, ?_, ?_, fun E K => ?run⟩
  case run =>
    simp only [cc0__kernelA_body_eq_skeleton]; unfold cc0__kernelA_body_skel
    simp only [k0_part1_eq_skeleton]; unfold k0_part1_skel
    simp only [owns_eq_unread c harg2, owns_eq_unread c harg3, owns_eq_unread c harg4, owns_eq_unread c harg5, owns_eq_unread c harg6, owns_eq_unread c harg7, owns_eq_unread c harg8, owns_eq_unread c harg9]
    iintro ⟨H0, H1, H2, H3, H4, ⟨%d5, H5⟩, ⟨%d6, H6⟩, HS0, Hk⟩
    sl_exec (disch := first | exact hc0 | exact hc1)
    sl_step
    iapply Hk
    iframe H0 H1 H2 H3 H4
    isplitl [H5]; · iexists _; iexact H5
    isplitl [H6]; · iexists _; iexact H6
    iexists _; iexact HS0

end Cert.Kernel.Hand

end
-- ==== Proof.K.Reg0.lean ====
import proofs.«419856_j5566277616543_1_alg».proof.Proof.K.Reg0Runs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz0 : (![0, 0] : Fin 2 → Nat) = fun _ => 0 := funext fun a => by fin_cases a <;> rfl

section Pieces

variable {c : Dev nD} {i : grid0.Coords} {arg2 : Memref sig .tc .vmem S256x2048 .bf16} {harg2 : arg2.IsWhole} {arg3 : Memref sig .tc .vmem S2048x2048 .bf16} {harg3 : arg3.IsWhole} {arg4 : Memref sig .tc .vmem S256x1 .i32} {harg4 : arg4.IsWhole} {arg5 : Memref sig .tc .vmem S1x2048 .i32} {harg5 : arg5.IsWhole} {arg6 : Memref sig .tc .vmem S256x1 .f32} {harg6 : arg6.IsWhole} {arg7 : Memref sig .tc .vmem S256x2048 .f32} {harg7 : arg7.IsWhole} {arg8 : Memref sig .tc .vmem S256x1 .f32} {harg8 : arg8.IsWhole} {arg9 : Memref sig .tc .vmem S256x1 .f32} {harg9 : arg9.IsWhole}
  {x0 : Vec F S256x2048 .bf16} {x1 : Vec F S2048x2048 .bf16} {x2 : Vec F S256x1 .i32} {x3 : Vec F S1x2048 .i32} {x4 : Vec F S256x1 .f32} {xs0 : Vec F S256x1 .f32}

-- Every store fills its whole buffer, so what a case's stores leave, read through any view over any prior contents, is the last store's payload.
theorem e_A0 (hc0 : cond0_0 i) (hc1 : ¬cond0_1 i) (v : View sig .tc .vmem S256x2048 .f32) (f : v.ty.Contents (Elt F)) :
    v.read (Elt F) (v.writes (Elt F) f (kernelRun0_A c i arg2 harg2 arg3 harg3 arg4 harg4 arg5 harg5 arg6 harg6 arg7 harg7 arg8 harg8 arg9 harg9 hc0 hc1 x0 x1 x2 x3 x4).1) = k0_pay4 i x0 x1 x2 x4 := by
  refine (View.read_writes_eq_canon _ _ _ (View.cover_of_tiledL _ S256x2048.size ?_)).trans ?_
  · sl_kernel_rfl
  unfold kernelRun0_A; dsimp only; sl_unfold_words; (try dsimp only)
  rw [View.canon_unit_zero hz0]
  simp only [View.readAt_eq_ld, harg2.read_unread, harg3.read_unread, harg4.read_unread, harg5.read_unread, harg6.read_unread, harg9.read_unread, View.ld_unit_zero (S := S256x2048) hz0, View.ld_unit_zero (S := S2048x2048) hz0, View.ld_unit_zero (S := S256x1) hz0, View.ld_unit_zero (S := S1x2048) hz0]

theorem acc_A0 (hc0 : cond0_0 i) (hc1 : ¬cond0_1 i) (v : View sig .tc .vmem S256x1 .f32) (f : v.ty.Contents (Elt F)) :
    v.read (Elt F) (v.writes (Elt F) f (kernelRun0_A c i arg2 harg2 arg3 harg3 arg4 harg4 arg5 harg5 arg6 harg6 arg7 harg7 arg8 harg8 arg9 harg9 hc0 hc1 x0 x1 x2 x3 x4).2.2.1) = k0_pay1 k0_pay2 (k0_pay5 i x0 x1 x2 x4 x3) := by
  refine (View.read_writes_eq_canon _ _ _ (View.cover_of_tiledL _ S256x1.size ?_)).trans ?_
  · sl_kernel_rfl
  unfold kernelRun0_A; dsimp only; sl_unfold_words; (try dsimp only)
  rw [View.canon_cons_unit_zero (S := S256x1) hz0, View.readCov_unit_zero (S := S256x1) _ hz0]
  simp only [View.readAt_eq_ld, harg2.read_unread, harg3.read_unread, harg4.read_unread, harg5.read_unread, harg6.read_unread, harg9.read_unread, View.ld_unit_zero (S := S256x2048) hz0, View.ld_unit_zero (S := S2048x2048) hz0, View.ld_unit_zero (S := S256x1) hz0, View.ld_unit_zero (S := S1x2048) hz0]

theorem e_B0 (hc0 : ¬cond0_0 i) (hc1 : ¬cond0_1 i) (v : View sig .tc .vmem S256x2048 .f32) (f : v.ty.Contents (Elt F)) :
    v.read (Elt F) (v.writes (Elt F) f (kernelRun0_B c i arg2 harg2 arg3 harg3 arg4 harg4 arg5 harg5 arg6 harg6 arg7 harg7 arg8 harg8 arg9 harg9 hc0 hc1 x0 x1 x2 x3 x4 xs0).1) = k0_pay4 i x0 x1 x2 x4 := by
  refine (View.read_writes_eq_canon _ _ _ (View.cover_of_tiledL _ S256x2048.size ?_)).trans ?_
  · sl_kernel_rfl
  unfold kernelRun0_B; dsimp only; sl_unfold_words; (try dsimp only)
  rw [View.canon_unit_zero hz0]
  simp only [View.readAt_eq_ld, harg2.read_unread, harg3.read_unread, harg4.read_unread, harg5.read_unread, harg6.read_unread, harg9.read_unread, View.ld_unit_zero (S := S256x2048) hz0, View.ld_unit_zero (S := S2048x2048) hz0, View.ld_unit_zero (S := S256x1) hz0, View.ld_unit_zero (S := S1x2048) hz0]

theorem acc_B0 (hc0 : ¬cond0_0 i) (hc1 : ¬cond0_1 i) (v : View sig .tc .vmem S256x1 .f32) (f : v.ty.Contents (Elt F)) :
    v.read (Elt F) (v.writes (Elt F) f (kernelRun0_B c i arg2 harg2 arg3 harg3 arg4 harg4 arg5 harg5 arg6 harg6 arg7 harg7 arg8 harg8 arg9 harg9 hc0 hc1 x0 x1 x2 x3 x4 xs0).2.2.1) = k0_pay1 xs0 (k0_pay5 i x0 x1 x2 x4 x3) := by
  refine (View.read_writes_eq_canon _ _ _ (View.cover_of_tiledL _ S256x1.size ?_)).trans ?_
  · sl_kernel_rfl
  unfold kernelRun0_B; dsimp only; sl_unfold_words; (try dsimp only)
  rw [View.canon_unit_zero hz0]
  simp only [View.readAt_eq_ld, harg2.read_unread, harg3.read_unread, harg4.read_unread, harg5.read_unread, harg6.read_unread, harg9.read_unread, View.ld_unit_zero (S := S256x2048) hz0, View.ld_unit_zero (S := S2048x2048) hz0, View.ld_unit_zero (S := S256x1) hz0, View.ld_unit_zero (S := S1x2048) hz0]

theorem e_C0 (hc0 : ¬cond0_0 i) (hc1 : cond0_1 i) (v : View sig .tc .vmem S256x2048 .f32) (f : v.ty.Contents (Elt F)) :
    v.read (Elt F) (v.writes (Elt F) f (kernelRun0_C c i arg2 harg2 arg3 harg3 arg4 harg4 arg5 harg5 arg6 harg6 arg7 harg7 arg8 harg8 arg9 harg9 hc0 hc1 x0 x1 x2 x3 x4 xs0).1) = k0_pay4 i x0 x1 x2 x4 := by
  refine (View.read_writes_eq_canon _ _ _ (View.cover_of_tiledL _ S256x2048.size ?_)).trans ?_
  · sl_kernel_rfl
  unfold kernelRun0_C; dsimp only; sl_unfold_words; (try dsimp only)
  rw [View.canon_unit_zero hz0]
  simp only [View.readAt_eq_ld, harg2.read_unread, harg3.read_unread, harg4.read_unread, harg5.read_unread, harg6.read_unread, harg9.read_unread, View.ld_unit_zero (S := S256x2048) hz0, View.ld_unit_zero (S := S2048x2048) hz0, View.ld_unit_zero (S := S256x1) hz0, View.ld_unit_zero (S := S1x2048) hz0]

theorem neg_C0 (hc0 : ¬cond0_0 i) (hc1 : cond0_1 i) (v : View sig .tc .vmem S256x1 .f32) (f : v.ty.Contents (Elt F)) :
    v.read (Elt F) (v.writes (Elt F) f (kernelRun0_C c i arg2 harg2 arg3 harg3 arg4 harg4 arg5 harg5 arg6 harg6 arg7 harg7 arg8 harg8 arg9 harg9 hc0 hc1 x0 x1 x2 x3 x4 xs0).2.1) = k0_pay1 xs0 (k0_pay5 i x0 x1 x2 x4 x3) := by
  refine (View.read_writes_eq_canon _ _ _ (View.cover_of_tiledL _ S256x1.size ?_)).trans ?_
  · sl_kernel_rfl
  unfold kernelRun0_C; dsimp only; sl_unfold_words; (try dsimp only)
  rw [View.canon_unit_zero hz0, View.readCov_unit_zero (S := S256x1) _ hz0]
  simp only [View.readAt_eq_ld, harg2.read_unread, harg3.read_unread, harg4.read_unread, harg5.read_unread, harg6.read_unread, harg9.read_unread, View.ld_unit_zero (S := S256x2048) hz0, View.ld_unit_zero (S := S2048x2048) hz0, View.ld_unit_zero (S := S256x1) hz0, View.ld_unit_zero (S := S1x2048) hz0]

theorem acc_C0 (hc0 : ¬cond0_0 i) (hc1 : cond0_1 i) (v : View sig .tc .vmem S256x1 .f32) (f : v.ty.Contents (Elt F)) :
    v.read (Elt F) (v.writes (Elt F) f (kernelRun0_C c i arg2 harg2 arg3 harg3 arg4 harg4 arg5 harg5 arg6 harg6 arg7 harg7 arg8 harg8 arg9 harg9 hc0 hc1 x0 x1 x2 x3 x4 xs0).2.2.1) = k0_pay1 xs0 (k0_pay5 i x0 x1 x2 x4 x3) := by
  refine (View.read_writes_eq_canon _ _ _ (View.cover_of_tiledL _ S256x1.size ?_)).trans ?_
  · sl_kernel_rfl
  unfold kernelRun0_C; dsimp only; sl_unfold_words; (try dsimp only)
  rw [View.canon_unit_zero hz0]
  simp only [View.readAt_eq_ld, harg2.read_unread, harg3.read_unread, harg4.read_unread, harg5.read_unread, harg6.read_unread, harg9.read_unread, View.ld_unit_zero (S := S256x2048) hz0, View.ld_unit_zero (S := S2048x2048) hz0, View.ld_unit_zero (S := S256x1) hz0, View.ld_unit_zero (S := S1x2048) hz0]

end Pieces

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

-- The block of exponentials every point stores.
def eblk0 (c : Dev nD) (t : Fin cfg0.N) : Vec F S256x2048 .f32 :=
  k0_pay4 (grid0.coords t) (iblk0 V c 0 t) (iblk0 V c 1 t) (iblk0 V c 2 t) (iblk0 V c 4 t)

-- The row sums of a point's block over the columns that are not positive pairs.
def rows0 (c : Dev nD) (t : Fin cfg0.N) : Vec F S256x1 .f32 :=
  k0_pay5 (grid0.coords t) (iblk0 V c 0 t) (iblk0 V c 1 t) (iblk0 V c 2 t) (iblk0 V c 4 t) (iblk0 V c 3 t)

-- The accumulator after point n: a row block's running sum, restarted from zero at its first column tile.
def acc0 (c : Dev nD) : (n : ℕ) → n < cfg0.N → Vec F S256x1 .f32
  | 0, hn => k0_pay1 k0_pay2 (rows0 V c ⟨0, hn⟩)
  | n + 1, hn => k0_pay1 (if (n + 1) % 4 = 0 then k0_pay2 else acc0 c n (Nat.lt_of_succ_lt hn)) (rows0 V c ⟨n + 1, hn⟩)

theorem acc0_unfold (c : Dev nD) (t : Fin cfg0.N) :
    acc0 V c t.val t.isLt = k0_pay1 (if t.val % 4 = 0 then k0_pay2 else acc0 V c (t.val - 1) (Nat.lt_of_le_of_lt (Nat.sub_le _ _) t.isLt)) (rows0 V c t) := by
  obtain ⟨n, hn⟩ := t
  cases n with
  | zero => rfl
  | succ n => rfl

def PhiS0 (c : Dev nD) : (n : ℕ) → n ≤ cfg0.N → sProp 𝕄
  | 0, _ => Pipeline.ΦA spec0 c
  | n + 1, hn => iprop(iprop(owns (c : Thread nD τ) scM0_0 fullShare (acc0 V c n hn) ∗ rest0 c) ∗ (∃ r, prngReg c r))

theorem PhiS0_succ (c : Dev nD) (n : ℕ) (hn : n < cfg0.N) :
    PhiS0 V c (n + 1) hn = iprop(iprop(owns (c : Thread nD τ) scM0_0 fullShare (acc0 V c n hn) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (acc0 V c (n - 1) (by omega)) ∗ rest0 c) ∗ (∃ r, prngReg c r)) := by
  cases n with
  | zero => exact absurd rfl hz
  | succ n => rfl

-- Forgetting the accumulator's contents, the invariant at any point entails the resource the region is entered with.
theorem PhiS0_out (c : Dev nD) : ∀ (n : ℕ) (h : n ≤ cfg0.N), PhiS0 V c n h ⊢ Pipeline.ΦA spec0 c
  | 0, _ => .rfl
  | n + 1, h => by
    rw [PhiS0_succ, PhiA0_eq]
    iintro ⟨⟨HS0, Hr⟩, Hg⟩
    isplitl [HS0 Hr]
    · isplitl [HS0]
      · iexists _; iexact HS0
      iexact Hr
    iexact Hg

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => eblk0 V c t
    | ⟨6, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = eblk0 V c t := by dsimp only [dat0]
theorem after0_6 (c : Dev nD) (t : Fin cfg0.N) : (dat0 V c).after 6 t = acc0 V c t.val t.isLt := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
-- The point's control case picks the run; the invariant lends the accumulator and takes it back at the point's contents.
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ, PhiS0_castSucc V c t]
  rw [show (dat0 V c).leavesExact 0 t = owns (c : Thread nD τ) (ms0_0 t) fullShare ((dat0 V c).after 0 t) from by unfold Dat.leavesExact; rw [liveAt0_0 t], after0_0]
  rw [show (dat0 V c).leavesExact 1 t = owns (c : Thread nD τ) (ms0_1 t) fullShare ((dat0 V c).after 1 t) from by unfold Dat.leavesExact; rw [liveAt0_1 t], after0_1]
  rw [show (dat0 V c).leavesExact 2 t = owns (c : Thread nD τ) (ms0_2 t) fullShare ((dat0 V c).after 2 t) from by unfold Dat.leavesExact; rw [liveAt0_2 t], after0_2]
  rw [show (dat0 V c).leavesExact 3 t = owns (c : Thread nD τ) (ms0_3 t) fullShare ((dat0 V c).after 3 t) from by unfold Dat.leavesExact; rw [liveAt0_3 t], after0_3]
  rw [show (dat0 V c).leavesExact 4 t = owns (c : Thread nD τ) (ms0_4 t) fullShare ((dat0 V c).after 4 t) from by unfold Dat.leavesExact; rw [liveAt0_4 t], after0_4]
  rw [show (dat0 V c).leavesExact 5 t = owns (c : Thread nD τ) (ms0_5 t) fullShare ((dat0 V c).after 5 t) from by unfold Dat.leavesExact; rw [liveAt0_5 t], after0_5]
  have hN : t.val < 16 := lt_of_lt_of_eq t.isLt (show cfg0.N = 16 from N_0)
  by_cases h0 : t.val % 4 = 0
  · have h1 : ¬t.val % 4 = 3 := by omega
    rw [Dat.leavesExact_idle (dat0 V c) 6 t (idleAt0_6_A t ((hcond0_0 t).mpr h0) (fun h => h1 ((hcond0_1 t).mp h))) (noFlush0_6_A t ((hcond0_0 t).mpr h0) (fun h => h1 ((hcond0_1 t).mp h)))]
    rw [acc0_unfold V c t, if_pos h0]
    refine (sep_mono (PhiS0_out V c _ _) .rfl).trans ?_
    rw [PhiA0_eq]
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2.2 _ Set.univ _)
    iframe H0 H1 H2 H3 H4 H6 HS0
    isplitl [H5]; · iexists _; iexact H5
    iintro ⟨H0, H1, H2, H3, H4, ⟨%e5, H5⟩, H6, ⟨%es0, HS0⟩⟩
    iframe Hr Hg Ho H0 H1 H2 H3 H4
    isplitl [HS0]
    · unfold owns; iexists _; isplitr
      swap; · iexact HS0
      ipureintro; exact acc_A0 _ _ _ _
    isplitl [H5]
    · unfold owns; iexists _; isplitr
      swap; · iexact H5
      ipureintro; exact e_A0 _ _ _ _
    iexists _; iexact H6
  · have hz : t.val ≠ 0 := by omega
    rw [PhiS0_pos V c _ _ hz]
    by_cases h1 : t.val % 4 = 3
    · rw [show (dat0 V c).leavesExact 6 t = owns (c : Thread nD τ) (ms0_6 t) fullShare ((dat0 V c).after 6 t) from by unfold Dat.leavesExact; rw [liveAt0_6_C t (fun h => h0 ((hcond0_0 t).mp h)) ((hcond0_1 t).mpr h1)], after0_6]
      rw [acc0_unfold V c t, if_neg h0]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2.2 Set.univ _)
      iframe H0 H1 H2 H3 H4 HS0
      isplitl [H5]; · iexists _; iexact H5
      isplitl [H6]; · iexists _; iexact H6
      iintro ⟨H0, H1, H2, H3, H4, ⟨%e5, H5⟩, ⟨%e6, H6⟩, ⟨%es0, HS0⟩⟩
      iframe Hr Hg Ho H0 H1 H2 H3 H4
      isplitl [HS0]
      · unfold owns; iexists _; isplitr
        swap; · iexact HS0
        ipureintro; exact acc_C0 _ _ _ _
      isplitl [H5]
      · unfold owns; iexists _; isplitr
        swap; · iexact H5
        ipureintro; exact e_C0 _ _ _ _
      unfold owns; iexists _; isplitr
      swap; · iexact H6
      ipureintro; exact neg_C0 _ _ _ _
    · rw [Dat.leavesExact_idle (dat0 V c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [acc0_unfold V c t, if_neg h0]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _).2.2.2 _ Set.univ _)
      iframe H0 H1 H2 H3 H4 H6 HS0
      isplitl [H5]; · iexists _; iexact H5
      iintro ⟨H0, H1, H2, H3, H4, ⟨%e5, H5⟩, H6, ⟨%es0, HS0⟩⟩
      iframe Hr Hg Ho H0 H1 H2 H3 H4
      isplitl [HS0]
      · unfold owns; iexists _; isplitr
        swap; · iexact HS0
        ipureintro; exact acc_B0 _ _ _ _
      isplitl [H5]
      · unfold owns; iexists _; isplitr
        swap; · iexact H5
        ipureintro; exact e_B0 _ _ _ _
      iexists _; iexact H6

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := .rfl

theorem hout0 (c : Dev nD) : (dat0 V c).Φ (Fin.last cfg0.N) ⊢ Pipeline.ΦA spec0 c :=
  PhiS0_out V c (Fin.last cfg0.N).val (Nat.le_of_lt_succ (Fin.last cfg0.N).isLt)

end Cert.Kernel.Hand

end
-- ==== Proof.K.Reg1Runs.lean ====
import proofs.«419856_j5566277616543_1_alg».proof.Proof.Gen.Kernel.Launch
import proofs.«419856_j5566277616543_1_alg».proof.Proof.Gen.Kernel.Skeleton
import proofs.«419856_j5566277616543_1_alg».proof.Proof.Gen.Kernel.Points
import proofs.«419856_j5566277616543_1_alg».proof.Proof.LibOwns
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

abbrev VO1_4 : View sig .tc .vmem S256x1 .f32 := (Memref.whole cc1_stg4_0 : Memref sig .tc .vmem S256x1 .f32).view
abbrev ms1_0 (t : Fin cfg1.N) : Memref sig .tc .vmem S256x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x1 .f32 := win1_4.stage (cfg1.slots t 4)
abbrev hs1_4 (t : Fin cfg1.N) : (ms1_4 t).IsWhole := hstage1_4 ((cfg1.slots t 4).cast nbuf1_4)
abbrev scM1_0 : Memref sig .tc .vmem S256x1 .f32 := Memref.whole cc1_scratch0
abbrev VS1_0 : View sig .tc .vmem S256x1 .f32 := scM1_0.view

set_option maxRecDepth 1160 in
theorem scopedRest1_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = iprop((∃ f : Buf Val ((c : Thread nD τ).loc cc1_scratch0), ((c : Thread nD τ).loc cc1_scratch0) ↦{fullShare} f)
          ∗ Pipeline.scopedRestBut (Ix := Ix) (Name := Name) (U := U) (Lvl := Lvl) (Val := Val) spec1 c [cc1_scratch0]) :=
  Pipeline.scopedRest_split_of_list spec1 c [cc1_scratch0] (by decide) (by decide)

abbrev rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1_0 fullShare d) ∗ rest1 (F := F) c) ∗ (∃ r, prngReg c r)) := by
  unfold Pipeline.ΦA; rw [scopedRest1_split]; simp only [scM1_0, owns_whole]; try rfl

variable (c : Dev nD) (i : grid1.Coords) (arg2 : Memref sig .tc .vmem S256x2048 .f32) (harg2 : arg2.IsWhole) (arg3 : Memref sig .tc .vmem S256x1 .i32) (harg3 : arg3.IsWhole) (arg4 : Memref sig .tc .vmem S1x2048 .i32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole)

set_option maxHeartbeats 1000000 in
noncomputable def kernelRun1_A (hc0 : cond1_0 i) (hc1 : ¬cond1_1 i)
    (x0 : Vec F S256x2048 .f32) (x1 : Vec F S256x1 .i32) (x2 : Vec F S1x2048 .i32) (x3 : Vec F S256x1 .f32) :
    Σ' (L4 : List (View.Piece (Elt F) S256x1 .f32)), { LS0 : List (View.Piece (Elt F) S256x1 .f32) //
      ∀ (xi4 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__kernelB_body i arg2 harg2 arg3 harg3 arg4 harg4 arg5 harg5 arg6 harg6 arg7 harg7) K } := by
  refine ⟨[], ?_, fun xi4 E K => ?run⟩
  case run =>
    simp only [cc1__kernelB_body_eq_skeleton]; unfold cc1__kernelB_body_skel
    simp only [k1_part1_eq_skeleton]
    simp only [owns_eq_unread c harg2, owns_eq_unread c harg3, owns_eq_unread c harg4, owns_eq_unread c harg5, owns_eq_unread c harg6, owns_eq_unread c harg7]
    iintro ⟨H0, H1, H2, H3, H4, ⟨%ds0, HS0⟩, Hk⟩
    sl_exec (disch := first | exact hc0 | exact hc1)
    sl_step
    iapply Hk
    iframe H0 H1 H2 H3 H4
    iexists _; iexact HS0

set_option maxHeartbeats 1000000 in
noncomputable def kernelRun1_B (hc0 : ¬cond1_0 i) (hc1 : ¬cond1_1 i)
    (x0 : Vec F S256x2048 .f32) (x1 : Vec F S256x1 .i32) (x2 : Vec F S1x2048 .i32) (x3 : Vec F S256x1 .f32) (xs0 : Vec F S256x1 .f32) :
    Σ' (L4 : List (View.Piece (Elt F) S256x1 .f32)), { LS0 : List (View.Piece (Elt F) S256x1 .f32) //
      ∀ (xi4 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__kernelB_body i arg2 harg2 arg3 harg3 arg4 harg4 arg5 harg5 arg6 harg6 arg7 harg7) K } := by
  refine ⟨[], ?_, fun xi4 E K => ?run⟩
  case run =>
    simp only [cc1__kernelB_body_eq_skeleton]; unfold cc1__kernelB_body_skel
    simp only [k1_part1_eq_skeleton]
    simp only [owns_eq_unread c harg2, owns_eq_unread c harg3, owns_eq_unread c harg4, owns_eq_unread c harg5, owns_eq_unread c harg6, owns_eq_unread c harg7]
    iintro ⟨H0, H1, H2, H3, H4, HS0, Hk⟩
    sl_exec (disch := first | exact hc0 | exact hc1)
    sl_step
    iapply Hk
    iframe H0 H1 H2 H3 H4
    iexists _; iexact HS0

set_option maxHeartbeats 1000000 in
noncomputable def kernelRun1_C (hc0 : ¬cond1_0 i) (hc1 : cond1_1 i)
    (x0 : Vec F S256x2048 .f32) (x1 : Vec F S256x1 .i32) (x2 : Vec F S1x2048 .i32) (x3 : Vec F S256x1 .f32) (xs0 : Vec F S256x1 .f32) :
    Σ' (L4 : List (View.Piece (Elt F) S256x1 .f32)), { LS0 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__kernelB_body i arg2 harg2 arg3 harg3 arg4 harg4 arg5 harg5 arg6 harg6 arg7 harg7) K } := by
  refine ⟨?_, ?_, fun E K => ?run⟩
  case run =>
    simp only [cc1__kernelB_body_eq_skeleton]; unfold cc1__kernelB_body_skel
    simp only [k1_part1_eq_skeleton]
    simp only [owns_eq_unread c harg2, owns_eq_unread c harg3, owns_eq_unread c harg4, owns_eq_unread c harg5, owns_eq_unread c harg6, owns_eq_unread c harg7]
    iintro ⟨H0, H1, H2, H3, ⟨%d4, H4⟩, HS0, Hk⟩
    sl_exec (disch := first | exact hc0 | exact hc1)
    sl_step
    iapply Hk
    iframe H0 H1 H2 H3
    isplitl [H4]; · iexists _; iexact H4
    iexists _; iexact HS0

end Cert.Kernel.Hand

end
-- ==== Proof.K.Reg1.lean ====
import proofs.«419856_j5566277616543_1_alg».proof.Proof.K.Reg1Runs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz1 : (![0, 0] : Fin 2 → Nat) = fun _ => 0 := funext fun a => by fin_cases a <;> rfl

section Pieces

variable {c : Dev nD} {i : grid1.Coords} {arg2 : Memref sig .tc .vmem S256x2048 .f32} {harg2 : arg2.IsWhole} {arg3 : Memref sig .tc .vmem S256x1 .i32} {harg3 : arg3.IsWhole} {arg4 : Memref sig .tc .vmem S1x2048 .i32} {harg4 : arg4.IsWhole} {arg5 : Memref sig .tc .vmem S256x1 .f32} {harg5 : arg5.IsWhole} {arg6 : Memref sig .tc .vmem S256x1 .f32} {harg6 : arg6.IsWhole} {arg7 : Memref sig .tc .vmem S256x1 .f32} {harg7 : arg7.IsWhole}
  {x0 : Vec F S256x2048 .f32} {x1 : Vec F S256x1 .i32} {x2 : Vec F S1x2048 .i32} {x3 : Vec F S256x1 .f32} {xs0 : Vec F S256x1 .f32}

-- Every store fills its whole buffer, so what a case's stores leave, read through any view over any prior contents, is the last store's payload.
theorem acc_A1 (hc0 : cond1_0 i) (hc1 : ¬cond1_1 i) (v : View sig .tc .vmem S256x1 .f32) (f : v.ty.Contents (Elt F)) :
    v.read (Elt F) (v.writes (Elt F) f (kernelRun1_A c i arg2 harg2 arg3 harg3 arg4 harg4 arg5 harg5 arg6 harg6 arg7 harg7 hc0 hc1 x0 x1 x2 x3).2.1) = k1_pay2 x0 x1 x2 x3 (k1_pay1 (F := F)) := by
  refine (View.read_writes_eq_canon _ _ _ (View.cover_of_tiledL _ S256x1.size ?_)).trans ?_
  · sl_kernel_rfl
  unfold kernelRun1_A; dsimp only; sl_unfold_words
  rw [View.canon_cons_unit_zero (S := S256x1) hz1, View.readCov_unit_zero (S := S256x1) _ hz1]
  simp only [View.readAt_eq_ld, harg2.read_unread, harg3.read_unread, harg4.read_unread, harg5.read_unread, harg6.read_unread, harg7.read_unread, View.ld_unit_zero (S := S256x2048) hz1, View.ld_unit_zero (S := S256x1) hz1, View.ld_unit_zero (S := S1x2048) hz1]

theorem acc_B1 (hc0 : ¬cond1_0 i) (hc1 : ¬cond1_1 i) (v : View sig .tc .vmem S256x1 .f32) (f : v.ty.Contents (Elt F)) :
    v.read (Elt F) (v.writes (Elt F) f (kernelRun1_B c i arg2 harg2 arg3 harg3 arg4 harg4 arg5 harg5 arg6 harg6 arg7 harg7 hc0 hc1 x0 x1 x2 x3 xs0).2.1) = k1_pay2 x0 x1 x2 x3 xs0 := by
  refine (View.read_writes_eq_canon _ _ _ (View.cover_of_tiledL _ S256x1.size ?_)).trans ?_
  · sl_kernel_rfl
  unfold kernelRun1_B; dsimp only; sl_unfold_words
  rw [View.canon_unit_zero (S := S256x1) hz1]
  simp only [View.readAt_eq_ld, harg2.read_unread, harg3.read_unread, harg4.read_unread, harg5.read_unread, harg6.read_unread, harg7.read_unread, View.ld_unit_zero (S := S256x2048) hz1, View.ld_unit_zero (S := S256x1) hz1, View.ld_unit_zero (S := S1x2048) hz1]

theorem acc_C1 (hc0 : ¬cond1_0 i) (hc1 : cond1_1 i) (v : View sig .tc .vmem S256x1 .f32) (f : v.ty.Contents (Elt F)) :
    v.read (Elt F) (v.writes (Elt F) f (kernelRun1_C c i arg2 harg2 arg3 harg3 arg4 harg4 arg5 harg5 arg6 harg6 arg7 harg7 hc0 hc1 x0 x1 x2 x3 xs0).2.1) = k1_pay2 x0 x1 x2 x3 xs0 := by
  refine (View.read_writes_eq_canon _ _ _ (View.cover_of_tiledL _ S256x1.size ?_)).trans ?_
  · sl_kernel_rfl
  unfold kernelRun1_C; dsimp only; sl_unfold_words
  rw [View.canon_unit_zero (S := S256x1) hz1]
  simp only [View.readAt_eq_ld, harg2.read_unread, harg3.read_unread, harg4.read_unread, harg5.read_unread, harg6.read_unread, harg7.read_unread, View.ld_unit_zero (S := S256x2048) hz1, View.ld_unit_zero (S := S256x1) hz1, View.ld_unit_zero (S := S1x2048) hz1]

theorem out_C1 (hc0 : ¬cond1_0 i) (hc1 : cond1_1 i) (v : View sig .tc .vmem S256x1 .f32) (f : v.ty.Contents (Elt F)) :
    v.read (Elt F) (v.writes (Elt F) f (kernelRun1_C c i arg2 harg2 arg3 harg3 arg4 harg4 arg5 harg5 arg6 harg6 arg7 harg7 hc0 hc1 x0 x1 x2 x3 xs0).1) = k1_pay2 x0 x1 x2 x3 xs0 := by
  refine (View.read_writes_eq_canon _ _ _ (View.cover_of_tiledL _ S256x1.size ?_)).trans ?_
  · sl_kernel_rfl
  unfold kernelRun1_C; dsimp only; sl_unfold_words
  rw [View.canon_unit_zero (S := S256x1) hz1, View.readCov_unit_zero (S := S256x1) _ hz1]
  simp only [View.readAt_eq_ld, harg2.read_unread, harg3.read_unread, harg4.read_unread, harg5.read_unread, harg6.read_unread, harg7.read_unread, View.ld_unit_zero (S := S256x2048) hz1, View.ld_unit_zero (S := S256x1) hz1, View.ld_unit_zero (S := S1x2048) hz1]

end Pieces

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

-- The accumulator after point n: a row block's running sum of positive-pair losses, restarted from zero at its first column tile.
def acc1 (c : Dev nD) : (n : ℕ) → n < cfg1.N → Vec F S256x1 .f32
  | 0, hn => k1_pay2 (iblk1 V c 0 ⟨0, hn⟩) (iblk1 V c 1 ⟨0, hn⟩) (iblk1 V c 2 ⟨0, hn⟩) (iblk1 V c 3 ⟨0, hn⟩) (k1_pay1 (F := F))
  | n + 1, hn => k1_pay2 (iblk1 V c 0 ⟨n + 1, hn⟩) (iblk1 V c 1 ⟨n + 1, hn⟩) (iblk1 V c 2 ⟨n + 1, hn⟩) (iblk1 V c 3 ⟨n + 1, hn⟩)
      (if (n + 1) % 4 = 0 then k1_pay1 (F := F) else acc1 c n (Nat.lt_of_succ_lt hn))

theorem acc1_unfold (c : Dev nD) (t : Fin cfg1.N) :
    acc1 V c t.val t.isLt = k1_pay2 (iblk1 V c 0 t) (iblk1 V c 1 t) (iblk1 V c 2 t) (iblk1 V c 3 t)
      (if t.val % 4 = 0 then k1_pay1 (F := F) else acc1 V c (t.val - 1) (Nat.lt_of_le_of_lt (Nat.sub_le _ _) t.isLt)) := by
  obtain ⟨n, hn⟩ := t
  cases n with
  | zero => rfl
  | succ n => rfl

def PhiS1 (c : Dev nD) : (n : ℕ) → n ≤ cfg1.N → sProp 𝕄
  | 0, _ => Pipeline.ΦA spec1 c
  | n + 1, hn => iprop(iprop(owns (c : Thread nD τ) scM1_0 fullShare (acc1 V c n hn) ∗ rest1 (F := F) c) ∗ (∃ r, prngReg c r))

theorem PhiS1_succ (c : Dev nD) (n : ℕ) (hn : n < cfg1.N) :
    PhiS1 V c (n + 1) hn = iprop(iprop(owns (c : Thread nD τ) scM1_0 fullShare (acc1 V c n hn) ∗ rest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare (acc1 V c (n - 1) (by omega)) ∗ rest1 (F := F) c) ∗ (∃ r, prngReg c r)) := by
  cases n with
  | zero => exact absurd rfl hz
  | succ n => rfl

-- Forgetting the accumulator's contents, the invariant at any point entails the resource the region is entered with.
theorem PhiS1_out (c : Dev nD) : ∀ (n : ℕ) (h : n ≤ cfg1.N), PhiS1 V c n h ⊢ Pipeline.ΦA spec1 c
  | 0, _ => .rfl
  | n + 1, h => by
    rw [PhiS1_succ, PhiA1_eq]
    iintro ⟨⟨HS0, HR⟩, Hg⟩
    isplitl [HS0 HR]
    · isplitl [HS0]
      · iexists _; iexact HS0
      iexact HR
    iexact Hg

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = acc1 V c t.val t.isLt := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
-- The point's control case picks the run; the invariant lends the accumulator and takes it back at the point's contents.
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ, PhiS1_castSucc V c t]
  rw [show (dat1 V c).leavesExact 0 t = owns (c : Thread nD τ) (ms1_0 t) fullShare ((dat1 V c).after 0 t) from by unfold Dat.leavesExact; rw [liveAt1_0 t], after1_0]
  rw [show (dat1 V c).leavesExact 1 t = owns (c : Thread nD τ) (ms1_1 t) fullShare ((dat1 V c).after 1 t) from by unfold Dat.leavesExact; rw [liveAt1_1 t], after1_1]
  rw [show (dat1 V c).leavesExact 2 t = owns (c : Thread nD τ) (ms1_2 t) fullShare ((dat1 V c).after 2 t) from by unfold Dat.leavesExact; rw [liveAt1_2 t], after1_2]
  rw [show (dat1 V c).leavesExact 3 t = owns (c : Thread nD τ) (ms1_3 t) fullShare ((dat1 V c).after 3 t) from by unfold Dat.leavesExact; rw [liveAt1_3 t], after1_3]
  have hN : t.val < 16 := lt_of_lt_of_eq t.isLt (show cfg1.N = 16 from N_1)
  by_cases h0 : t.val % 4 = 0
  · have h1 : ¬t.val % 4 = 3 := by omega
    rw [Dat.leavesExact_idle (dat1 V c) 4 t (idleAt1_4 t (fun h => h1 ((hcond1_1 t).mp h))) (noFlush1_4 t (fun h => h1 ((hcond1_1 t).mp h)))]
    rw [acc1_unfold V c t, if_pos h0]
    refine (sep_mono (PhiS1_out V c _ _) .rfl).trans ?_
    rw [PhiA1_eq]
    iintro ⟨⟨⟨HS0, HR⟩, Hg⟩, Ho, ⟨%d0, H0⟩, ⟨%d1, H1⟩, ⟨%d2, H2⟩, ⟨%d3, H3⟩, ⟨%d4, H4⟩⟩
    iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
    iframe H0 H1 H2 H3 H4 HS0
    iintro ⟨H0, H1, H2, H3, H4, ⟨%es0, HS0⟩⟩
    iframe HR Hg Ho H0 H1 H2 H3
    isplitl [HS0]
    · unfold owns; iexists _; isplitr
      swap; · iexact HS0
      ipureintro; exact acc_A1 _ _ _ _
    iexists _; iexact H4
  · have hz : t.val ≠ 0 := fun e => h0 (by rw [e])
    rw [PhiS1_pos V c _ _ hz]
    by_cases h1 : t.val % 4 = 3
    · rw [show (dat1 V c).leavesExact 4 t = owns (c : Thread nD τ) (ms1_4 t) fullShare ((dat1 V c).after 4 t) from by unfold Dat.leavesExact; rw [liveAt1_4 t ((hcond1_1 t).mpr h1)], after1_4]
      rw [acc1_unfold V c t, if_neg h0]
      iintro ⟨⟨⟨HS0, HR⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      iframe H0 H1 H2 H3 HS0
      isplitl [H4]; · iexists _; iexact H4
      iintro ⟨H0, H1, H2, H3, ⟨%e4, H4⟩, ⟨%es0, HS0⟩⟩
      iframe HR Hg Ho H0 H1 H2 H3
      isplitl [HS0]
      · unfold owns; iexists _; isplitr
        swap; · iexact HS0
        ipureintro; exact acc_C1 _ _ _ _
      unfold owns; iexists _; isplitr
      swap; · iexact H4
      ipureintro; exact out_C1 _ _ _ _
    · rw [Dat.leavesExact_idle (dat1 V c) 4 t (idleAt1_4 t (fun h => h1 ((hcond1_1 t).mp h))) (noFlush1_4 t (fun h => h1 ((hcond1_1 t).mp h)))]
      rw [acc1_unfold V c t, if_neg h0]
      iintro ⟨⟨⟨HS0, HR⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
      iframe H0 H1 H2 H3 H4 HS0
      iintro ⟨H0, H1, H2, H3, H4, ⟨%es0, HS0⟩⟩
      iframe HR Hg Ho H0 H1 H2 H3
      isplitl [HS0]
      · unfold owns; iexists _; isplitr
        swap; · iexact HS0
        ipureintro; exact acc_B1 _ _ _ _
      iexists _; iexact H4

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := .rfl

theorem hout1 (c : Dev nD) : (dat1 V c).Φ (Fin.last cfg1.N) ⊢ Pipeline.ΦA spec1 c :=
  PhiS1_out V c (Fin.last cfg1.N).val (Nat.le_of_lt_succ (Fin.last cfg1.N).isLt)

end Cert.Kernel.Hand

end
-- ==== Proof.K.Run.lean ====
import proofs.«419856_j5566277616543_1_alg».proof.Proof.Gen.Kernel.Regions
import proofs.«419856_j5566277616543_1_alg».proof.Proof.K.Reg0
import proofs.«419856_j5566277616543_1_alg».proof.Proof.K.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

section Run

local notation "𝕄" => MT nD τ sig Unit (Elt F) ℕ (UR sig nD τ) ℕ

variable (m : (ℓ : Loc nD τ sig) → Buf (Elt F) ℓ) (ρ : Dev nD → PrngReg)

abbrev E19 : (c : Dev nD) → (b : Ref sig .tc) → Buf (Elt F) ((c : Thread nD τ).loc b) := fun c b => V19 m c b

def W20 (c : Dev nD) : Valuation τ sig (Elt F) :=
  Pipeline.withArrays spec0 c (V19 m c) fun w => (dat0 (E19 m) c).arrAt w cfg0.N

def outs20 : Outs (F := F) := fun _ r c => W20 m c (Proc.devRef .tc r)

abbrev E20 : (c : Dev nD) → (b : Ref sig .tc) → Buf (Elt F) ((c : Thread nD τ).loc b) := fun c b => V20 m (outs20 m) c b

def W21 (c : Dev nD) : Valuation τ sig (Elt F) :=
  Pipeline.withArrays spec1 c (V20 m (outs20 m) c) fun w => (dat1 (E20 m) c).arrAt w cfg1.N

def outs : Outs (F := F) := fun J r c =>
  if J = 20 then W20 m c (Proc.devRef .tc r) else W21 m c (Proc.devRef .tc r)

theorem outs_at_20 (r : Ref sig .tc) (c : Dev nD) : outs m 20 r c = W20 m c (Proc.devRef .tc r) := if_pos rfl
theorem outs_at_21 (r : Ref sig .tc) (c : Dev nD) : outs m 21 r c = W21 m c (Proc.devRef .tc r) := if_neg (by decide)

theorem V20_outs (c : Dev nD) : V20 m (outs m) c = V20 m (outs20 m) c := by
  show Function.update (Function.update (V19 m c) main_v48_0 (outs m 20 main_v48_0 c)) main_v48_1 (outs m 20 main_v48_1 c) = _
  rw [outs_at_20, outs_at_20]; rfl

theorem V20_main_v48_0 (o : Outs (F := F)) (c : Dev nD) : V20 m o c main_v48_0 = o 20 main_v48_0 c := by
  simp only [V20, Function.update_of_ne (StableHlo.devRef_ne_of_ne (by decide) : (Proc.devRef .tc main_v48_0 : DevRef τ sig) ≠ Proc.devRef .tc main_v48_1), Function.update_self]
theorem V20_main_v48_1 (o : Outs (F := F)) (c : Dev nD) : V20 m o c main_v48_1 = o 20 main_v48_1 c := by
  simp only [V20, Function.update_self]
theorem V21_main_v49 (o : Outs (F := F)) (c : Dev nD) : V21 m o c main_v49 = o 21 main_v49 c := by
  simp only [V21, Function.update_self]

theorem W20_arr (c : Dev nD) (w : Fin cfg0.W) :
    W20 m c (Proc.devRef .tc (Pipeline.arrRef spec0 w)) = (dat0 (E19 m) c).arrAt w cfg0.N := by
  unfold W20; exact Pipeline.withArrays_arr spec0 launch0.win.arr_inj c _ _ w
theorem W21_arr (c : Dev nD) (w : Fin cfg1.W) :
    W21 m c (Proc.devRef .tc (Pipeline.arrRef spec1 w)) = (dat1 (E20 m) c).arrAt w cfg1.N := by
  unfold W21; exact Pipeline.withArrays_arr spec1 launch1.win.arr_inj c _ _ w

abbrev X20 : (c : Dev nD) → (b : Ref sig .tc) → Buf (Elt F) ((c : Thread nD τ).loc b) := fun c b => V20 m (outs m) c b
abbrev X21 : (c : Dev nD) → (b : Ref sig .tc) → Buf (Elt F) ((c : Thread nD τ).loc b) := fun c b => V21 m (outs m) c b

theorem hF0_in (c : Dev nD) (w : Fin cfg0.W) (hw : (cfg0.win w).isOut = false) (b : Ref sig .tc) (hb : Pipeline.arrRef spec0 w = b)
    (hne : b ∉ ([main_v48_0, main_v48_1] : List (Ref sig .tc))) :
    (dat0 (E19 m) c).arrAt w cfg0.N = X20 m c (Pipeline.arrRef spec0 w) := by
  subst hb
  exact ((dat0 (E19 m) c).arrAt_in w hw _).trans ((A_eq0 (E19 m) c w).trans (V20_of m (outs m) c _ hne).symm)

theorem hF0_5 (c : Dev nD) : (dat0 (E19 m) c).arrAt 5 cfg0.N = X20 m c (Pipeline.arrRef spec0 5) :=
  ((V20_main_v48_0 m (outs m) c).trans ((outs_at_20 m main_v48_0 c).trans (W20_arr m c 5))).symm
theorem hF0_6 (c : Dev nD) : (dat0 (E19 m) c).arrAt 6 cfg0.N = X20 m c (Pipeline.arrRef spec0 6) :=
  ((V20_main_v48_1 m (outs m) c).trans ((outs_at_20 m main_v48_1 c).trans (W20_arr m c 6))).symm

theorem hF0 (c : Dev nD) (w : Fin cfg0.W) : (dat0 (E19 m) c).arrAt w cfg0.N = X20 m c (Pipeline.arrRef spec0 w) := by
  have hw : w = 0 ∨ w = 1 ∨ w = 2 ∨ w = 3 ∨ w = 4 ∨ w = 5 ∨ w = 6 := by revert w; decide
  rcases hw with rfl | rfl | rfl | rfl | rfl | rfl | rfl
  · exact hF0_in m c 0 rfl main_v43 rfl (by decide)
  · exact hF0_in m c 1 rfl main_v44 rfl (by decide)
  · exact hF0_in m c 2 rfl main_v45 rfl (by decide)
  · exact hF0_in m c 3 rfl main_v46 rfl (by decide)
  · exact hF0_in m c 4 rfl main_v47 rfl (by decide)
  · exact hF0_5 m c
  · exact hF0_6 m c

theorem hF1_in (c : Dev nD) (w : Fin cfg1.W) (hw : (cfg1.win w).isOut = false) (b : Ref sig .tc) (hb : Pipeline.arrRef spec1 w = b)
    (hne : b ∉ ([main_v49] : List (Ref sig .tc))) :
    (dat1 (E20 m) c).arrAt w cfg1.N = X21 m c (Pipeline.arrRef spec1 w) := by
  subst hb
  exact ((dat1 (E20 m) c).arrAt_in w hw _).trans ((A_eq1 (E20 m) c w).trans
    ((congrFun (V20_outs m c) _).symm.trans (V21_of m (outs m) c _ hne).symm))

theorem hF1_4 (c : Dev nD) : (dat1 (E20 m) c).arrAt 4 cfg1.N = X21 m c (Pipeline.arrRef spec1 4) :=
  ((V21_main_v49 m (outs m) c).trans ((outs_at_21 m main_v49 c).trans (W21_arr m c 4))).symm

theorem hF1 (c : Dev nD) (w : Fin cfg1.W) : (dat1 (E20 m) c).arrAt w cfg1.N = X21 m c (Pipeline.arrRef spec1 w) := by
  have hw : w = 0 ∨ w = 1 ∨ w = 2 ∨ w = 3 ∨ w = 4 := by revert w; decide
  rcases hw with rfl | rfl | rfl | rfl | rfl
  · exact hF1_in m c 0 rfl main_v48_0 rfl (by decide)
  · exact hF1_in m c 1 rfl main_v45 rfl (by decide)
  · exact hF1_in m c 2 rfl main_v46 rfl (by decide)
  · exact hF1_in m c 3 rfl main_v48_1 rfl (by decide)
  · exact hF1_4 m c

theorem hrest0 (c : Dev nD) : ∀ b, b ∉ Finset.univ.image (Pipeline.arrRef spec0) → X20 m c b = E19 m c b :=
  fun b hb => V20_of m (outs m) c b fun h => hb (by
    rcases List.mem_cons.mp h with rfl | h
    · exact Finset.mem_image.mpr ⟨5, Finset.mem_univ _, rfl⟩
    · rcases List.mem_cons.mp h with rfl | h
      · exact Finset.mem_image.mpr ⟨6, Finset.mem_univ _, rfl⟩
      · nomatch h)

theorem hrest1 (c : Dev nD) : ∀ b, b ∉ Finset.univ.image (Pipeline.arrRef spec1) → X21 m c b = E20 m c b :=
  fun b hb => (V21_of m (outs m) c b fun h => hb (by
    rcases List.mem_cons.mp h with rfl | h
    · exact Finset.mem_image.mpr ⟨4, Finset.mem_univ _, rfl⟩
    · nomatch h)).trans (congrFun (V20_outs m c) _)

def pdats : (p : Fin 2) → (c : Dev nD) → Dat τ (Elt F) Unit ℕ (UR sig nD τ) ℕ (cfgs p) c
  | ⟨0, _⟩ => fun c => dat0 (E19 m) c
  | ⟨1, _⟩ => fun c => dat1 (E20 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E19 m) c).loose
  hwaits := Pipeline.hwaits_of_owed_zero _ _ _ _ L lv 0 fun _ _ => rfl
  pre c := iprop(StableHlo.held (c : Thread nD τ) (Pipeline.ucRefs τ sig) (V19 m c) ∗ R c)
  post c := iprop(StableHlo.held (c : Thread nD τ) (Pipeline.ucRefs τ sig) (V20 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E19 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E19 m c) fun w => A_eq0 (E19 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E19 m) c)
    unfold Pipeline.ΦA
    iintro ⟨Hp, -, Hr⟩
    isplitl [Hr]; · iexact Hr
    iexact Hp
  hout c := by
    rw [Pipeline.ownSems0_none]
    refine (hout0 (E19 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E19 m c) (X20 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E20 m) c).loose
  hwaits := Pipeline.hwaits_of_owed_zero _ _ _ _ L lv 1 fun _ _ => rfl
  pre c := iprop(StableHlo.held (c : Thread nD τ) (Pipeline.ucRefs τ sig) (V20 m (outs m) c) ∗ R c)
  post c := iprop(StableHlo.held (c : Thread nD τ) (Pipeline.ucRefs τ sig) (V21 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E20 m c)
  hentry c := by
    rw [Pipeline.ownSems0_none, V20_outs m c]
    have hsplit := Pipeline.arrays_of_unscopedBufs (p := 1) (pcfgs (F := F)) adm (pdats m) launch1.win launch1.arr_whole c
      ((pdats m 1 c).share_full fun _ => rfl) (E20 m c) fun w => A_eq1 (E20 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E20 m) c)
    unfold Pipeline.ΦA
    iintro ⟨Hp, -, Hr⟩
    isplitl [Hr]; · iexact Hr
    iexact Hp
  hout c := by
    rw [Pipeline.ownSems0_none]
    refine (hout1 (E20 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E20 m c) (X21 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_cond m emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun c => .rfl) (hpost0 := fun c => .rfl)
    (R1 := reg1 m) (hpre1 := fun c => .rfl) (hpost1 := fun c => .rfl)

end Run

end Cert.Kernel.Hand

end
-- ==== Proof.Ref.Stages.lean ====
import proofs.«419856_j5566277616543_1_alg».proof.Proof.Gen.ReferenceIdeal.Read
-- ==== Proof.Spec.lean ====
import Idealize.ShloMosaic.PureOps.Ideal
import Idealize.ShloMosaic.Lib.ValueIdx

noncomputable section

namespace Cert.Spec

open Idealize.ShloMosaic Idealize.ShloMosaic.ValueIdx

abbrev tau : EReal := Ideal.ofBits .f32 0x3D4CCCCD#32
abbrev eps : EReal := Ideal.ofBits .f32 0x2EDBE6FF#32

def cosAt (nq : (⟨2, ![1024, 2048]⟩ : Shape).Idx → EReal) (nqf : (⟨2, ![8192, 2048]⟩ : Shape).Idx → EReal)
    (lab : Fin 1024 → BitVec 32) (cf : Fin 1024 → EReal) (i : Fin 1024) (j : Fin 8192) : EReal :=
  if BitVec.ofNat 32 j.val = lab i then cf i else ∑ k : Fin 2048, nq (ix2 i k) * nqf (ix2 j k)

def eAt (nq : (⟨2, ![1024, 2048]⟩ : Shape).Idx → EReal) (nqf : (⟨2, ![8192, 2048]⟩ : Shape).Idx → EReal)
    (lab : Fin 1024 → BitVec 32) (cf : Fin 1024 → EReal) (i : Fin 1024) (j : Fin 8192) : EReal :=
  Ideal.exp (Ideal.div (cosAt nq nqf lab cf i j) tau)

def negSum (e : Fin 1024 → Fin 8192 → EReal) (lab : Fin 1024 → BitVec 32) (ql : Fin 8192 → BitVec 32)
    (i : Fin 1024) : EReal :=
  ∑ j : Fin 8192, if ql j = lab i then 0 else e i j

def pairLoss (e ns : EReal) : EReal := -(Ideal.log (Ideal.div (e + eps) ((e + ns) + eps)))

def rowLoss (e : Fin 1024 → Fin 8192 → EReal) (ns : Fin 1024 → EReal) (lab : Fin 1024 → BitVec 32)
    (ql : Fin 8192 → BitVec 32) (i : Fin 1024) : EReal :=
  ∑ j : Fin 8192, if ql j = lab i then pairLoss (e i j) (ns i) else 0

def total (e : Fin 1024 → Fin 8192 → EReal) (ns : Fin 1024 → EReal) (lab : Fin 1024 → BitVec 32)
    (ql : Fin 8192 → BitVec 32) : EReal :=
  ∑ i : Fin 1024, rowLoss e ns lab ql i

def nPos (lab : Fin 1024 → BitVec 32) (ql : Fin 8192 → BitVec 32) : ℕ :=
  ∑ i : Fin 1024, ∑ j : Fin 8192, if ql j = lab i then 1 else 0

def loss (nq : (⟨2, ![1024, 2048]⟩ : Shape).Idx → EReal) (nqf : (⟨2, ![8192, 2048]⟩ : Shape).Idx → EReal)
    (lab : Fin 1024 → BitVec 32) (ql : Fin 8192 → BitVec 32) (cf : Fin 1024 → EReal) : EReal :=
  Ideal.div (total (eAt nq nqf lab cf) (negSum (eAt nq nqf lab cf) lab ql) lab ql)
    (FloatOps.sitofp (F := Ideal) .f32 (IntOp.maxsi (BitVec.ofNat 32 (nPos lab ql)) 1#32))

end Cert.Spec

end
-- ==== Proof.Assemble.lean ====
import proofs.«419856_j5566277616543_1_alg».proof.Defs
import proofs.«419856_j5566277616543_1_alg».proof.Proof.Gen.KernelIdeal.Regions
import proofs.«419856_j5566277616543_1_alg».proof.Proof.Ref.Stages
import proofs.«419856_j5566277616543_1_alg».proof.Proof.Spec

noncomputable section

namespace Cert.Proof.Assemble

open Idealize.ShloMosaic Idealize.ShloMosaic.TcCoe Idealize.SL.Sem Idealize.ShloMosaic.ValueIdx
open Cert.KernelIdeal Cert.KernelIdeal.Gen

section
variable (outs : ((ℓ : Loc nD τ sig) → Buf (Elt Ideal) ℓ) → Outs (F := Ideal))

abbrev a0 (m : (ℓ : Loc nD τ sig) → Buf (Elt Ideal) ℓ) (c : Dev nD) := m ((c.tc : Thread nD τ).loc main_arg0)
abbrev a1 (m : (ℓ : Loc nD τ sig) → Buf (Elt Ideal) ℓ) (c : Dev nD) := m ((c.tc : Thread nD τ).loc main_arg1)
abbrev a2 (m : (ℓ : Loc nD τ sig) → Buf (Elt Ideal) ℓ) (c : Dev nD) := m ((c.tc : Thread nD τ).loc main_arg2)
abbrev a3 (m : (ℓ : Loc nD τ sig) → Buf (Elt Ideal) ℓ) (c : Dev nD) := m ((c.tc : Thread nD τ).loc main_arg3)
abbrev a4 (m : (ℓ : Loc nD τ sig) → Buf (Elt Ideal) ℓ) (c : Dev nD) := m ((c.tc : Thread nD τ).loc main_arg4)
abbrev a5 (m : (ℓ : Loc nD τ sig) → Buf (Elt Ideal) ℓ) (c : Dev nD) := m ((c.tc : Thread nD τ).loc main_arg5)

theorem kernel_value
    (m : (ℓ : Loc nD τ sig) → Buf (Elt Ideal) ℓ) (c : Dev nD)
    (h43 : ∀ y : S1024x2048.Idx, V19 (F := Ideal) m c main_v43 y = Cert.ReferenceIdeal.Read.val_main_v7 (F := Ideal) (a0 m c) y)
    (h44 : ∀ y : S8192x2048.Idx, V19 (F := Ideal) m c main_v44 y = Cert.ReferenceIdeal.Read.val_main_v11 (F := Ideal) (a1 m c) (a3 m c) y)
    (h45 : ∀ i : Fin 1024, V19 (F := Ideal) m c main_v45 (ix2 i 0) = a2 m c (ix1 i))
    (h46 : ∀ j : Fin 8192, V19 (F := Ideal) m c main_v46 (ix2 0 j) = Cert.ReferenceIdeal.Read.val_main_v3 (F := Ideal) (a2 m c) (a4 m c) (ix1 j))
    (h3 : V19 (F := Ideal) m c main_v3 = Cert.ReferenceIdeal.Read.val_main_v3 (F := Ideal) (a2 m c) (a4 m c))
    (h47 : ∀ i : Fin 1024, V19 (F := Ideal) m c main_v47 (ix2 i 0) = Cert.ReferenceIdeal.Read.val_main_v44 (F := Ideal) (a0 m c) (a2 m c) (a5 m c) (ix1 i))
    (hE : ∀ (i : Fin 1024) (j : Fin 8192), outs m 20 main_v48_0 c (ix2 i j)
        = Cert.Spec.eAt (V19 (F := Ideal) m c main_v43) (V19 (F := Ideal) m c main_v44) (fun i => V19 (F := Ideal) m c main_v45 (ix2 i 0)) (fun i => V19 (F := Ideal) m c main_v47 (ix2 i 0)) i j)
    (hN : ∀ i : Fin 1024, outs m 20 main_v48_1 c (ix2 i 0)
        = Cert.Spec.negSum (Cert.Spec.eAt (V19 (F := Ideal) m c main_v43) (V19 (F := Ideal) m c main_v44) (fun i => V19 (F := Ideal) m c main_v45 (ix2 i 0)) (fun i => V19 (F := Ideal) m c main_v47 (ix2 i 0)))
            (fun i => V19 (F := Ideal) m c main_v45 (ix2 i 0)) (fun j => V19 (F := Ideal) m c main_v46 (ix2 0 j)) i)
    (hR : ∀ i : Fin 1024, outs m 21 main_v49 c (ix2 i 0)
        = Cert.Spec.rowLoss (fun i j => V20 (F := Ideal) m (outs m) c main_v48_0 (ix2 i j)) (fun i => V20 (F := Ideal) m (outs m) c main_v48_1 (ix2 i 0))
            (fun i => V20 (F := Ideal) m (outs m) c main_v45 (ix2 i 0)) (fun j => V20 (F := Ideal) m (outs m) c main_v46 (ix2 0 j)) i)
    (hT : V22 (F := Ideal) m (outs m) c main_v73 ix0
        = Ideal.div (∑ i : Fin 1024, outs m 21 main_v49 c (ix2 i 0))
            (FloatOps.sitofp (F := Ideal) .f32 (IntOp.maxsi (BitVec.ofNat 32 (Cert.Spec.nPos (fun i => a2 m c (ix1 i)) (fun j => V19 (F := Ideal) m c main_v3 (ix1 j)))) 1#32))) :
    V22 (F := Ideal) m (outs m) c main_v73 ix0
      = Cert.Spec.loss (Cert.ReferenceIdeal.Read.val_main_v7 (F := Ideal) (a0 m c)) (Cert.ReferenceIdeal.Read.val_main_v11 (F := Ideal) (a1 m c) (a3 m c))
          (fun i => a2 m c (ix1 i)) (fun j => Cert.ReferenceIdeal.Read.val_main_v3 (F := Ideal) (a2 m c) (a4 m c) (ix1 j))
          (fun i => Cert.ReferenceIdeal.Read.val_main_v44 (F := Ideal) (a0 m c) (a2 m c) (a5 m c) (ix1 i)) := by
  have e43 : (V19 (F := Ideal) m c main_v43 : S1024x2048.Idx → EReal) = Cert.ReferenceIdeal.Read.val_main_v7 (F := Ideal) (a0 m c) := funext h43
  have e44 : (V19 (F := Ideal) m c main_v44 : S8192x2048.Idx → EReal) = Cert.ReferenceIdeal.Read.val_main_v11 (F := Ideal) (a1 m c) (a3 m c) := funext h44
  have e45 : (fun i : Fin 1024 => V19 (F := Ideal) m c main_v45 (ix2 i 0)) = fun i => a2 m c (ix1 i) := funext h45
  have e46 : (fun j : Fin 8192 => V19 (F := Ideal) m c main_v46 (ix2 0 j)) = fun j => Cert.ReferenceIdeal.Read.val_main_v3 (F := Ideal) (a2 m c) (a4 m c) (ix1 j) := funext h46
  have e47 : (fun i : Fin 1024 => V19 (F := Ideal) m c main_v47 (ix2 i 0)) = fun i => Cert.ReferenceIdeal.Read.val_main_v44 (F := Ideal) (a0 m c) (a2 m c) (a5 m c) (ix1 i) := funext h47
  have v0 : V20 (F := Ideal) m (outs m) c main_v48_0 = outs m 20 main_v48_0 c := by
    show Function.update (Function.update (V19 m c) main_v48_0 _) main_v48_1 _ main_v48_0 = _
    rw [Function.update_of_ne (by decide), Function.update_self]
  have v1 : V20 (F := Ideal) m (outs m) c main_v48_1 = outs m 20 main_v48_1 c := by
    show Function.update (Function.update (V19 m c) main_v48_0 _) main_v48_1 _ main_v48_1 = _
    rw [Function.update_self]
  have v45 : V20 (F := Ideal) m (outs m) c main_v45 = V19 (F := Ideal) m c main_v45 := V20_of m (outs m) c main_v45 (by decide)
  have v46 : V20 (F := Ideal) m (outs m) c main_v46 = V19 (F := Ideal) m c main_v46 := V20_of m (outs m) c main_v46 (by decide)
  rw [hT]
  unfold Cert.Spec.loss Cert.Spec.total
  rw [h3]
  congr 1
  refine Finset.sum_congr rfl fun i _ => ?_
  rw [hR i, v0, v1, v45, v46, e45, e46]
  congr 1
  · funext i j; rw [hE i j, e43, e44, e45, e47]
  · funext i; rw [hN i, e43, e44, e45, e46, e47]

theorem algebraic_of
    (hrun : ∀ (m : (ℓ : Loc nD τ sig) → Buf (Elt Ideal) ℓ) (ρ : Dev nD → PrngReg),
      θ_run (defs (F := Ideal)) (onTc (τ := τ) (main (F := Ideal))) ⟨m, fun _ => 0, ρ⟩ (fun r => ∀ c : Dev nD,
        r.2.mem ((c.tc : Thread nD τ).loc main_v73) = V22 (F := Ideal) m (outs m) c main_v73
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)))
    (hK : ∀ (m : (ℓ : Loc nD τ sig) → Buf (Elt Ideal) ℓ) (hP : Cert.Pre_finite_inputs.Facts), Cert.Pre_KernelIdeal (hPre_finite_inputs := hP) m → ∀ c : Dev nD,
      V22 (F := Ideal) m (outs m) c main_v73 ix0
        = Cert.Spec.loss (Cert.ReferenceIdeal.Read.val_main_v7 (F := Ideal) (a0 m c)) (Cert.ReferenceIdeal.Read.val_main_v11 (F := Ideal) (a1 m c) (a3 m c))
            (fun i => a2 m c (ix1 i)) (fun j => Cert.ReferenceIdeal.Read.val_main_v3 (F := Ideal) (a2 m c) (a4 m c) (ix1 j))
            (fun i => Cert.ReferenceIdeal.Read.val_main_v44 (F := Ideal) (a0 m c) (a2 m c) (a5 m c) (ix1 i)))
    (hlab : ∀ (m : (ℓ : Loc nD τ sig) → Buf (Elt Ideal) ℓ) (hP : Cert.Pre_finite_inputs.Facts), Cert.Pre_KernelIdeal (hPre_finite_inputs := hP) m → ∀ (c : Dev nD) (i : Fin 1024),
      0 ≤ (a2 m c (ix1 i)).toInt ∧ (a2 m c (ix1 i)).toInt < 8192)
    (hRf : ∀ (x0 x1 : (⟨Cert.ReferenceIdeal.S1024x2048, .f32⟩ : BufTy).Contents (Elt Ideal)) (x2 : (⟨Cert.ReferenceIdeal.S1024, .i32⟩ : BufTy).Contents (Elt Ideal))
        (x3 : (⟨Cert.ReferenceIdeal.S8192x2048, .f32⟩ : BufTy).Contents (Elt Ideal)) (x4 : (⟨Cert.ReferenceIdeal.S8192, .i32⟩ : BufTy).Contents (Elt Ideal))
        (x5 : (⟨Cert.ReferenceIdeal.S8192x2048, .f32⟩ : BufTy).Contents (Elt Ideal)),
        (∀ i : Fin 1024, 0 ≤ (x2 (ix1 i)).toInt ∧ (x2 (ix1 i)).toInt < 8192) →
        Cert.ReferenceIdeal.Read.val_main_v86 (F := Ideal) x0 x1 x2 x3 x4 x5 ix0
          = Cert.Spec.loss (Cert.ReferenceIdeal.Read.val_main_v7 (F := Ideal) x0) (Cert.ReferenceIdeal.Read.val_main_v11 (F := Ideal) x1 x3)
              (fun i => x2 (ix1 i)) (fun j => Cert.ReferenceIdeal.Read.val_main_v3 (F := Ideal) x2 x4 (ix1 j))
              (fun i => Cert.ReferenceIdeal.Read.val_main_v44 (F := Ideal) x0 x2 x5 (ix1 i)))
    [hKI : Cert.KernelIdeal.Facts] [hRI : Cert.ReferenceIdeal.Facts] [hP : Cert.Pre_finite_inputs.Facts] :
    Cert.algebraic_KernelIdeal_ReferenceIdeal := by
  intro m ρ m' ρ' hpre hagree
  refine ⟨fun c => V22 (F := Ideal) m (outs m) c main_v73, hrun m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v86_eq]
  funext y
  obtain rfl := eq_ix0 y
  rw [(hagree c).1, (hagree c).2.1, (hagree c).2.2.1, (hagree c).2.2.2.1, (hagree c).2.2.2.2.1, (hagree c).2.2.2.2.2]
  exact (hRf _ _ _ _ _ _ (hlab m hP hpre c)).trans (hK m hP hpre c).symm

end

end Cert.Proof.Assemble

end
-- ==== Proof.KI.Reg0Runs.lean ====
import proofs.«419856_j5566277616543_1_alg».proof.Proof.Gen.KernelIdeal.Launch
import proofs.«419856_j5566277616543_1_alg».proof.Proof.Gen.KernelIdeal.Skeleton
import proofs.«419856_j5566277616543_1_alg».proof.Proof.Gen.KernelIdeal.Points
import proofs.«419856_j5566277616543_1_alg».proof.Proof.LibOwns
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
theorem liveAt0_6_C : ∀ t : Fin cfg0.N, ¬cond0_0 (grid0.coords t) → cond0_1 (grid0.coords t) → cfg0.idle 6 (grid0.coords t) = false := by decide +kernel

abbrev VO0_5 : View sig .tc .vmem S256x2048 .f32 := (Memref.whole cc0_stg5_0 : Memref sig .tc .vmem S256x2048 .f32).view
abbrev VO0_6 : View sig .tc .vmem S256x1 .f32 := (Memref.whole cc0_stg6_0 : Memref sig .tc .vmem S256x1 .f32).view
abbrev ms0_0 (t : Fin cfg0.N) : Memref sig .tc .vmem S256x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1 .f32 := win0_6.stage (cfg0.slots t 6)
abbrev hs0_6 (t : Fin cfg0.N) : (ms0_6 t).IsWhole := hstage0_6 ((cfg0.slots t 6).cast nbuf0_6)
abbrev scM0_0 : Memref sig .tc .vmem S256x1 .f32 := Memref.whole cc0_scratch0
abbrev VS0_0 : View sig .tc .vmem S256x1 .f32 := scM0_0.view

abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA; rw [scopedRest0_eq]; simp only [scM0_0, owns_whole]; try rfl

variable (c : Dev nD) (i : grid0.Coords) (arg2 : Memref sig .tc .vmem S256x2048 .bf16) (harg2 : arg2.IsWhole) (arg3 : Memref sig .tc .vmem S2048x2048 .bf16) (harg3 : arg3.IsWhole) (arg4 : Memref sig .tc .vmem S256x1 .i32) (harg4 : arg4.IsWhole) (arg5 : Memref sig .tc .vmem S1x2048 .i32) (harg5 : arg5.IsWhole) (arg6 : Memref sig .tc .vmem S256x1 .f32) (harg6 : arg6.IsWhole) (arg7 : Memref sig .tc .vmem S256x2048 .f32) (harg7 : arg7.IsWhole) (arg8 : Memref sig .tc .vmem S256x1 .f32) (harg8 : arg8.IsWhole) (arg9 : Memref sig .tc .vmem S256x1 .f32) (harg9 : arg9.IsWhole)

set_option maxHeartbeats 1000000 in
noncomputable def kernelRun0_A (hc0 : cond0_0 i) (hc1 : ¬cond0_1 i)
    (x0 : Vec F S256x2048 .bf16) (x1 : Vec F S2048x2048 .bf16) (x2 : Vec F S256x1 .i32) (x3 : Vec F S1x2048 .i32) (x4 : Vec F S256x1 .f32) :
    Σ' (L5 : List (View.Piece (Elt F) S256x2048 .f32)) (L6 : List (View.Piece (Elt F) S256x1 .f32)), { LS0 : List (View.Piece (Elt F) S256x1 .f32) //
      ∀ (xi6 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__kernelA_body i arg2 harg2 arg3 harg3 arg4 harg4 arg5 harg5 arg6 harg6 arg7 harg7 arg8 harg8 arg9 harg9) K } := by
  refine ⟨?_, [], ?_, fun xi6 E K => ?run⟩
  case run =>
    simp only [cc0__kernelA_body_eq_skeleton]; unfold cc0__kernelA_body_skel
    simp only [k0_part1_eq_skeleton]; unfold k0_part1_skel
    simp only [owns_eq_unread c harg2, owns_eq_unread c harg3, owns_eq_unread c harg4, owns_eq_unread c harg5, owns_eq_unread c harg6, owns_eq_unread c harg7, owns_eq_unread c harg8, owns_eq_unread c harg9]
    iintro ⟨H0, H1, H2, H3, H4, ⟨%d5, H5⟩, H6, ⟨%ds0, HS0⟩, Hk⟩
    sl_exec (disch := first | exact hc0 | exact hc1)
    sl_step
    iapply Hk
    iframe H0 H1 H2 H3 H4 H6
    isplitl [H5]; · iexists _; iexact H5
    iexists _; iexact HS0

set_option maxHeartbeats 1000000 in
noncomputable def kernelRun0_B (hc0 : ¬cond0_0 i) (hc1 : ¬cond0_1 i)
    (x0 : Vec F S256x2048 .bf16) (x1 : Vec F S2048x2048 .bf16) (x2 : Vec F S256x1 .i32) (x3 : Vec F S1x2048 .i32) (x4 : Vec F S256x1 .f32) (xs0 : Vec F S256x1 .f32) :
    Σ' (L5 : List (View.Piece (Elt F) S256x2048 .f32)) (L6 : List (View.Piece (Elt F) S256x1 .f32)), { LS0 : List (View.Piece (Elt F) S256x1 .f32) //
      ∀ (xi6 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__kernelA_body i arg2 harg2 arg3 harg3 arg4 harg4 arg5 harg5 arg6 harg6 arg7 harg7 arg8 harg8 arg9 harg9) K } := by
  refine ⟨?_, [], ?_, fun xi6 E K => ?run⟩
  case run =>
    simp only [cc0__kernelA_body_eq_skeleton]; unfold cc0__kernelA_body_skel
    simp only [k0_part1_eq_skeleton]; unfold k0_part1_skel
    simp only [owns_eq_unread c harg2, owns_eq_unread c harg3, owns_eq_unread c harg4, owns_eq_unread c harg5, owns_eq_unread c harg6, owns_eq_unread c harg7, owns_eq_unread c harg8, owns_eq_unread c harg9]
    iintro ⟨H0, H1, H2, H3, H4, ⟨%d5, H5⟩, H6, HS0, Hk⟩
    sl_exec (disch := first | exact hc0 | exact hc1)
    sl_step
    iapply Hk
    iframe H0 H1 H2 H3 H4 H6
    isplitl [H5]; · iexists _; iexact H5
    iexists _; iexact HS0

set_option maxHeartbeats 1000000 in
noncomputable def kernelRun0_C (hc0 : ¬cond0_0 i) (hc1 : cond0_1 i)
    (x0 : Vec F S256x2048 .bf16) (x1 : Vec F S2048x2048 .bf16) (x2 : Vec F S256x1 .i32) (x3 : Vec F S1x2048 .i32) (x4 : Vec F S256x1 .f32) (xs0 : Vec F S256x1 .f32) :
    Σ' (L5 : List (View.Piece (Elt F) S256x2048 .f32)) (L6 : List (View.Piece (Elt F) S256x1 .f32)), { LS0 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__kernelA_body i arg2 harg2 arg3 harg3 arg4 harg4 arg5 harg5 arg6 harg6 arg7 harg7 arg8 harg8 arg9 harg9) K } := by
  refine ⟨?_, ?_, ?_, fun E K => ?run⟩
  case run =>
    simp only [cc0__kernelA_body_eq_skeleton]; unfold cc0__kernelA_body_skel
    simp only [k0_part1_eq_skeleton]; unfold k0_part1_skel
    simp only [owns_eq_unread c harg2, owns_eq_unread c harg3, owns_eq_unread c harg4, owns_eq_unread c harg5, owns_eq_unread c harg6, owns_eq_unread c harg7, owns_eq_unread c harg8, owns_eq_unread c harg9]
    iintro ⟨H0, H1, H2, H3, H4, ⟨%d5, H5⟩, ⟨%d6, H6⟩, HS0, Hk⟩
    sl_exec (disch := first | exact hc0 | exact hc1)
    sl_step
    iapply Hk
    iframe H0 H1 H2 H3 H4
    isplitl [H5]; · iexists _; iexact H5
    isplitl [H6]; · iexists _; iexact H6
    iexists _; iexact HS0

end Cert.KernelIdeal.Hand

end
-- ==== Proof.KI.Reg0.lean ====
import proofs.«419856_j5566277616543_1_alg».proof.Proof.KI.Reg0Runs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz0 : (![0, 0] : Fin 2 → Nat) = fun _ => 0 := funext fun a => by fin_cases a <;> rfl

section Pieces

variable {c : Dev nD} {i : grid0.Coords} {arg2 : Memref sig .tc .vmem S256x2048 .bf16} {harg2 : arg2.IsWhole} {arg3 : Memref sig .tc .vmem S2048x2048 .bf16} {harg3 : arg3.IsWhole} {arg4 : Memref sig .tc .vmem S256x1 .i32} {harg4 : arg4.IsWhole} {arg5 : Memref sig .tc .vmem S1x2048 .i32} {harg5 : arg5.IsWhole} {arg6 : Memref sig .tc .vmem S256x1 .f32} {harg6 : arg6.IsWhole} {arg7 : Memref sig .tc .vmem S256x2048 .f32} {harg7 : arg7.IsWhole} {arg8 : Memref sig .tc .vmem S256x1 .f32} {harg8 : arg8.IsWhole} {arg9 : Memref sig .tc .vmem S256x1 .f32} {harg9 : arg9.IsWhole}
  {x0 : Vec F S256x2048 .bf16} {x1 : Vec F S2048x2048 .bf16} {x2 : Vec F S256x1 .i32} {x3 : Vec F S1x2048 .i32} {x4 : Vec F S256x1 .f32} {xs0 : Vec F S256x1 .f32}

-- Every store fills its whole buffer, so what a case's stores leave, read through any view over any prior contents, is the last store's payload.
theorem e_A0 (hc0 : cond0_0 i) (hc1 : ¬cond0_1 i) (v : View sig .tc .vmem S256x2048 .f32) (f : v.ty.Contents (Elt F)) :
    v.read (Elt F) (v.writes (Elt F) f (kernelRun0_A c i arg2 harg2 arg3 harg3 arg4 harg4 arg5 harg5 arg6 harg6 arg7 harg7 arg8 harg8 arg9 harg9 hc0 hc1 x0 x1 x2 x3 x4).1) = k0_pay4 i x0 x1 x2 x4 := by
  refine (View.read_writes_eq_canon _ _ _ (View.cover_of_tiledL _ S256x2048.size ?_)).trans ?_
  · sl_kernel_rfl
  unfold kernelRun0_A; dsimp only; sl_unfold_words; (try dsimp only)
  rw [View.canon_unit_zero hz0]
  simp only [View.readAt_eq_ld, harg2.read_unread, harg3.read_unread, harg4.read_unread, harg5.read_unread, harg6.read_unread, harg9.read_unread, View.ld_unit_zero (S := S256x2048) hz0, View.ld_unit_zero (S := S2048x2048) hz0, View.ld_unit_zero (S := S256x1) hz0, View.ld_unit_zero (S := S1x2048) hz0]

theorem acc_A0 (hc0 : cond0_0 i) (hc1 : ¬cond0_1 i) (v : View sig .tc .vmem S256x1 .f32) (f : v.ty.Contents (Elt F)) :
    v.read (Elt F) (v.writes (Elt F) f (kernelRun0_A c i arg2 harg2 arg3 harg3 arg4 harg4 arg5 harg5 arg6 harg6 arg7 harg7 arg8 harg8 arg9 harg9 hc0 hc1 x0 x1 x2 x3 x4).2.2.1) = k0_pay1 k0_pay2 (k0_pay5 i x0 x1 x2 x4 x3) := by
  refine (View.read_writes_eq_canon _ _ _ (View.cover_of_tiledL _ S256x1.size ?_)).trans ?_
  · sl_kernel_rfl
  unfold kernelRun0_A; dsimp only; sl_unfold_words; (try dsimp only)
  rw [View.canon_cons_unit_zero (S := S256x1) hz0, View.readCov_unit_zero (S := S256x1) _ hz0]
  simp only [View.readAt_eq_ld, harg2.read_unread, harg3.read_unread, harg4.read_unread, harg5.read_unread, harg6.read_unread, harg9.read_unread, View.ld_unit_zero (S := S256x2048) hz0, View.ld_unit_zero (S := S2048x2048) hz0, View.ld_unit_zero (S := S256x1) hz0, View.ld_unit_zero (S := S1x2048) hz0]

theorem e_B0 (hc0 : ¬cond0_0 i) (hc1 : ¬cond0_1 i) (v : View sig .tc .vmem S256x2048 .f32) (f : v.ty.Contents (Elt F)) :
    v.read (Elt F) (v.writes (Elt F) f (kernelRun0_B c i arg2 harg2 arg3 harg3 arg4 harg4 arg5 harg5 arg6 harg6 arg7 harg7 arg8 harg8 arg9 harg9 hc0 hc1 x0 x1 x2 x3 x4 xs0).1) = k0_pay4 i x0 x1 x2 x4 := by
  refine (View.read_writes_eq_canon _ _ _ (View.cover_of_tiledL _ S256x2048.size ?_)).trans ?_
  · sl_kernel_rfl
  unfold kernelRun0_B; dsimp only; sl_unfold_words; (try dsimp only)
  rw [View.canon_unit_zero hz0]
  simp only [View.readAt_eq_ld, harg2.read_unread, harg3.read_unread, harg4.read_unread, harg5.read_unread, harg6.read_unread, harg9.read_unread, View.ld_unit_zero (S := S256x2048) hz0, View.ld_unit_zero (S := S2048x2048) hz0, View.ld_unit_zero (S := S256x1) hz0, View.ld_unit_zero (S := S1x2048) hz0]

theorem acc_B0 (hc0 : ¬cond0_0 i) (hc1 : ¬cond0_1 i) (v : View sig .tc .vmem S256x1 .f32) (f : v.ty.Contents (Elt F)) :
    v.read (Elt F) (v.writes (Elt F) f (kernelRun0_B c i arg2 harg2 arg3 harg3 arg4 harg4 arg5 harg5 arg6 harg6 arg7 harg7 arg8 harg8 arg9 harg9 hc0 hc1 x0 x1 x2 x3 x4 xs0).2.2.1) = k0_pay1 xs0 (k0_pay5 i x0 x1 x2 x4 x3) := by
  refine (View.read_writes_eq_canon _ _ _ (View.cover_of_tiledL _ S256x1.size ?_)).trans ?_
  · sl_kernel_rfl
  unfold kernelRun0_B; dsimp only; sl_unfold_words; (try dsimp only)
  rw [View.canon_unit_zero hz0]
  simp only [View.readAt_eq_ld, harg2.read_unread, harg3.read_unread, harg4.read_unread, harg5.read_unread, harg6.read_unread, harg9.read_unread, View.ld_unit_zero (S := S256x2048) hz0, View.ld_unit_zero (S := S2048x2048) hz0, View.ld_unit_zero (S := S256x1) hz0, View.ld_unit_zero (S := S1x2048) hz0]

theorem e_C0 (hc0 : ¬cond0_0 i) (hc1 : cond0_1 i) (v : View sig .tc .vmem S256x2048 .f32) (f : v.ty.Contents (Elt F)) :
    v.read (Elt F) (v.writes (Elt F) f (kernelRun0_C c i arg2 harg2 arg3 harg3 arg4 harg4 arg5 harg5 arg6 harg6 arg7 harg7 arg8 harg8 arg9 harg9 hc0 hc1 x0 x1 x2 x3 x4 xs0).1) = k0_pay4 i x0 x1 x2 x4 := by
  refine (View.read_writes_eq_canon _ _ _ (View.cover_of_tiledL _ S256x2048.size ?_)).trans ?_
  · sl_kernel_rfl
  unfold kernelRun0_C; dsimp only; sl_unfold_words; (try dsimp only)
  rw [View.canon_unit_zero hz0]
  simp only [View.readAt_eq_ld, harg2.read_unread, harg3.read_unread, harg4.read_unread, harg5.read_unread, harg6.read_unread, harg9.read_unread, View.ld_unit_zero (S := S256x2048) hz0, View.ld_unit_zero (S := S2048x2048) hz0, View.ld_unit_zero (S := S256x1) hz0, View.ld_unit_zero (S := S1x2048) hz0]

theorem neg_C0 (hc0 : ¬cond0_0 i) (hc1 : cond0_1 i) (v : View sig .tc .vmem S256x1 .f32) (f : v.ty.Contents (Elt F)) :
    v.read (Elt F) (v.writes (Elt F) f (kernelRun0_C c i arg2 harg2 arg3 harg3 arg4 harg4 arg5 harg5 arg6 harg6 arg7 harg7 arg8 harg8 arg9 harg9 hc0 hc1 x0 x1 x2 x3 x4 xs0).2.1) = k0_pay1 xs0 (k0_pay5 i x0 x1 x2 x4 x3) := by
  refine (View.read_writes_eq_canon _ _ _ (View.cover_of_tiledL _ S256x1.size ?_)).trans ?_
  · sl_kernel_rfl
  unfold kernelRun0_C; dsimp only; sl_unfold_words; (try dsimp only)
  rw [View.canon_unit_zero hz0, View.readCov_unit_zero (S := S256x1) _ hz0]
  simp only [View.readAt_eq_ld, harg2.read_unread, harg3.read_unread, harg4.read_unread, harg5.read_unread, harg6.read_unread, harg9.read_unread, View.ld_unit_zero (S := S256x2048) hz0, View.ld_unit_zero (S := S2048x2048) hz0, View.ld_unit_zero (S := S256x1) hz0, View.ld_unit_zero (S := S1x2048) hz0]

theorem acc_C0 (hc0 : ¬cond0_0 i) (hc1 : cond0_1 i) (v : View sig .tc .vmem S256x1 .f32) (f : v.ty.Contents (Elt F)) :
    v.read (Elt F) (v.writes (Elt F) f (kernelRun0_C c i arg2 harg2 arg3 harg3 arg4 harg4 arg5 harg5 arg6 harg6 arg7 harg7 arg8 harg8 arg9 harg9 hc0 hc1 x0 x1 x2 x3 x4 xs0).2.2.1) = k0_pay1 xs0 (k0_pay5 i x0 x1 x2 x4 x3) := by
  refine (View.read_writes_eq_canon _ _ _ (View.cover_of_tiledL _ S256x1.size ?_)).trans ?_
  · sl_kernel_rfl
  unfold kernelRun0_C; dsimp only; sl_unfold_words; (try dsimp only)
  rw [View.canon_unit_zero hz0]
  simp only [View.readAt_eq_ld, harg2.read_unread, harg3.read_unread, harg4.read_unread, harg5.read_unread, harg6.read_unread, harg9.read_unread, View.ld_unit_zero (S := S256x2048) hz0, View.ld_unit_zero (S := S2048x2048) hz0, View.ld_unit_zero (S := S256x1) hz0, View.ld_unit_zero (S := S1x2048) hz0]

end Pieces

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

-- The block of exponentials every point stores.
def eblk0 (c : Dev nD) (t : Fin cfg0.N) : Vec F S256x2048 .f32 :=
  k0_pay4 (grid0.coords t) (iblk0 V c 0 t) (iblk0 V c 1 t) (iblk0 V c 2 t) (iblk0 V c 4 t)

-- The row sums of a point's block over the columns that are not positive pairs.
def rows0 (c : Dev nD) (t : Fin cfg0.N) : Vec F S256x1 .f32 :=
  k0_pay5 (grid0.coords t) (iblk0 V c 0 t) (iblk0 V c 1 t) (iblk0 V c 2 t) (iblk0 V c 4 t) (iblk0 V c 3 t)

-- The accumulator after point n: a row block's running sum, restarted from zero at its first column tile.
def acc0 (c : Dev nD) : (n : ℕ) → n < cfg0.N → Vec F S256x1 .f32
  | 0, hn => k0_pay1 k0_pay2 (rows0 V c ⟨0, hn⟩)
  | n + 1, hn => k0_pay1 (if (n + 1) % 4 = 0 then k0_pay2 else acc0 c n (Nat.lt_of_succ_lt hn)) (rows0 V c ⟨n + 1, hn⟩)

theorem acc0_unfold (c : Dev nD) (t : Fin cfg0.N) :
    acc0 V c t.val t.isLt = k0_pay1 (if t.val % 4 = 0 then k0_pay2 else acc0 V c (t.val - 1) (Nat.lt_of_le_of_lt (Nat.sub_le _ _) t.isLt)) (rows0 V c t) := by
  obtain ⟨n, hn⟩ := t
  cases n with
  | zero => rfl
  | succ n => rfl

def PhiS0 (c : Dev nD) : (n : ℕ) → n ≤ cfg0.N → sProp 𝕄
  | 0, _ => Pipeline.ΦA spec0 c
  | n + 1, hn => iprop(iprop(owns (c : Thread nD τ) scM0_0 fullShare (acc0 V c n hn) ∗ rest0 c) ∗ (∃ r, prngReg c r))

theorem PhiS0_succ (c : Dev nD) (n : ℕ) (hn : n < cfg0.N) :
    PhiS0 V c (n + 1) hn = iprop(iprop(owns (c : Thread nD τ) scM0_0 fullShare (acc0 V c n hn) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (acc0 V c (n - 1) (by omega)) ∗ rest0 c) ∗ (∃ r, prngReg c r)) := by
  cases n with
  | zero => exact absurd rfl hz
  | succ n => rfl

-- Forgetting the accumulator's contents, the invariant at any point entails the resource the region is entered with.
theorem PhiS0_out (c : Dev nD) : ∀ (n : ℕ) (h : n ≤ cfg0.N), PhiS0 V c n h ⊢ Pipeline.ΦA spec0 c
  | 0, _ => .rfl
  | n + 1, h => by
    rw [PhiS0_succ, PhiA0_eq]
    iintro ⟨⟨HS0, Hr⟩, Hg⟩
    isplitl [HS0 Hr]
    · isplitl [HS0]
      · iexists _; iexact HS0
      iexact Hr
    iexact Hg

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => eblk0 V c t
    | ⟨6, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = eblk0 V c t := by dsimp only [dat0]
theorem after0_6 (c : Dev nD) (t : Fin cfg0.N) : (dat0 V c).after 6 t = acc0 V c t.val t.isLt := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
-- The point's control case picks the run; the invariant lends the accumulator and takes it back at the point's contents.
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ, PhiS0_castSucc V c t]
  rw [show (dat0 V c).leavesExact 0 t = owns (c : Thread nD τ) (ms0_0 t) fullShare ((dat0 V c).after 0 t) from by unfold Dat.leavesExact; rw [liveAt0_0 t], after0_0]
  rw [show (dat0 V c).leavesExact 1 t = owns (c : Thread nD τ) (ms0_1 t) fullShare ((dat0 V c).after 1 t) from by unfold Dat.leavesExact; rw [liveAt0_1 t], after0_1]
  rw [show (dat0 V c).leavesExact 2 t = owns (c : Thread nD τ) (ms0_2 t) fullShare ((dat0 V c).after 2 t) from by unfold Dat.leavesExact; rw [liveAt0_2 t], after0_2]
  rw [show (dat0 V c).leavesExact 3 t = owns (c : Thread nD τ) (ms0_3 t) fullShare ((dat0 V c).after 3 t) from by unfold Dat.leavesExact; rw [liveAt0_3 t], after0_3]
  rw [show (dat0 V c).leavesExact 4 t = owns (c : Thread nD τ) (ms0_4 t) fullShare ((dat0 V c).after 4 t) from by unfold Dat.leavesExact; rw [liveAt0_4 t], after0_4]
  rw [show (dat0 V c).leavesExact 5 t = owns (c : Thread nD τ) (ms0_5 t) fullShare ((dat0 V c).after 5 t) from by unfold Dat.leavesExact; rw [liveAt0_5 t], after0_5]
  have hN : t.val < 16 := lt_of_lt_of_eq t.isLt (show cfg0.N = 16 from N_0)
  by_cases h0 : t.val % 4 = 0
  · have h1 : ¬t.val % 4 = 3 := by omega
    rw [Dat.leavesExact_idle (dat0 V c) 6 t (idleAt0_6_A t ((hcond0_0 t).mpr h0) (fun h => h1 ((hcond0_1 t).mp h))) (noFlush0_6_A t ((hcond0_0 t).mpr h0) (fun h => h1 ((hcond0_1 t).mp h)))]
    rw [acc0_unfold V c t, if_pos h0]
    refine (sep_mono (PhiS0_out V c _ _) .rfl).trans ?_
    rw [PhiA0_eq]
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2.2 _ Set.univ _)
    iframe H0 H1 H2 H3 H4 H6 HS0
    isplitl [H5]; · iexists _; iexact H5
    iintro ⟨H0, H1, H2, H3, H4, ⟨%e5, H5⟩, H6, ⟨%es0, HS0⟩⟩
    iframe Hr Hg Ho H0 H1 H2 H3 H4
    isplitl [HS0]
    · unfold owns; iexists _; isplitr
      swap; · iexact HS0
      ipureintro; exact acc_A0 _ _ _ _
    isplitl [H5]
    · unfold owns; iexists _; isplitr
      swap; · iexact H5
      ipureintro; exact e_A0 _ _ _ _
    iexists _; iexact H6
  · have hz : t.val ≠ 0 := by omega
    rw [PhiS0_pos V c _ _ hz]
    by_cases h1 : t.val % 4 = 3
    · rw [show (dat0 V c).leavesExact 6 t = owns (c : Thread nD τ) (ms0_6 t) fullShare ((dat0 V c).after 6 t) from by unfold Dat.leavesExact; rw [liveAt0_6_C t (fun h => h0 ((hcond0_0 t).mp h)) ((hcond0_1 t).mpr h1)], after0_6]
      rw [acc0_unfold V c t, if_neg h0]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2.2 Set.univ _)
      iframe H0 H1 H2 H3 H4 HS0
      isplitl [H5]; · iexists _; iexact H5
      isplitl [H6]; · iexists _; iexact H6
      iintro ⟨H0, H1, H2, H3, H4, ⟨%e5, H5⟩, ⟨%e6, H6⟩, ⟨%es0, HS0⟩⟩
      iframe Hr Hg Ho H0 H1 H2 H3 H4
      isplitl [HS0]
      · unfold owns; iexists _; isplitr
        swap; · iexact HS0
        ipureintro; exact acc_C0 _ _ _ _
      isplitl [H5]
      · unfold owns; iexists _; isplitr
        swap; · iexact H5
        ipureintro; exact e_C0 _ _ _ _
      unfold owns; iexists _; isplitr
      swap; · iexact H6
      ipureintro; exact neg_C0 _ _ _ _
    · rw [Dat.leavesExact_idle (dat0 V c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [acc0_unfold V c t, if_neg h0]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _).2.2.2 _ Set.univ _)
      iframe H0 H1 H2 H3 H4 H6 HS0
      isplitl [H5]; · iexists _; iexact H5
      iintro ⟨H0, H1, H2, H3, H4, ⟨%e5, H5⟩, H6, ⟨%es0, HS0⟩⟩
      iframe Hr Hg Ho H0 H1 H2 H3 H4
      isplitl [HS0]
      · unfold owns; iexists _; isplitr
        swap; · iexact HS0
        ipureintro; exact acc_B0 _ _ _ _
      isplitl [H5]
      · unfold owns; iexists _; isplitr
        swap; · iexact H5
        ipureintro; exact e_B0 _ _ _ _
      iexists _; iexact H6

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := .rfl

theorem hout0 (c : Dev nD) : (dat0 V c).Φ (Fin.last cfg0.N) ⊢ Pipeline.ΦA spec0 c :=
  PhiS0_out V c (Fin.last cfg0.N).val (Nat.le_of_lt_succ (Fin.last cfg0.N).isLt)

end Cert.KernelIdeal.Hand

end
-- ==== Proof.KI.Reg1Runs.lean ====
import proofs.«419856_j5566277616543_1_alg».proof.Proof.Gen.KernelIdeal.Launch
import proofs.«419856_j5566277616543_1_alg».proof.Proof.Gen.KernelIdeal.Skeleton
import proofs.«419856_j5566277616543_1_alg».proof.Proof.Gen.KernelIdeal.Points
import proofs.«419856_j5566277616543_1_alg».proof.Proof.LibOwns
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

abbrev VO1_4 : View sig .tc .vmem S256x1 .f32 := (Memref.whole cc1_stg4_0 : Memref sig .tc .vmem S256x1 .f32).view
abbrev ms1_0 (t : Fin cfg1.N) : Memref sig .tc .vmem S256x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x1 .f32 := win1_4.stage (cfg1.slots t 4)
abbrev hs1_4 (t : Fin cfg1.N) : (ms1_4 t).IsWhole := hstage1_4 ((cfg1.slots t 4).cast nbuf1_4)
abbrev scM1_0 : Memref sig .tc .vmem S256x1 .f32 := Memref.whole cc1_scratch0
abbrev VS1_0 : View sig .tc .vmem S256x1 .f32 := scM1_0.view

set_option maxRecDepth 1160 in
theorem scopedRest1_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = iprop((∃ f : Buf Val ((c : Thread nD τ).loc cc1_scratch0), ((c : Thread nD τ).loc cc1_scratch0) ↦{fullShare} f)
          ∗ Pipeline.scopedRestBut (Ix := Ix) (Name := Name) (U := U) (Lvl := Lvl) (Val := Val) spec1 c [cc1_scratch0]) :=
  Pipeline.scopedRest_split_of_list spec1 c [cc1_scratch0] (by decide) (by decide)

abbrev rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1_0 fullShare d) ∗ rest1 (F := F) c) ∗ (∃ r, prngReg c r)) := by
  unfold Pipeline.ΦA; rw [scopedRest1_split]; simp only [scM1_0, owns_whole]; try rfl

variable (c : Dev nD) (i : grid1.Coords) (arg2 : Memref sig .tc .vmem S256x2048 .f32) (harg2 : arg2.IsWhole) (arg3 : Memref sig .tc .vmem S256x1 .i32) (harg3 : arg3.IsWhole) (arg4 : Memref sig .tc .vmem S1x2048 .i32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole)

set_option maxHeartbeats 1000000 in
noncomputable def kernelRun1_A (hc0 : cond1_0 i) (hc1 : ¬cond1_1 i)
    (x0 : Vec F S256x2048 .f32) (x1 : Vec F S256x1 .i32) (x2 : Vec F S1x2048 .i32) (x3 : Vec F S256x1 .f32) :
    Σ' (L4 : List (View.Piece (Elt F) S256x1 .f32)), { LS0 : List (View.Piece (Elt F) S256x1 .f32) //
      ∀ (xi4 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__kernelB_body i arg2 harg2 arg3 harg3 arg4 harg4 arg5 harg5 arg6 harg6 arg7 harg7) K } := by
  refine ⟨[], ?_, fun xi4 E K => ?run⟩
  case run =>
    simp only [cc1__kernelB_body_eq_skeleton]; unfold cc1__kernelB_body_skel
    simp only [k1_part1_eq_skeleton]
    simp only [owns_eq_unread c harg2, owns_eq_unread c harg3, owns_eq_unread c harg4, owns_eq_unread c harg5, owns_eq_unread c harg6, owns_eq_unread c harg7]
    iintro ⟨H0, H1, H2, H3, H4, ⟨%ds0, HS0⟩, Hk⟩
    sl_exec (disch := first | exact hc0 | exact hc1)
    sl_step
    iapply Hk
    iframe H0 H1 H2 H3 H4
    iexists _; iexact HS0

set_option maxHeartbeats 1000000 in
noncomputable def kernelRun1_B (hc0 : ¬cond1_0 i) (hc1 : ¬cond1_1 i)
    (x0 : Vec F S256x2048 .f32) (x1 : Vec F S256x1 .i32) (x2 : Vec F S1x2048 .i32) (x3 : Vec F S256x1 .f32) (xs0 : Vec F S256x1 .f32) :
    Σ' (L4 : List (View.Piece (Elt F) S256x1 .f32)), { LS0 : List (View.Piece (Elt F) S256x1 .f32) //
      ∀ (xi4 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__kernelB_body i arg2 harg2 arg3 harg3 arg4 harg4 arg5 harg5 arg6 harg6 arg7 harg7) K } := by
  refine ⟨[], ?_, fun xi4 E K => ?run⟩
  case run =>
    simp only [cc1__kernelB_body_eq_skeleton]; unfold cc1__kernelB_body_skel
    simp only [k1_part1_eq_skeleton]
    simp only [owns_eq_unread c harg2, owns_eq_unread c harg3, owns_eq_unread c harg4, owns_eq_unread c harg5, owns_eq_unread c harg6, owns_eq_unread c harg7]
    iintro ⟨H0, H1, H2, H3, H4, HS0, Hk⟩
    sl_exec (disch := first | exact hc0 | exact hc1)
    sl_step
    iapply Hk
    iframe H0 H1 H2 H3 H4
    iexists _; iexact HS0

set_option maxHeartbeats 1000000 in
noncomputable def kernelRun1_C (hc0 : ¬cond1_0 i) (hc1 : cond1_1 i)
    (x0 : Vec F S256x2048 .f32) (x1 : Vec F S256x1 .i32) (x2 : Vec F S1x2048 .i32) (x3 : Vec F S256x1 .f32) (xs0 : Vec F S256x1 .f32) :
    Σ' (L4 : List (View.Piece (Elt F) S256x1 .f32)), { LS0 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__kernelB_body i arg2 harg2 arg3 harg3 arg4 harg4 arg5 harg5 arg6 harg6 arg7 harg7) K } := by
  refine ⟨?_, ?_, fun E K => ?run⟩
  case run =>
    simp only [cc1__kernelB_body_eq_skeleton]; unfold cc1__kernelB_body_skel
    simp only [k1_part1_eq_skeleton]
    simp only [owns_eq_unread c harg2, owns_eq_unread c harg3, owns_eq_unread c harg4, owns_eq_unread c harg5, owns_eq_unread c harg6, owns_eq_unread c harg7]
    iintro ⟨H0, H1, H2, H3, ⟨%d4, H4⟩, HS0, Hk⟩
    sl_exec (disch := first | exact hc0 | exact hc1)
    sl_step
    iapply Hk
    iframe H0 H1 H2 H3
    isplitl [H4]; · iexists _; iexact H4
    iexists _; iexact HS0

end Cert.KernelIdeal.Hand

end
-- ==== Proof.KI.Reg1.lean ====
import proofs.«419856_j5566277616543_1_alg».proof.Proof.KI.Reg1Runs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz1 : (![0, 0] : Fin 2 → Nat) = fun _ => 0 := funext fun a => by fin_cases a <;> rfl

section Pieces

variable {c : Dev nD} {i : grid1.Coords} {arg2 : Memref sig .tc .vmem S256x2048 .f32} {harg2 : arg2.IsWhole} {arg3 : Memref sig .tc .vmem S256x1 .i32} {harg3 : arg3.IsWhole} {arg4 : Memref sig .tc .vmem S1x2048 .i32} {harg4 : arg4.IsWhole} {arg5 : Memref sig .tc .vmem S256x1 .f32} {harg5 : arg5.IsWhole} {arg6 : Memref sig .tc .vmem S256x1 .f32} {harg6 : arg6.IsWhole} {arg7 : Memref sig .tc .vmem S256x1 .f32} {harg7 : arg7.IsWhole}
  {x0 : Vec F S256x2048 .f32} {x1 : Vec F S256x1 .i32} {x2 : Vec F S1x2048 .i32} {x3 : Vec F S256x1 .f32} {xs0 : Vec F S256x1 .f32}

-- Every store fills its whole buffer, so what a case's stores leave, read through any view over any prior contents, is the last store's payload.
theorem acc_A1 (hc0 : cond1_0 i) (hc1 : ¬cond1_1 i) (v : View sig .tc .vmem S256x1 .f32) (f : v.ty.Contents (Elt F)) :
    v.read (Elt F) (v.writes (Elt F) f (kernelRun1_A c i arg2 harg2 arg3 harg3 arg4 harg4 arg5 harg5 arg6 harg6 arg7 harg7 hc0 hc1 x0 x1 x2 x3).2.1) = k1_pay2 x0 x1 x2 x3 (k1_pay1 (F := F)) := by
  refine (View.read_writes_eq_canon _ _ _ (View.cover_of_tiledL _ S256x1.size ?_)).trans ?_
  · sl_kernel_rfl
  unfold kernelRun1_A; dsimp only; sl_unfold_words
  rw [View.canon_cons_unit_zero (S := S256x1) hz1, View.readCov_unit_zero (S := S256x1) _ hz1]
  simp only [View.readAt_eq_ld, harg2.read_unread, harg3.read_unread, harg4.read_unread, harg5.read_unread, harg6.read_unread, harg7.read_unread, View.ld_unit_zero (S := S256x2048) hz1, View.ld_unit_zero (S := S256x1) hz1, View.ld_unit_zero (S := S1x2048) hz1]

theorem acc_B1 (hc0 : ¬cond1_0 i) (hc1 : ¬cond1_1 i) (v : View sig .tc .vmem S256x1 .f32) (f : v.ty.Contents (Elt F)) :
    v.read (Elt F) (v.writes (Elt F) f (kernelRun1_B c i arg2 harg2 arg3 harg3 arg4 harg4 arg5 harg5 arg6 harg6 arg7 harg7 hc0 hc1 x0 x1 x2 x3 xs0).2.1) = k1_pay2 x0 x1 x2 x3 xs0 := by
  refine (View.read_writes_eq_canon _ _ _ (View.cover_of_tiledL _ S256x1.size ?_)).trans ?_
  · sl_kernel_rfl
  unfold kernelRun1_B; dsimp only; sl_unfold_words
  rw [View.canon_unit_zero (S := S256x1) hz1]
  simp only [View.readAt_eq_ld, harg2.read_unread, harg3.read_unread, harg4.read_unread, harg5.read_unread, harg6.read_unread, harg7.read_unread, View.ld_unit_zero (S := S256x2048) hz1, View.ld_unit_zero (S := S256x1) hz1, View.ld_unit_zero (S := S1x2048) hz1]

theorem acc_C1 (hc0 : ¬cond1_0 i) (hc1 : cond1_1 i) (v : View sig .tc .vmem S256x1 .f32) (f : v.ty.Contents (Elt F)) :
    v.read (Elt F) (v.writes (Elt F) f (kernelRun1_C c i arg2 harg2 arg3 harg3 arg4 harg4 arg5 harg5 arg6 harg6 arg7 harg7 hc0 hc1 x0 x1 x2 x3 xs0).2.1) = k1_pay2 x0 x1 x2 x3 xs0 := by
  refine (View.read_writes_eq_canon _ _ _ (View.cover_of_tiledL _ S256x1.size ?_)).trans ?_
  · sl_kernel_rfl
  unfold kernelRun1_C; dsimp only; sl_unfold_words
  rw [View.canon_unit_zero (S := S256x1) hz1]
  simp only [View.readAt_eq_ld, harg2.read_unread, harg3.read_unread, harg4.read_unread, harg5.read_unread, harg6.read_unread, harg7.read_unread, View.ld_unit_zero (S := S256x2048) hz1, View.ld_unit_zero (S := S256x1) hz1, View.ld_unit_zero (S := S1x2048) hz1]

theorem out_C1 (hc0 : ¬cond1_0 i) (hc1 : cond1_1 i) (v : View sig .tc .vmem S256x1 .f32) (f : v.ty.Contents (Elt F)) :
    v.read (Elt F) (v.writes (Elt F) f (kernelRun1_C c i arg2 harg2 arg3 harg3 arg4 harg4 arg5 harg5 arg6 harg6 arg7 harg7 hc0 hc1 x0 x1 x2 x3 xs0).1) = k1_pay2 x0 x1 x2 x3 xs0 := by
  refine (View.read_writes_eq_canon _ _ _ (View.cover_of_tiledL _ S256x1.size ?_)).trans ?_
  · sl_kernel_rfl
  unfold kernelRun1_C; dsimp only; sl_unfold_words
  rw [View.canon_unit_zero (S := S256x1) hz1, View.readCov_unit_zero (S := S256x1) _ hz1]
  simp only [View.readAt_eq_ld, harg2.read_unread, harg3.read_unread, harg4.read_unread, harg5.read_unread, harg6.read_unread, harg7.read_unread, View.ld_unit_zero (S := S256x2048) hz1, View.ld_unit_zero (S := S256x1) hz1, View.ld_unit_zero (S := S1x2048) hz1]

end Pieces

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

-- The accumulator after point n: a row block's running sum of positive-pair losses, restarted from zero at its first column tile.
def acc1 (c : Dev nD) : (n : ℕ) → n < cfg1.N → Vec F S256x1 .f32
  | 0, hn => k1_pay2 (iblk1 V c 0 ⟨0, hn⟩) (iblk1 V c 1 ⟨0, hn⟩) (iblk1 V c 2 ⟨0, hn⟩) (iblk1 V c 3 ⟨0, hn⟩) (k1_pay1 (F := F))
  | n + 1, hn => k1_pay2 (iblk1 V c 0 ⟨n + 1, hn⟩) (iblk1 V c 1 ⟨n + 1, hn⟩) (iblk1 V c 2 ⟨n + 1, hn⟩) (iblk1 V c 3 ⟨n + 1, hn⟩)
      (if (n + 1) % 4 = 0 then k1_pay1 (F := F) else acc1 c n (Nat.lt_of_succ_lt hn))

theorem acc1_unfold (c : Dev nD) (t : Fin cfg1.N) :
    acc1 V c t.val t.isLt = k1_pay2 (iblk1 V c 0 t) (iblk1 V c 1 t) (iblk1 V c 2 t) (iblk1 V c 3 t)
      (if t.val % 4 = 0 then k1_pay1 (F := F) else acc1 V c (t.val - 1) (Nat.lt_of_le_of_lt (Nat.sub_le _ _) t.isLt)) := by
  obtain ⟨n, hn⟩ := t
  cases n with
  | zero => rfl
  | succ n => rfl

def PhiS1 (c : Dev nD) : (n : ℕ) → n ≤ cfg1.N → sProp 𝕄
  | 0, _ => Pipeline.ΦA spec1 c
  | n + 1, hn => iprop(iprop(owns (c : Thread nD τ) scM1_0 fullShare (acc1 V c n hn) ∗ rest1 (F := F) c) ∗ (∃ r, prngReg c r))

theorem PhiS1_succ (c : Dev nD) (n : ℕ) (hn : n < cfg1.N) :
    PhiS1 V c (n + 1) hn = iprop(iprop(owns (c : Thread nD τ) scM1_0 fullShare (acc1 V c n hn) ∗ rest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare (acc1 V c (n - 1) (by omega)) ∗ rest1 (F := F) c) ∗ (∃ r, prngReg c r)) := by
  cases n with
  | zero => exact absurd rfl hz
  | succ n => rfl

-- Forgetting the accumulator's contents, the invariant at any point entails the resource the region is entered with.
theorem PhiS1_out (c : Dev nD) : ∀ (n : ℕ) (h : n ≤ cfg1.N), PhiS1 V c n h ⊢ Pipeline.ΦA spec1 c
  | 0, _ => .rfl
  | n + 1, h => by
    rw [PhiS1_succ, PhiA1_eq]
    iintro ⟨⟨HS0, HR⟩, Hg⟩
    isplitl [HS0 HR]
    · isplitl [HS0]
      · iexists _; iexact HS0
      iexact HR
    iexact Hg

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = acc1 V c t.val t.isLt := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
-- The point's control case picks the run; the invariant lends the accumulator and takes it back at the point's contents.
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ, PhiS1_castSucc V c t]
  rw [show (dat1 V c).leavesExact 0 t = owns (c : Thread nD τ) (ms1_0 t) fullShare ((dat1 V c).after 0 t) from by unfold Dat.leavesExact; rw [liveAt1_0 t], after1_0]
  rw [show (dat1 V c).leavesExact 1 t = owns (c : Thread nD τ) (ms1_1 t) fullShare ((dat1 V c).after 1 t) from by unfold Dat.leavesExact; rw [liveAt1_1 t], after1_1]
  rw [show (dat1 V c).leavesExact 2 t = owns (c : Thread nD τ) (ms1_2 t) fullShare ((dat1 V c).after 2 t) from by unfold Dat.leavesExact; rw [liveAt1_2 t], after1_2]
  rw [show (dat1 V c).leavesExact 3 t = owns (c : Thread nD τ) (ms1_3 t) fullShare ((dat1 V c).after 3 t) from by unfold Dat.leavesExact; rw [liveAt1_3 t], after1_3]
  have hN : t.val < 16 := lt_of_lt_of_eq t.isLt (show cfg1.N = 16 from N_1)
  by_cases h0 : t.val % 4 = 0
  · have h1 : ¬t.val % 4 = 3 := by omega
    rw [Dat.leavesExact_idle (dat1 V c) 4 t (idleAt1_4 t (fun h => h1 ((hcond1_1 t).mp h))) (noFlush1_4 t (fun h => h1 ((hcond1_1 t).mp h)))]
    rw [acc1_unfold V c t, if_pos h0]
    refine (sep_mono (PhiS1_out V c _ _) .rfl).trans ?_
    rw [PhiA1_eq]
    iintro ⟨⟨⟨HS0, HR⟩, Hg⟩, Ho, ⟨%d0, H0⟩, ⟨%d1, H1⟩, ⟨%d2, H2⟩, ⟨%d3, H3⟩, ⟨%d4, H4⟩⟩
    iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
    iframe H0 H1 H2 H3 H4 HS0
    iintro ⟨H0, H1, H2, H3, H4, ⟨%es0, HS0⟩⟩
    iframe HR Hg Ho H0 H1 H2 H3
    isplitl [HS0]
    · unfold owns; iexists _; isplitr
      swap; · iexact HS0
      ipureintro; exact acc_A1 _ _ _ _
    iexists _; iexact H4
  · have hz : t.val ≠ 0 := fun e => h0 (by rw [e])
    rw [PhiS1_pos V c _ _ hz]
    by_cases h1 : t.val % 4 = 3
    · rw [show (dat1 V c).leavesExact 4 t = owns (c : Thread nD τ) (ms1_4 t) fullShare ((dat1 V c).after 4 t) from by unfold Dat.leavesExact; rw [liveAt1_4 t ((hcond1_1 t).mpr h1)], after1_4]
      rw [acc1_unfold V c t, if_neg h0]
      iintro ⟨⟨⟨HS0, HR⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      iframe H0 H1 H2 H3 HS0
      isplitl [H4]; · iexists _; iexact H4
      iintro ⟨H0, H1, H2, H3, ⟨%e4, H4⟩, ⟨%es0, HS0⟩⟩
      iframe HR Hg Ho H0 H1 H2 H3
      isplitl [HS0]
      · unfold owns; iexists _; isplitr
        swap; · iexact HS0
        ipureintro; exact acc_C1 _ _ _ _
      unfold owns; iexists _; isplitr
      swap; · iexact H4
      ipureintro; exact out_C1 _ _ _ _
    · rw [Dat.leavesExact_idle (dat1 V c) 4 t (idleAt1_4 t (fun h => h1 ((hcond1_1 t).mp h))) (noFlush1_4 t (fun h => h1 ((hcond1_1 t).mp h)))]
      rw [acc1_unfold V c t, if_neg h0]
      iintro ⟨⟨⟨HS0, HR⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
      iframe H0 H1 H2 H3 H4 HS0
      iintro ⟨H0, H1, H2, H3, H4, ⟨%es0, HS0⟩⟩
      iframe HR Hg Ho H0 H1 H2 H3
      isplitl [HS0]
      · unfold owns; iexists _; isplitr
        swap; · iexact HS0
        ipureintro; exact acc_B1 _ _ _ _
      iexists _; iexact H4

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := .rfl

theorem hout1 (c : Dev nD) : (dat1 V c).Φ (Fin.last cfg1.N) ⊢ Pipeline.ΦA spec1 c :=
  PhiS1_out V c (Fin.last cfg1.N).val (Nat.le_of_lt_succ (Fin.last cfg1.N).isLt)

end Cert.KernelIdeal.Hand

end
-- ==== Proof.KI.Run.lean ====
import proofs.«419856_j5566277616543_1_alg».proof.Proof.Gen.KernelIdeal.Regions
import proofs.«419856_j5566277616543_1_alg».proof.Proof.KI.Reg0
import proofs.«419856_j5566277616543_1_alg».proof.Proof.KI.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

section Run

local notation "𝕄" => MT nD τ sig Unit (Elt F) ℕ (UR sig nD τ) ℕ

variable (m : (ℓ : Loc nD τ sig) → Buf (Elt F) ℓ) (ρ : Dev nD → PrngReg)

abbrev E19 : (c : Dev nD) → (b : Ref sig .tc) → Buf (Elt F) ((c : Thread nD τ).loc b) := fun c b => V19 m c b

def W20 (c : Dev nD) : Valuation τ sig (Elt F) :=
  Pipeline.withArrays spec0 c (V19 m c) fun w => (dat0 (E19 m) c).arrAt w cfg0.N

def outs20 : Outs (F := F) := fun _ r c => W20 m c (Proc.devRef .tc r)

abbrev E20 : (c : Dev nD) → (b : Ref sig .tc) → Buf (Elt F) ((c : Thread nD τ).loc b) := fun c b => V20 m (outs20 m) c b

def W21 (c : Dev nD) : Valuation τ sig (Elt F) :=
  Pipeline.withArrays spec1 c (V20 m (outs20 m) c) fun w => (dat1 (E20 m) c).arrAt w cfg1.N

def outs : Outs (F := F) := fun J r c =>
  if J = 20 then W20 m c (Proc.devRef .tc r) else W21 m c (Proc.devRef .tc r)

theorem outs_at_20 (r : Ref sig .tc) (c : Dev nD) : outs m 20 r c = W20 m c (Proc.devRef .tc r) := if_pos rfl
theorem outs_at_21 (r : Ref sig .tc) (c : Dev nD) : outs m 21 r c = W21 m c (Proc.devRef .tc r) := if_neg (by decide)

theorem V20_outs (c : Dev nD) : V20 m (outs m) c = V20 m (outs20 m) c := by
  show Function.update (Function.update (V19 m c) main_v48_0 (outs m 20 main_v48_0 c)) main_v48_1 (outs m 20 main_v48_1 c) = _
  rw [outs_at_20, outs_at_20]; rfl

theorem V20_main_v48_0 (o : Outs (F := F)) (c : Dev nD) : V20 m o c main_v48_0 = o 20 main_v48_0 c := by
  simp only [V20, Function.update_of_ne (StableHlo.devRef_ne_of_ne (by decide) : (Proc.devRef .tc main_v48_0 : DevRef τ sig) ≠ Proc.devRef .tc main_v48_1), Function.update_self]
theorem V20_main_v48_1 (o : Outs (F := F)) (c : Dev nD) : V20 m o c main_v48_1 = o 20 main_v48_1 c := by
  simp only [V20, Function.update_self]
theorem V21_main_v49 (o : Outs (F := F)) (c : Dev nD) : V21 m o c main_v49 = o 21 main_v49 c := by
  simp only [V21, Function.update_self]

theorem W20_arr (c : Dev nD) (w : Fin cfg0.W) :
    W20 m c (Proc.devRef .tc (Pipeline.arrRef spec0 w)) = (dat0 (E19 m) c).arrAt w cfg0.N := by
  unfold W20; exact Pipeline.withArrays_arr spec0 launch0.win.arr_inj c _ _ w
theorem W21_arr (c : Dev nD) (w : Fin cfg1.W) :
    W21 m c (Proc.devRef .tc (Pipeline.arrRef spec1 w)) = (dat1 (E20 m) c).arrAt w cfg1.N := by
  unfold W21; exact Pipeline.withArrays_arr spec1 launch1.win.arr_inj c _ _ w

abbrev X20 : (c : Dev nD) → (b : Ref sig .tc) → Buf (Elt F) ((c : Thread nD τ).loc b) := fun c b => V20 m (outs m) c b
abbrev X21 : (c : Dev nD) → (b : Ref sig .tc) → Buf (Elt F) ((c : Thread nD τ).loc b) := fun c b => V21 m (outs m) c b

theorem hF0_in (c : Dev nD) (w : Fin cfg0.W) (hw : (cfg0.win w).isOut = false) (b : Ref sig .tc) (hb : Pipeline.arrRef spec0 w = b)
    (hne : b ∉ ([main_v48_0, main_v48_1] : List (Ref sig .tc))) :
    (dat0 (E19 m) c).arrAt w cfg0.N = X20 m c (Pipeline.arrRef spec0 w) := by
  subst hb
  exact ((dat0 (E19 m) c).arrAt_in w hw _).trans ((A_eq0 (E19 m) c w).trans (V20_of m (outs m) c _ hne).symm)

theorem hF0_5 (c : Dev nD) : (dat0 (E19 m) c).arrAt 5 cfg0.N = X20 m c (Pipeline.arrRef spec0 5) :=
  ((V20_main_v48_0 m (outs m) c).trans ((outs_at_20 m main_v48_0 c).trans (W20_arr m c 5))).symm
theorem hF0_6 (c : Dev nD) : (dat0 (E19 m) c).arrAt 6 cfg0.N = X20 m c (Pipeline.arrRef spec0 6) :=
  ((V20_main_v48_1 m (outs m) c).trans ((outs_at_20 m main_v48_1 c).trans (W20_arr m c 6))).symm

theorem hF0 (c : Dev nD) (w : Fin cfg0.W) : (dat0 (E19 m) c).arrAt w cfg0.N = X20 m c (Pipeline.arrRef spec0 w) := by
  have hw : w = 0 ∨ w = 1 ∨ w = 2 ∨ w = 3 ∨ w = 4 ∨ w = 5 ∨ w = 6 := by revert w; decide
  rcases hw with rfl | rfl | rfl | rfl | rfl | rfl | rfl
  · exact hF0_in m c 0 rfl main_v43 rfl (by decide)
  · exact hF0_in m c 1 rfl main_v44 rfl (by decide)
  · exact hF0_in m c 2 rfl main_v45 rfl (by decide)
  · exact hF0_in m c 3 rfl main_v46 rfl (by decide)
  · exact hF0_in m c 4 rfl main_v47 rfl (by decide)
  · exact hF0_5 m c
  · exact hF0_6 m c

theorem hF1_in (c : Dev nD) (w : Fin cfg1.W) (hw : (cfg1.win w).isOut = false) (b : Ref sig .tc) (hb : Pipeline.arrRef spec1 w = b)
    (hne : b ∉ ([main_v49] : List (Ref sig .tc))) :
    (dat1 (E20 m) c).arrAt w cfg1.N = X21 m c (Pipeline.arrRef spec1 w) := by
  subst hb
  exact ((dat1 (E20 m) c).arrAt_in w hw _).trans ((A_eq1 (E20 m) c w).trans
    ((congrFun (V20_outs m c) _).symm.trans (V21_of m (outs m) c _ hne).symm))

theorem hF1_4 (c : Dev nD) : (dat1 (E20 m) c).arrAt 4 cfg1.N = X21 m c (Pipeline.arrRef spec1 4) :=
  ((V21_main_v49 m (outs m) c).trans ((outs_at_21 m main_v49 c).trans (W21_arr m c 4))).symm

theorem hF1 (c : Dev nD) (w : Fin cfg1.W) : (dat1 (E20 m) c).arrAt w cfg1.N = X21 m c (Pipeline.arrRef spec1 w) := by
  have hw : w = 0 ∨ w = 1 ∨ w = 2 ∨ w = 3 ∨ w = 4 := by revert w; decide
  rcases hw with rfl | rfl | rfl | rfl | rfl
  · exact hF1_in m c 0 rfl main_v48_0 rfl (by decide)
  · exact hF1_in m c 1 rfl main_v45 rfl (by decide)
  · exact hF1_in m c 2 rfl main_v46 rfl (by decide)
  · exact hF1_in m c 3 rfl main_v48_1 rfl (by decide)
  · exact hF1_4 m c

theorem hrest0 (c : Dev nD) : ∀ b, b ∉ Finset.univ.image (Pipeline.arrRef spec0) → X20 m c b = E19 m c b :=
  fun b hb => V20_of m (outs m) c b fun h => hb (by
    rcases List.mem_cons.mp h with rfl | h
    · exact Finset.mem_image.mpr ⟨5, Finset.mem_univ _, rfl⟩
    · rcases List.mem_cons.mp h with rfl | h
      · exact Finset.mem_image.mpr ⟨6, Finset.mem_univ _, rfl⟩
      · nomatch h)

theorem hrest1 (c : Dev nD) : ∀ b, b ∉ Finset.univ.image (Pipeline.arrRef spec1) → X21 m c b = E20 m c b :=
  fun b hb => (V21_of m (outs m) c b fun h => hb (by
    rcases List.mem_cons.mp h with rfl | h
    · exact Finset.mem_image.mpr ⟨4, Finset.mem_univ _, rfl⟩
    · nomatch h)).trans (congrFun (V20_outs m c) _)

def pdats : (p : Fin 2) → (c : Dev nD) → Dat τ (Elt F) Unit ℕ (UR sig nD τ) ℕ (cfgs p) c
  | ⟨0, _⟩ => fun c => dat0 (E19 m) c
  | ⟨1, _⟩ => fun c => dat1 (E20 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E19 m) c).loose
  hwaits := Pipeline.hwaits_of_owed_zero _ _ _ _ L lv 0 fun _ _ => rfl
  pre c := iprop(StableHlo.held (c : Thread nD τ) (Pipeline.ucRefs τ sig) (V19 m c) ∗ R c)
  post c := iprop(StableHlo.held (c : Thread nD τ) (Pipeline.ucRefs τ sig) (V20 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E19 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E19 m c) fun w => A_eq0 (E19 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E19 m) c)
    unfold Pipeline.ΦA
    iintro ⟨Hp, -, Hr⟩
    isplitl [Hr]; · iexact Hr
    iexact Hp
  hout c := by
    rw [Pipeline.ownSems0_none]
    refine (hout0 (E19 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E19 m c) (X20 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E20 m) c).loose
  hwaits := Pipeline.hwaits_of_owed_zero _ _ _ _ L lv 1 fun _ _ => rfl
  pre c := iprop(StableHlo.held (c : Thread nD τ) (Pipeline.ucRefs τ sig) (V20 m (outs m) c) ∗ R c)
  post c := iprop(StableHlo.held (c : Thread nD τ) (Pipeline.ucRefs τ sig) (V21 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E20 m c)
  hentry c := by
    rw [Pipeline.ownSems0_none, V20_outs m c]
    have hsplit := Pipeline.arrays_of_unscopedBufs (p := 1) (pcfgs (F := F)) adm (pdats m) launch1.win launch1.arr_whole c
      ((pdats m 1 c).share_full fun _ => rfl) (E20 m c) fun w => A_eq1 (E20 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E20 m) c)
    unfold Pipeline.ΦA
    iintro ⟨Hp, -, Hr⟩
    isplitl [Hr]; · iexact Hr
    iexact Hp
  hout c := by
    rw [Pipeline.ownSems0_none]
    refine (hout1 (E20 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E20 m c) (X21 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_cond m emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun c => .rfl) (hpost0 := fun c => .rfl)
    (R1 := reg1 m) (hpre1 := fun c => .rfl) (hpost1 := fun c => .rfl)

end Run

end Cert.KernelIdeal.Hand

end
-- ==== Proof.KI.RunVal.lean ====
import proofs.«419856_j5566277616543_1_alg».proof.Proof.Gen.KernelIdeal.Regions
import proofs.«419856_j5566277616543_1_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

set_option backward.isDefEq.respectTransparency.types false in
theorem run_cond {Ix : Type} [DecidableEq Ix] {U : Type} [URA U] {Lvl : Type} [Preorder Lvl]
    (m : (ℓ : Loc nD τ sig) → Buf (Elt F) ℓ)
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V19 m c) ∗ E 0 c) ⊢ R0.pre c)
    (hpost0 : ∀ c : Dev nD, R0.post c ⊢ iprop(StableHlo.held (c : Thread nD τ) (Pipeline.ucRefs τ sig) (V20 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V20 m outs c) ∗ E 1 c) ⊢ R1.pre c)
    (hpost1 : ∀ c : Dev nD, R1.post c ⊢ iprop(StableHlo.held (c : Thread nD τ) (Pipeline.ucRefs τ sig) (V21 m outs c) ∗ E 2 c)) :
    θ_run defs (onTc (τ := τ) (main (F := F))) ⟨m, fun _ => 0, ρ⟩ (fun r => ∀ c : Dev nD,
      ∀ b ∈ Pipeline.ucRefs τ sig, r.2.mem ((c : Thread nD τ).1, b) = V22 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          StableHlo.seq hostOps0_14,
          StableHlo.seq hostOps0_15,
          StableHlo.seq hostOps0_16,
          StableHlo.seq hostOps0_17,
          StableHlo.seq hostOps0_18,
          Prog.lift (.customCall (Pipeline.entry 0) ()),
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V22 m outs c))
    (hch := fun c => ⟨.rfl, .rfl, .rfl, .rfl, .rfl, .rfl, .rfl, .rfl, .rfl, .rfl, .rfl, .rfl, .rfl, .rfl, .rfl, .rfl, .rfl, .rfl, .rfl, hpre0 c, (hpost0 c).trans (hpre1 c), hpost1 c, sep_mono .rfl (hE2 c)⟩)
    (hinit := ?_) (QY := fun c s => ∀ b ∈ Pipeline.ucRefs τ sig, s.mem ((c : Thread nD τ).1, b) = V22 m outs c b)
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    imodintro
    iapply (pointsTo_read_all (Pipeline.ucRefs τ sig) (fun b => ((c : Thread nD τ).1, b)) (V22 m outs c) s')
    isplitl [Hh] <;> iassumption

section Run

local notation "𝕄" => MT nD τ sig Unit (Elt F) ℕ (UR sig nD τ) ℕ

variable (m : (ℓ : Loc nD τ sig) → Buf (Elt F) ℓ) (ρ : Dev nD → PrngReg)

theorem outs_20_0 (c : Dev nD) : outs m 20 main_v48_0 c = (dat0 (fun c b => V19 m c b) c).arrAt 5 cfg0.N :=
  (outs_at_20 m main_v48_0 c).trans (W20_arr m c 5)
theorem outs_20_1 (c : Dev nD) : outs m 20 main_v48_1 c = (dat0 (fun c b => V19 m c b) c).arrAt 6 cfg0.N :=
  (outs_at_20 m main_v48_1 c).trans (W20_arr m c 6)
theorem E20_eq : (fun (c : Dev nD) (b : Ref sig .tc) => (V20 m (outs m) c b : Buf (Elt F) ((c : Thread nD τ).loc b))) = E20 m :=
  funext fun c => funext fun b => congrFun (V20_outs m c) _
theorem outs_21 (c : Dev nD) : outs m 21 main_v49 c = (dat1 (fun c b => V20 m (outs m) c b) c).arrAt 4 cfg1.N := by
  rw [E20_eq m]
  exact (outs_at_21 m main_v49 c).trans (W21_arr m c 4)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem ((c : Thread nD τ).1, b) = V22 m (outs m) c b) :=
  run_cond m emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun c => .rfl) (hpost0 := fun c => .rfl)
    (R1 := reg1 m) (hpre1 := fun c => .rfl) (hpost1 := fun c => .rfl)

theorem run_val : θ_run defs (onTc (τ := τ) (main (F := F))) ⟨m, fun _ => 0, ρ⟩ (fun r => ∀ c : Dev nD,
      r.2.mem ((c.tc : Thread nD τ).loc main_v73) = V22 m (outs m) c main_v73
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v73 (by decide)),
     (h c _ (mem_uc main_arg0 (by decide))).trans (V22_main_arg0 m _ c),
     (h c _ (mem_uc main_arg1 (by decide))).trans (V22_main_arg1 m _ c),
     (h c _ (mem_uc main_arg2 (by decide))).trans (V22_main_arg2 m _ c),
     (h c _ (mem_uc main_arg3 (by decide))).trans (V22_main_arg3 m _ c),
     (h c _ (mem_uc main_arg4 (by decide))).trans (V22_main_arg4 m _ c),
     (h c _ (mem_uc main_arg5 (by decide))).trans (V22_main_arg5 m _ c)⟩)
    (run_all m ρ)

end Run

end Cert.KernelIdeal.Hand

end
-- ==== Proof.KI.Blocks0.lean ====
import proofs.«419856_j5566277616543_1_alg».proof.Proof.KI.Reg0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev nqblk0 (c : Dev nD) (t : Fin cfg0.N) : Vec F S256x2048 .bf16 := iblk0 V c 0 t
abbrev nqfblk0 (c : Dev nD) (t : Fin cfg0.N) : Vec F S2048x2048 .bf16 := iblk0 V c 1 t
abbrev labblk0 (c : Dev nD) (t : Fin cfg0.N) : Vec F S256x1 .i32 := iblk0 V c 2 t
abbrev qlblk0 (c : Dev nD) (t : Fin cfg0.N) : Vec F S1x2048 .i32 := iblk0 V c 3 t
abbrev cfblk0 (c : Dev nD) (t : Fin cfg0.N) : Vec F S256x1 .f32 := iblk0 V c 4 t

theorem eblk0_eq (c : Dev nD) (t : Fin cfg0.N) :
    eblk0 V c t = k0_pay4 (grid0.coords t) (nqblk0 V c t) (nqfblk0 V c t) (labblk0 V c t) (cfblk0 V c t) := rfl

theorem acc0_step (c : Dev nD) (t : Fin cfg0.N) :
    acc0 V c t.val t.isLt
      = k0_pay1 (if t.val % 4 = 0 then k0_pay2 else acc0 V c (t.val - 1) (Nat.lt_of_le_of_lt (Nat.sub_le _ _) t.isLt))
          (k0_pay5 (grid0.coords t) (nqblk0 V c t) (nqfblk0 V c t) (labblk0 V c t) (cfblk0 V c t) (qlblk0 V c t)) :=
  acc0_unfold V c t

theorem t_lt0 (t : Fin cfg0.N) : t.val < 16 := lt_of_lt_of_eq t.isLt (show cfg0.N = 16 from N_0)

theorem idx_facts0 : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = 0
    ∧ win0_3.index t (0 : Fin 2) = 0 ∧ win0_3.index t (1 : Fin 2) = t.val % 4
    ∧ win0_4.index t (0 : Fin 2) = t.val / 4 ∧ win0_4.index t (1 : Fin 2) = 0
    ∧ win0_5.index t (0 : Fin 2) = t.val / 4 ∧ win0_5.index t (1 : Fin 2) = t.val % 4
    ∧ win0_6.index t (0 : Fin 2) = t.val / 4 ∧ win0_6.index t (1 : Fin 2) = 0 :=
  (by decide +kernel : ∀ t : Fin grid0.N, _)

theorem coords0 : ∀ t : Fin cfg0.N, ((grid0.coords t) 0).val = t.val / 4 ∧ ((grid0.coords t) 1).val = t.val % 4 :=
  (by decide +kernel : ∀ t : Fin grid0.N, _)

abbrev grow0 (t : Fin cfg0.N) (p : Fin 256) : Fin 1024 := ⟨(t.val / 4) * 256 + p.val, by have := t_lt0 t; have := p.isLt; omega⟩
abbrev gcol0 (t : Fin cfg0.N) (q : Fin 2048) : Fin 8192 := ⟨(t.val % 4) * 2048 + q.val, by have := q.isLt; omega⟩

theorem nqblk0_apply (c : Dev nD) (t : Fin cfg0.N) (p : Fin 256) (k : Fin 2048) :
    nqblk0 V c t (ix2 p k) = (V c main_v43 : S1024x2048.Idx → Elt F .bf16) (ix2 (grow0 t p) k) := by
  obtain ⟨e00, e01, -⟩ := idx_facts0 t
  unfold nqblk0 iblk0
  rw [View.read_apply]
  show V c main_v43 _ = V c main_v43 _
  congr 1
  funext a; apply Fin.ext
  match a with
  | ⟨0, _⟩ => show win0_0.index t (0 : Fin 2) * 256 + 1 * p.val = (t.val / 4) * 256 + p.val; rw [e00]; omega
  | ⟨1, _⟩ => show win0_0.index t (1 : Fin 2) * 2048 + 1 * k.val = k.val; rw [e01]; omega

theorem nqfblk0_apply (c : Dev nD) (t : Fin cfg0.N) (q : Fin 2048) (k : Fin 2048) :
    nqfblk0 V c t (ix2 q k) = (V c main_v44 : S8192x2048.Idx → Elt F .bf16) (ix2 (gcol0 t q) k) := by
  obtain ⟨-, -, e10, e11, -⟩ := idx_facts0 t
  unfold nqfblk0 iblk0
  rw [View.read_apply]
  show V c main_v44 _ = V c main_v44 _
  congr 1
  funext a; apply Fin.ext
  match a with
  | ⟨0, _⟩ => show win0_1.index t (0 : Fin 2) * 2048 + 1 * q.val = (t.val % 4) * 2048 + q.val; rw [e10]; omega
  | ⟨1, _⟩ => show win0_1.index t (1 : Fin 2) * 2048 + 1 * k.val = k.val; rw [e11]; omega

theorem labblk0_apply (c : Dev nD) (t : Fin cfg0.N) (p : Fin 256) :
    labblk0 V c t (ix2 p (0 : Fin 1)) = (V c main_v45 : S1024x1.Idx → Elt F .i32) (ix2 (grow0 t p) (0 : Fin 1)) := by
  obtain ⟨-, -, -, -, e20, e21, -⟩ := idx_facts0 t
  unfold labblk0 iblk0
  rw [View.read_apply]
  show V c main_v45 _ = V c main_v45 _
  congr 1
  funext a; apply Fin.ext
  match a with
  | ⟨0, _⟩ => show win0_2.index t (0 : Fin 2) * 256 + 1 * p.val = (t.val / 4) * 256 + p.val; rw [e20]; omega
  | ⟨1, _⟩ => show win0_2.index t (1 : Fin 2) * 1 + 1 * (0 : Fin 1).val = (0 : Fin 1).val; rw [e21]; omega

theorem qlblk0_apply (c : Dev nD) (t : Fin cfg0.N) (q : Fin 2048) :
    qlblk0 V c t (ix2 (0 : Fin 1) q) = (V c main_v46 : S1x8192.Idx → Elt F .i32) (ix2 (0 : Fin 1) (gcol0 t q)) := by
  obtain ⟨-, -, -, -, -, -, e30, e31, -⟩ := idx_facts0 t
  unfold qlblk0 iblk0
  rw [View.read_apply]
  show V c main_v46 _ = V c main_v46 _
  congr 1
  funext a; apply Fin.ext
  match a with
  | ⟨0, _⟩ => show win0_3.index t (0 : Fin 2) * 1 + 1 * (0 : Fin 1).val = (0 : Fin 1).val; rw [e30]; omega
  | ⟨1, _⟩ => show win0_3.index t (1 : Fin 2) * 2048 + 1 * q.val = (t.val % 4) * 2048 + q.val; rw [e31]; omega

theorem cfblk0_apply (c : Dev nD) (t : Fin cfg0.N) (p : Fin 256) :
    cfblk0 V c t (ix2 p (0 : Fin 1)) = (V c main_v47 : S1024x1.Idx → Elt F .f32) (ix2 (grow0 t p) (0 : Fin 1)) := by
  obtain ⟨-, -, -, -, -, -, -, -, e40, e41, -⟩ := idx_facts0 t
  unfold cfblk0 iblk0
  rw [View.read_apply]
  show V c main_v47 _ = V c main_v47 _
  congr 1
  funext a; apply Fin.ext
  match a with
  | ⟨0, _⟩ => show win0_4.index t (0 : Fin 2) * 256 + 1 * p.val = (t.val / 4) * 256 + p.val; rw [e40]; omega
  | ⟨1, _⟩ => show win0_4.index t (1 : Fin 2) * 1 + 1 * (0 : Fin 1).val = (0 : Fin 1).val; rw [e41]; omega

theorem mem_blk0_5 (t : Fin cfg0.N) (i : S1024x8192.Idx) :
    i ∈ ((cfg0.win 5).blk t).view.set ↔ ∀ a : Fin 2, win0_5.index t a * S256x2048.size a ≤ (i a).val ∧ (i a).val < win0_5.index t a * S256x2048.size a + S256x2048.size a := by
  show i ∈ ((View.whole main_v48_0).slice (win0_5.rect t)).set ↔ _
  rw [View.set_slice_whole, Rect.mem_set_unit]
  exact Iff.rfl

theorem mem_blk0_6 (t : Fin cfg0.N) (i : S1024x1.Idx) :
    i ∈ ((cfg0.win 6).blk t).view.set ↔ ∀ a : Fin 2, win0_6.index t a * S256x1.size a ≤ (i a).val ∧ (i a).val < win0_6.index t a * S256x1.size a + S256x1.size a := by
  show i ∈ ((View.whole main_v48_1).slice (win0_6.rect t)).set ↔ _
  rw [View.set_slice_whole, Rect.mem_set_unit]
  exact Iff.rfl

theorem emb0_5 (t : Fin cfg0.N) (j : S256x2048.Idx) :
    (((cfg0.win 5).blk t).view.emb j : S1024x8192.Idx) = ix2 (grow0 t (j 0)) (gcol0 t (j 1)) := by
  obtain ⟨-, -, -, -, -, -, -, -, -, -, e50, e51, -⟩ := idx_facts0 t
  funext a; apply Fin.ext
  match a with
  | ⟨0, _⟩ => show win0_5.index t (0 : Fin 2) * 256 + 1 * (j 0).val = (t.val / 4) * 256 + (j 0).val; rw [e50]; omega
  | ⟨1, _⟩ => show win0_5.index t (1 : Fin 2) * 2048 + 1 * (j 1).val = (t.val % 4) * 2048 + (j 1).val; rw [e51]; omega

theorem emb0_6 (t : Fin cfg0.N) (j : S256x1.Idx) :
    (((cfg0.win 6).blk t).view.emb j : S1024x1.Idx) = ix2 (grow0 t (j 0)) (0 : Fin 1) := by
  obtain ⟨-, -, -, -, -, -, -, -, -, -, -, -, e60, e61⟩ := idx_facts0 t
  funext a; apply Fin.ext
  match a with
  | ⟨0, _⟩ => show win0_6.index t (0 : Fin 2) * 256 + 1 * (j 0).val = (t.val / 4) * 256 + (j 0).val; rw [e60]; omega
  | ⟨1, _⟩ => show win0_6.index t (1 : Fin 2) * 1 + 1 * (j 1).val = (0 : Fin 1).val; rw [e61]; have hj1 : (j 1).val < 1 := (j 1).isLt; omega

theorem arr0_5_of (c : Dev nD) (G : S1024x8192.Idx → Elt F .f32)
    (hG : ∀ (t : Fin cfg0.N) (p : Fin 256) (q : Fin 2048),
      (eblk0 V c t) (ix2 p q) = G (ix2 (grow0 t p) (gcol0 t q))) :
    (dat0 V c).arrAt 5 cfg0.N = G := by
  refine (dat0 V c).arrAt_eq_of_cover 5 G (fun t _ => ?_) (fun i => ?_)
  · show (cfg0.win 5).cut (grid0.coords t) ((dat0 V c).after 5 t) = _
    rw [after0_5]
    refine funext fun (j : S256x2048.Idx) => ?_
    show (eblk0 V c t) j = G (((cfg0.win 5).blk t).view.emb j)
    rw [emb0_5 t j]
    exact (congrArg (eblk0 V c t) (eq_ix2 j)).trans (hG t (j 0) (j 1))
  · have hi0 : (i 0).val < 1024 := (i 0).isLt
    have hi1 : (i 1).val < 8192 := (i 1).isLt
    have hN : cfg0.N = 16 := N_0
    let t : Fin cfg0.N := ⟨4 * ((i 0).val / 256) + (i 1).val / 2048, by omega⟩
    have ht : t.val = 4 * ((i 0).val / 256) + (i 1).val / 2048 := rfl
    obtain ⟨-, -, -, -, -, -, -, -, -, -, e50, e51, -⟩ := idx_facts0 t
    refine ⟨t, flush0_5 t, ?_⟩
    rw [mem_blk0_5]
    intro a
    match a with
    | ⟨0, _⟩ => show win0_5.index t (0 : Fin 2) * 256 ≤ (i 0).val ∧ (i 0).val < win0_5.index t (0 : Fin 2) * 256 + 256; rw [e50]; omega
    | ⟨1, _⟩ => show win0_5.index t (1 : Fin 2) * 2048 ≤ (i 1).val ∧ (i 1).val < win0_5.index t (1 : Fin 2) * 2048 + 2048; rw [e51]; omega

theorem arr0_6_of (c : Dev nD) (G : S1024x1.Idx → Elt F .f32)
    (hG : ∀ t : Fin cfg0.N, t.val % 4 = 3 → ∀ p : Fin 256,
      (acc0 V c t.val t.isLt) (ix2 p (0 : Fin 1)) = G (ix2 (grow0 t p) (0 : Fin 1))) :
    (dat0 V c).arrAt 6 cfg0.N = G := by
  refine (dat0 V c).arrAt_eq_of_cover 6 G (fun t hf => ?_) (fun i => ?_)
  · have h3 : t.val % 4 = 3 := (flush0_6 t).mp hf
    show (cfg0.win 6).cut (grid0.coords t) ((dat0 V c).after 6 t) = _
    rw [after0_6]
    refine funext fun (j : S256x1.Idx) => ?_
    show (acc0 V c t.val t.isLt) j = G (((cfg0.win 6).blk t).view.emb j)
    rw [emb0_6 t j]
    have hj1 : (j 1 : Fin 1) = (0 : Fin 1) := Fin.ext (by have h : (j 1).val < 1 := (j 1).isLt; show (j 1).val = 0; omega)
    have hj : j = ix2 (j 0) (0 : Fin 1) := (eq_ix2 j).trans (congrArg (ix2 (j 0)) hj1)
    exact (congrArg (acc0 V c t.val t.isLt) hj).trans (hG t h3 (j 0))
  · have hi0 : (i 0).val < 1024 := (i 0).isLt
    have hi1 : (i 1).val < 1 := (i 1).isLt
    have hN : cfg0.N = 16 := N_0
    let t : Fin cfg0.N := ⟨4 * ((i 0).val / 256) + 3, by omega⟩
    have ht : t.val = 4 * ((i 0).val / 256) + 3 := rfl
    obtain ⟨-, -, -, -, -, -, -, -, -, -, -, -, e60, e61⟩ := idx_facts0 t
    refine ⟨t, (flush0_6 t).mpr (by omega), ?_⟩
    rw [mem_blk0_6]
    intro a
    match a with
    | ⟨0, _⟩ => show win0_6.index t (0 : Fin 2) * 256 ≤ (i 0).val ∧ (i 0).val < win0_6.index t (0 : Fin 2) * 256 + 256; rw [e60]; omega
    | ⟨1, _⟩ => show win0_6.index t (1 : Fin 2) * 1 ≤ (i 1).val ∧ (i 1).val < win0_6.index t (1 : Fin 2) * 1 + 1; rw [e61]; omega

end Cert.KernelIdeal.Hand

end
-- ==== Proof.LibSums.lean ====
import Mathlib.Algebra.BigOperators.Fin
import Mathlib.Logic.Equiv.Fin.Basic

namespace Cert.LibSums

open Finset

theorem sum_tiles {M : Type*} [AddCommMonoid M] (a b : ℕ) (f : Fin (a * b) → M) :
    ∑ j : Fin (a * b), f j
      = ∑ q : Fin a, ∑ r : Fin b, f ⟨q.val * b + r.val, by
          have hq := q.isLt; have hr := r.isLt
          calc q.val * b + r.val < q.val * b + b := by omega
            _ = (q.val + 1) * b := (Nat.succ_mul _ _).symm
            _ ≤ a * b := Nat.mul_le_mul_right b hq⟩ := by
  rw [← Equiv.sum_comp finProdFinEquiv f, Fintype.sum_prod_type]
  refine Fintype.sum_congr _ _ fun q => Fintype.sum_congr _ _ fun r => congrArg f (Fin.ext ?_)
  show r.val + b * q.val = q.val * b + r.val
  rw [Nat.mul_comm]; omega

theorem sum_tiles_8192 {M : Type*} [AddCommMonoid M] (f : Fin 8192 → M) :
    ∑ j : Fin 8192, f j = ∑ q : Fin 4, ∑ r : Fin 2048, f ⟨q.val * 2048 + r.val, by have := q.isLt; have := r.isLt; omega⟩ :=
  sum_tiles 4 2048 f

theorem sum_tiles_1024 {M : Type*} [AddCommMonoid M] (f : Fin 1024 → M) :
    ∑ i : Fin 1024, f i = ∑ b : Fin 4, ∑ r : Fin 256, f ⟨b.val * 256 + r.val, by have := b.isLt; have := r.isLt; omega⟩ :=
  sum_tiles 4 256 f

end Cert.LibSums
-- ==== Proof.KI.Pay0.lean ====
import proofs.«419856_j5566277616543_1_alg».proof.Proof.Gen.KernelIdeal.Skeleton
import proofs.«419856_j5566277616543_1_alg».proof.Proof.Spec
import proofs.«419856_j5566277616543_1_alg».proof.Proof.LibSums
import Idealize.ShloMosaic.Lib.Pipeline.Value
import Idealize.ShloMosaic.Lib.ValueIdx
import Idealize.ShloMosaic.Lib.ValueLayout
import Idealize.ShloMosaic.Lib.Affine
import Idealize.ShloMosaic.PureOps.Ideal.Laws

noncomputable section

namespace Cert.KernelIdeal.Hand

open Cert.KernelIdeal Cert.KernelIdeal.Gen Idealize.ShloMosaic Idealize.ShloMosaic.ValueIdx

private theorem colCast_apply {α : Type} {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) := by
  refine shapeCast_apply v h (ix2 p u) (ix1 p) ?_
  rw [Shape.rowMajor_val_one, Shape.rowMajor_val_two]
  show p.val = p.val * 1 + u.val
  have := u.isLt
  omega

private theorem colBroadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

private theorem select_eq_ite {α : Type} {w : ℕ} (x y : BitVec w) (A B : α) :
    Scalar.select (IntOp.cmpi .eq x y) A B = if x = y then A else B := by
  by_cases h : x = y
  · rw [if_pos h, IntOp.cmpi_eq.mpr h, select_one]
  · rw [if_neg h, eq_zero_of_ne_one (fun hc => h (IntOp.cmpi_eq.mp hc)), select_zero]

private theorem lane_lift {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

theorem k0pay1_apply (v32 v34 : Vec Ideal S256x1 .f32) (p : Fin 256) :
    k0_pay1 (F := Ideal) v32 v34 (ix2 p 0) = v32 (ix2 p 0) + v34 (ix2 p 0) := by
  unfold k0_pay1
  simp only [shapeCast_self]
  rfl

theorem k0pay2_apply (p : Fin 256) : k0_pay2 (F := Ideal) (ix2 p 0) = 0 := by
  unfold k0_pay2
  simp only [shapeCast_self]
  show Ideal.ofBits .f32 0x00000000#32 = 0
  exact Ideal.ofBits_zero_f32

theorem k0pay5_apply (i : grid0.Coords) (x0 : Vec Ideal S256x2048 .bf16) (x1 : Vec Ideal S2048x2048 .bf16)
    (x2 : Vec Ideal S256x1 .i32) (x4 : Vec Ideal S256x1 .f32) (x3 : Vec Ideal S1x2048 .i32) (p : Fin 256) :
    k0_pay5 (F := Ideal) i x0 x1 x2 x4 x3 (ix2 p 0)
      = ∑ q : Fin 2048, (if x3 (ix2 0 q) = x2 (ix2 p 0) then 0 else k0_pay4 (F := Ideal) i x0 x1 x2 x4 (ix2 p q)) := by
  unfold k0_pay5 k0_pay3
  generalize k0_pay4 (F := Ideal) i x0 x1 x2 x4 = e
  simp only [shapeCast_self]
  rw [colCast_apply]
  refine (Ideal.multiReduction_add_single _ 0x00000000#32 reduces_S256x2048_S256 (.inl rfl) rfl (ix1 p)).trans ?_
  show ∑ q : Fin 2048, _ = _
  refine Finset.sum_congr rfl fun q _ => ?_
  rw [lane_lift reduces_S256x2048_S256 p q, select_apply, broadcast_apply]
  show Scalar.select (IntOp.cmpi .eq (broadcastTo S256x2048 x3 broadcasts_S1x2048_S256x2048 (ix2 p q))
      (broadcastTo S256x2048 x2 broadcasts_S256x1_S256x2048 (ix2 p q))) (Ideal.ofBits .f32 0x00000000#32) (e (ix2 p q)) = _
  rw [broadcastTo_1b_ab_apply, colBroadcast_apply, Ideal.ofBits_zero_f32, select_eq_ite]

end Cert.KernelIdeal.Hand

end
-- ==== Proof.KI.Pay0E.lean ====
import proofs.«419856_j5566277616543_1_alg».proof.Proof.Gen.KernelIdeal.Skeleton
import proofs.«419856_j5566277616543_1_alg».proof.Proof.Spec
import Idealize.ShloMosaic.Lib.Pipeline.Value
import Idealize.ShloMosaic.Lib.ValueIdx
import Idealize.ShloMosaic.Lib.StableHlo.Predicate
import Idealize.ShloMosaic.PureOps.Ideal.Laws

noncomputable section

namespace Cert.KernelIdeal.Hand

open Cert.KernelIdeal Cert.KernelIdeal.Gen Idealize.ShloMosaic Idealize.ShloMosaic.ValueIdx

theorem k0_lhs_mm_0 (j : S256x2048.Idx) (k : dot_S256x2048_S2048x2048_S256x2048_1_1_0_0_n_n.contr.Idx) :
    (dot_S256x2048_S2048x2048_S256x2048_1_1_0_0_n_n.lhsIdx j k 0).val = (j 0).val := by
  unfold DotDims.lhsIdx
  rw [dif_neg (show ¬(0 : Fin S256x2048.rank) ∈ dot_S256x2048_S2048x2048_S256x2048_1_1_0_0_n_n.lhsBatch by decide),
    dif_pos (show (0 : Fin S256x2048.rank) ∈ dot_S256x2048_S2048x2048_S256x2048_1_1_0_0_n_n.lhsNonContracting by decide)]
  rfl
theorem k0_lhs_mm_1 (j : S256x2048.Idx) (k : dot_S256x2048_S2048x2048_S256x2048_1_1_0_0_n_n.contr.Idx) :
    (dot_S256x2048_S2048x2048_S256x2048_1_1_0_0_n_n.lhsIdx j k 1).val = (k ⟨0, by decide⟩).val :=
  dot_S256x2048_S2048x2048_S256x2048_1_1_0_0_n_n.lhsIdx_val_of_single rfl j k
theorem k0_rhs_mm_0 (j : S256x2048.Idx) (k : dot_S256x2048_S2048x2048_S256x2048_1_1_0_0_n_n.contr.Idx) :
    (dot_S256x2048_S2048x2048_S256x2048_1_1_0_0_n_n.rhsIdx j k 0).val = (j 1).val := by
  unfold DotDims.rhsIdx
  rw [dif_neg (show ¬(0 : Fin S2048x2048.rank) ∈ dot_S256x2048_S2048x2048_S256x2048_1_1_0_0_n_n.rhsBatch by decide),
    dif_pos (show (0 : Fin S2048x2048.rank) ∈ dot_S256x2048_S2048x2048_S256x2048_1_1_0_0_n_n.rhsNonContracting by decide)]
  rfl
theorem k0_rhs_mm_1 (j : S256x2048.Idx) (k : dot_S256x2048_S2048x2048_S256x2048_1_1_0_0_n_n.contr.Idx) :
    (dot_S256x2048_S2048x2048_S256x2048_1_1_0_0_n_n.rhsIdx j k 1).val = (k ⟨0, by decide⟩).val :=
  dot_S256x2048_S2048x2048_S256x2048_1_1_0_0_n_n.rhsIdx_val_of_single rfl j k

theorem k0_mm_apply (x0 : FVec Ideal S256x2048 .bf16) (x1 : FVec Ideal S2048x2048 .bf16) (p : Fin 256) (q : Fin 2048) :
    matmul dot_S256x2048_S2048x2048_S256x2048_1_1_0_0_n_n none x0 x1
        (constant (F := Ideal) S256x2048 .f32 0x00000000#32) (ix2 p q)
      = ∑ k : Fin 2048, x0 (ix2 p k) * x1 (ix2 q k) := by
  simp only [matmul]
  rw [Ideal.matmul_constant_zero_apply,
    ← Equiv.sum_comp (ValueIdx.contrEquiv1 dot_S256x2048_S2048x2048_S256x2048_1_1_0_0_n_n 2048 rfl rfl).symm]
  refine Finset.sum_congr rfl fun k _ => ?_
  have hk := ValueIdx.contrEquiv1_symm_val dot_S256x2048_S2048x2048_S256x2048_1_1_0_0_n_n 2048 rfl rfl k
  have el : dot_S256x2048_S2048x2048_S256x2048_1_1_0_0_n_n.lhsIdx (ix2 p q)
      ((ValueIdx.contrEquiv1 dot_S256x2048_S2048x2048_S256x2048_1_1_0_0_n_n 2048 rfl rfl).symm k) = ix2 p k :=
    funext fun a => Fin.ext (by
      match a with
      | ⟨0, _⟩ => exact k0_lhs_mm_0 _ _
      | ⟨1, _⟩ => exact (k0_lhs_mm_1 _ _).trans hk)
  have er : dot_S256x2048_S2048x2048_S256x2048_1_1_0_0_n_n.rhsIdx (ix2 p q)
      ((ValueIdx.contrEquiv1 dot_S256x2048_S2048x2048_S256x2048_1_1_0_0_n_n 2048 rfl rfl).symm k) = ix2 q k :=
    funext fun a => Fin.ext (by
      match a with
      | ⟨0, _⟩ => exact k0_rhs_mm_0 _ _
      | ⟨1, _⟩ => exact (k0_rhs_mm_1 _ _).trans hk)
  rw [el, er]

theorem k0_bcast_col_apply {α : Type} (x : S256x1.Idx → α) (p : Fin 256) (q : Fin 2048) :
    broadcastTo S256x2048 x broadcasts_S256x1_S256x2048 (ix2 p q) = x (ix2 p (0 : Fin 1)) :=
  broadcastTo_apply x broadcasts_S256x1_S256x2048 (ix2 p q) (ix2 p (0 : Fin 1)) (fun a => by
    match a with
    | ⟨0, _⟩ => show p.val = if (256 : Nat) = 1 then 0 else p.val; rw [if_neg (by decide)]
    | ⟨1, _⟩ => show (0 : Nat) = if (1 : Nat) = 1 then 0 else _; rw [if_pos rfl])

theorem k0_col_word (a q : Nat) :
    IntOp.addi (Scalar.muli (BitVec.ofNat 32 a) 2048#32) (BitVec.ofNat 32 q) = BitVec.ofNat 32 (a * 2048 + q) := by
  show BitVec.ofNat 32 a * BitVec.ofNat 32 2048 + BitVec.ofNat 32 q = _
  rw [BitVec.ofNat_add, BitVec.ofNat_mul]

theorem k0pay4_apply (i : grid0.Coords) (x0 : Vec Ideal S256x2048 .bf16) (x1 : Vec Ideal S2048x2048 .bf16)
    (x2 : Vec Ideal S256x1 .i32) (x4 : Vec Ideal S256x1 .f32) (p : Fin 256) (q : Fin 2048) :
    k0_pay4 (F := Ideal) i x0 x1 x2 x4 (ix2 p q)
      = Ideal.exp (Ideal.div (if BitVec.ofNat 32 ((i 1).val * 2048 + q.val) = x2 (ix2 p 0) then x4 (ix2 p 0)
          else ∑ k : Fin 2048, x0 (ix2 p k) * x1 (ix2 q k)) Cert.Spec.tau) := by
  have hmm := k0_mm_apply x0 x1 p q
  have hb2 := k0_bcast_col_apply x2 p q
  have hb4 := k0_bcast_col_apply x4 p q
  have hio : iota .tc S256x2048 32 [1] iota_S256x2048_d1_w32 (ix2 p q) = BitVec.ofNat 32 q.val :=
    iota_single_apply .tc S256x2048 32 1 iota_S256x2048_d1_w32 (ix2 p q)
  unfold k0_pay4 k0_pay3
  simp only [shapeCast_self]
  show Ideal.exp (Ideal.div (Scalar.select (IntOp.cmpi .eq
      (IntOp.addi (Scalar.muli (BitVec.ofNat 32 (i 1).val) 2048#32)
        (iota .tc S256x2048 32 [1] iota_S256x2048_d1_w32 (ix2 p q)))
      (broadcastTo S256x2048 x2 broadcasts_S256x1_S256x2048 (ix2 p q)))
      (broadcastTo S256x2048 x4 broadcasts_S256x1_S256x2048 (ix2 p q))
      (matmul dot_S256x2048_S2048x2048_S256x2048_1_1_0_0_n_n none x0 x1
        (constant (F := Ideal) S256x2048 .f32 0x00000000#32) (ix2 p q)))
    (Ideal.ofBits .f32 0x3D4CCCCD#32)) = _
  rw [hio, hb2, hb4, hmm, k0_col_word]
  by_cases h : BitVec.ofNat 32 ((i 1).val * 2048 + q.val) = x2 (ix2 p 0)
  · rw [if_pos h, StableHlo.Predicate.cmpi_eq_iff.mpr h, select_one]
  · rw [if_neg h, eq_zero_of_ne_one (fun h' => h (StableHlo.Predicate.cmpi_eq_iff.mp h')), select_zero]

end Cert.KernelIdeal.Hand

end
-- ==== Proof.KI.Val0.lean ====
import proofs.«419856_j5566277616543_1_alg».proof.Proof.KI.Blocks0
import proofs.«419856_j5566277616543_1_alg».proof.Proof.KI.Pay0
import proofs.«419856_j5566277616543_1_alg».proof.Proof.KI.Pay0E
import proofs.«419856_j5566277616543_1_alg».proof.Proof.Spec
import proofs.«419856_j5566277616543_1_alg».proof.Proof.LibSums

noncomputable section

namespace Cert.KernelIdeal.Hand

open Cert.KernelIdeal Cert.KernelIdeal.Gen
open Idealize.ShloMosaic Idealize.ShloMosaic.TcCoe
open Idealize.ShloMosaic.Pipeline (Dat Cfg Window)
open Idealize.ShloMosaic.ValueIdx

namespace Val0

section Sums
variable (e : Fin 1024 → Fin 8192 → EReal) (lab : Fin 1024 → BitVec 32) (ql : Fin 8192 → BitVec 32)

def tileSum (i : Fin 1024) (k : ℕ) : EReal :=
  if h : k < 4 then
    ∑ r : Fin 2048, (if ql ⟨k * 2048 + r.val, by have := r.isLt; omega⟩ = lab i then 0
      else e i ⟨k * 2048 + r.val, by have := r.isLt; omega⟩)
  else 0

theorem negSum_eq_tiles (i : Fin 1024) :
    Cert.Spec.negSum e lab ql i = ∑ k ∈ Finset.range 4, tileSum e lab ql i k := by
  unfold Cert.Spec.negSum
  rw [Cert.LibSums.sum_tiles_8192, Finset.sum_range]
  refine Finset.sum_congr rfl fun k _ => ?_
  unfold tileSum
  rw [dif_pos k.isLt]

end Sums

variable (V : (c : Dev nD) → (b : Ref sig .tc) → Buf (Elt Ideal) ((c : Thread nD τ).loc b))

abbrev nqA (c : Dev nD) : S1024x2048.Idx → EReal := V c main_v43
abbrev nqfA (c : Dev nD) : S8192x2048.Idx → EReal := V c main_v44
abbrev labA (c : Dev nD) : Fin 1024 → BitVec 32 := fun i => (V c main_v45 : S1024x1.Idx → BitVec 32) (ix2 i 0)
abbrev qlA (c : Dev nD) : Fin 8192 → BitVec 32 := fun j => (V c main_v46 : S1x8192.Idx → BitVec 32) (ix2 0 j)
abbrev cfA (c : Dev nD) : Fin 1024 → EReal := fun i => (V c main_v47 : S1024x1.Idx → EReal) (ix2 i 0)
abbrev eA (c : Dev nD) : Fin 1024 → Fin 8192 → EReal := Cert.Spec.eAt (nqA V c) (nqfA V c) (labA V c) (cfA V c)

theorem pay4_blocks (c : Dev nD) (t : Fin cfg0.N) (p : Fin 256) (q : Fin 2048) :
    k0_pay4 (F := Ideal) (grid0.coords t) (nqblk0 V c t) (nqfblk0 V c t) (labblk0 V c t) (cfblk0 V c t) (ix2 p q)
      = eA V c (grow0 t p) (gcol0 t q) := by
  refine (k0pay4_apply (grid0.coords t) (nqblk0 V c t) (nqfblk0 V c t) (labblk0 V c t) (cfblk0 V c t) p q).trans ?_
  rw [labblk0_apply, cfblk0_apply, (coords0 t).2]
  simp only [nqblk0_apply, nqfblk0_apply]
  rfl

theorem eblk_apply (c : Dev nD) (t : Fin cfg0.N) (p : Fin 256) (q : Fin 2048) :
    (eblk0 V c t) (ix2 p q) = eA V c (grow0 t p) (gcol0 t q) := by
  rw [eblk0_eq]
  exact pay4_blocks V c t p q

theorem pay5_blocks (c : Dev nD) (t : Fin cfg0.N) (p : Fin 256) :
    k0_pay5 (F := Ideal) (grid0.coords t) (nqblk0 V c t) (nqfblk0 V c t) (labblk0 V c t) (cfblk0 V c t) (qlblk0 V c t) (ix2 p 0)
      = tileSum (eA V c) (labA V c) (qlA V c) (grow0 t p) (t.val % 4) := by
  refine (k0pay5_apply (grid0.coords t) (nqblk0 V c t) (nqfblk0 V c t) (labblk0 V c t) (cfblk0 V c t) (qlblk0 V c t) p).trans ?_
  unfold tileSum
  rw [dif_pos (by omega : t.val % 4 < 4), labblk0_apply]
  refine Finset.sum_congr rfl fun q _ => ?_
  rw [qlblk0_apply, pay4_blocks]

theorem acc_step_apply (c : Dev nD) (t : Fin cfg0.N) (p : Fin 256) :
    (acc0 V c t.val t.isLt) (ix2 p 0)
      = (if t.val % 4 = 0 then 0 else (acc0 V c (t.val - 1) (Nat.lt_of_le_of_lt (Nat.sub_le _ _) t.isLt)) (ix2 p 0))
        + tileSum (eA V c) (labA V c) (qlA V c) (grow0 t p) (t.val % 4) := by
  rw [acc0_step]
  refine (k0pay1_apply _ _ p).trans ?_
  rw [pay5_blocks]
  refine congrArg (· + _) ?_
  by_cases h0 : t.val % 4 = 0
  · rw [if_pos h0, if_pos h0]; exact k0pay2_apply p
  · rw [if_neg h0, if_neg h0]

theorem acc_base (c : Dev nD) (t : Fin cfg0.N) (h0 : t.val % 4 = 0) (p : Fin 256) :
    (acc0 V c t.val t.isLt) (ix2 p 0)
      = ∑ k ∈ Finset.range (t.val % 4 + 1), tileSum (eA V c) (labA V c) (qlA V c) (grow0 t p) k := by
  rw [acc_step_apply, if_pos h0, zero_add, h0, zero_add, Finset.sum_range_one]

theorem acc_inv (c : Dev nD) (n : ℕ) : ∀ (h : n < cfg0.N) (p : Fin 256),
    (acc0 V c n h) (ix2 p 0)
      = ∑ k ∈ Finset.range (n % 4 + 1), tileSum (eA V c) (labA V c) (qlA V c) (grow0 ⟨n, h⟩ p) k := by
  induction n with
  | zero =>
    intro h p
    exact acc_base V c ⟨0, h⟩ rfl p
  | succ m ih =>
    intro h p
    by_cases h0 : (m + 1) % 4 = 0
    · exact acc_base V c ⟨m + 1, h⟩ h0 p
    · have hs := acc_step_apply V c ⟨m + 1, h⟩ p
      dsimp only at hs
      rw [hs, if_neg h0]
      have hN : cfg0.N = 16 := N_0
      have hm : m < cfg0.N := by omega
      have ih' := ih hm p
      have e1 : (m + 1) % 4 = m % 4 + 1 := by omega
      have e2 : grow0 ⟨m, hm⟩ p = grow0 ⟨m + 1, h⟩ p := Fin.ext (by
        show m / 4 * 256 + p.val = (m + 1) / 4 * 256 + p.val
        have e3 : m / 4 = (m + 1) / 4 := by omega
        rw [e3])
      rw [e2] at ih'
      rw [e1, Finset.sum_range_succ _ (m % 4 + 1)]
      exact congrArg (· + _) ih'

theorem neg_apply (c : Dev nD) (t : Fin cfg0.N) (h3 : t.val % 4 = 3) (p : Fin 256) :
    (acc0 V c t.val t.isLt) (ix2 p 0)
      = Cert.Spec.negSum (eA V c) (labA V c) (qlA V c) (grow0 t p) := by
  rw [acc_inv V c t.val t.isLt p, h3, negSum_eq_tiles]

end Val0

open Val0

variable (V : (c : Dev nD) → (b : Ref sig .tc) → Buf (Elt Ideal) ((c : Thread nD τ).loc b))

theorem arr0_5 (c : Dev nD) (i : Fin 1024) (j : Fin 8192) :
    (dat0 (F := Ideal) V c).arrAt 5 cfg0.N (ix2 i j)
      = Cert.Spec.eAt (V c main_v43) (V c main_v44) (fun i => V c main_v45 (ix2 i 0)) (fun i => V c main_v47 (ix2 i 0)) i j := by
  have h := arr0_5_of V c (fun x : S1024x8192.Idx => eA V c (x 0) (x 1)) (fun t p q => eblk_apply V c t p q)
  exact congrFun h (ix2 i j)

theorem arr0_6 (c : Dev nD) (i : Fin 1024) :
    (dat0 (F := Ideal) V c).arrAt 6 cfg0.N (ix2 i 0)
      = Cert.Spec.negSum (Cert.Spec.eAt (V c main_v43) (V c main_v44) (fun i => V c main_v45 (ix2 i 0)) (fun i => V c main_v47 (ix2 i 0)))
          (fun i => V c main_v45 (ix2 i 0)) (fun j => V c main_v46 (ix2 0 j)) i := by
  have h := arr0_6_of V c (fun x : S1024x1.Idx => Cert.Spec.negSum (eA V c) (labA V c) (qlA V c) (x 0))
    (fun t h3 p => neg_apply V c t h3 p)
  exact congrFun h (ix2 i 0)

end Cert.KernelIdeal.Hand

end
-- ==== Proof.KI.Blocks1.lean ====
import proofs.«419856_j5566277616543_1_alg».proof.Proof.KI.Reg1
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

theorem t1_lt (t : Fin cfg1.N) : t.val < 16 := lt_of_lt_of_eq t.isLt (show cfg1.N = 16 from N_1)

theorem index1_0 : ∀ t : Fin cfg1.N, win1_0.index t 0 = t.val / 4 ∧ win1_0.index t 1 = t.val % 4 :=
  (by decide +kernel : ∀ t : Fin grid1.N, win1_0.index t 0 = t.val / 4 ∧ win1_0.index t 1 = t.val % 4)
theorem index1_1 : ∀ t : Fin cfg1.N, win1_1.index t 0 = t.val / 4 ∧ win1_1.index t 1 = 0 :=
  (by decide +kernel : ∀ t : Fin grid1.N, win1_1.index t 0 = t.val / 4 ∧ win1_1.index t 1 = 0)
theorem index1_2 : ∀ t : Fin cfg1.N, win1_2.index t 0 = 0 ∧ win1_2.index t 1 = t.val % 4 :=
  (by decide +kernel : ∀ t : Fin grid1.N, win1_2.index t 0 = 0 ∧ win1_2.index t 1 = t.val % 4)
theorem index1_3 : ∀ t : Fin cfg1.N, win1_3.index t 0 = t.val / 4 ∧ win1_3.index t 1 = 0 :=
  (by decide +kernel : ∀ t : Fin grid1.N, win1_3.index t 0 = t.val / 4 ∧ win1_3.index t 1 = 0)
theorem index1_4 : ∀ t : Fin cfg1.N, win1_4.index t 0 = t.val / 4 ∧ win1_4.index t 1 = 0 :=
  (by decide +kernel : ∀ t : Fin grid1.N, win1_4.index t 0 = t.val / 4 ∧ win1_4.index t 1 = 0)
theorem xsize1_4 : ∀ t : Fin cfg1.N, win1_4.xsize (grid1.coords t) 0 = 256 ∧ win1_4.xsize (grid1.coords t) 1 = 1 :=
  (by decide +kernel : ∀ t : Fin grid1.N, win1_4.xsize (grid1.coords t) 0 = 256 ∧ win1_4.xsize (grid1.coords t) 1 = 1)

section Region1
variable (V : (c : Dev nD) → (b : Ref sig .tc) → Buf (Elt F) ((c : Thread nD τ).loc b))

abbrev eblk1 (c : Dev nD) (t : Fin cfg1.N) : Vec F S256x2048 .f32 := iblk1 V c 0 t
abbrev lblk1 (c : Dev nD) (t : Fin cfg1.N) : Vec F S256x1 .i32 := iblk1 V c 1 t
abbrev qblk1 (c : Dev nD) (t : Fin cfg1.N) : Vec F S1x2048 .i32 := iblk1 V c 2 t
abbrev nblk1 (c : Dev nD) (t : Fin cfg1.N) : Vec F S256x1 .f32 := iblk1 V c 3 t
theorem acc1_step (c : Dev nD) (t : Fin cfg1.N) :
    acc1 V c t.val t.isLt
      = k1_pay2 (eblk1 V c t) (lblk1 V c t) (qblk1 V c t) (nblk1 V c t)
          (if t.val % 4 = 0 then k1_pay1 (F := F) else acc1 V c (t.val - 1) (Nat.lt_of_le_of_lt (Nat.sub_le _ _) t.isLt)) :=
  acc1_unfold V c t

theorem eblk1_apply (c : Dev nD) (t : Fin cfg1.N) (x : S256x2048.Idx) (k : S1024x8192.Idx)
    (hk0 : (k 0).val = (t.val / 4) * 256 + (x 0).val) (hk1 : (k 1).val = (t.val % 4) * 2048 + (x 1).val) :
    eblk1 V c t x = (V c main_v48_0 : S1024x8192.Idx → Elt F .f32) k := by
  have hi := index1_0 t
  unfold eblk1 iblk1
  rw [View.read_apply]
  show V c main_v48_0 _ = V c main_v48_0 _
  congr 1
  funext a
  apply Fin.ext
  match a with
  | ⟨0, _⟩ => show win1_0.index t 0 * 256 + 1 * (x 0).val = (k 0).val; rw [hi.1, hk0]; omega
  | ⟨1, _⟩ => show win1_0.index t 1 * 2048 + 1 * (x 1).val = (k 1).val; rw [hi.2, hk1]; omega

theorem eblk1_ix2 (c : Dev nD) (t : Fin cfg1.N) (p : Fin 256) (q : Fin 2048) :
    eblk1 V c t (ix2 p q) = (V c main_v48_0 : S1024x8192.Idx → Elt F .f32)
      (ix2 ⟨(t.val / 4) * 256 + p.val, by have := t1_lt t; omega⟩ ⟨(t.val % 4) * 2048 + q.val, by omega⟩) :=
  eblk1_apply V c t _ _ rfl rfl

theorem lblk1_apply (c : Dev nD) (t : Fin cfg1.N) (x : S256x1.Idx) (k : S1024x1.Idx)
    (hk0 : (k 0).val = (t.val / 4) * 256 + (x 0).val) (hk1 : (k 1).val = 0 + (x 1).val) :
    lblk1 V c t x = (V c main_v45 : S1024x1.Idx → Elt F .i32) k := by
  have hi := index1_1 t
  unfold lblk1 iblk1
  rw [View.read_apply]
  show V c main_v45 _ = V c main_v45 _
  congr 1
  funext a
  apply Fin.ext
  match a with
  | ⟨0, _⟩ => show win1_1.index t 0 * 256 + 1 * (x 0).val = (k 0).val; rw [hi.1, hk0]; omega
  | ⟨1, _⟩ => show win1_1.index t 1 * 1 + 1 * (x 1).val = (k 1).val; rw [hi.2, hk1]; omega

theorem lblk1_ix2 (c : Dev nD) (t : Fin cfg1.N) (p : Fin 256) :
    lblk1 V c t (ix2 p 0) = (V c main_v45 : S1024x1.Idx → Elt F .i32)
      (ix2 ⟨(t.val / 4) * 256 + p.val, by have := t1_lt t; omega⟩ 0) :=
  lblk1_apply V c t _ _ rfl rfl

theorem qblk1_apply (c : Dev nD) (t : Fin cfg1.N) (x : S1x2048.Idx) (k : S1x8192.Idx)
    (hk0 : (k 0).val = 0 + (x 0).val) (hk1 : (k 1).val = (t.val % 4) * 2048 + (x 1).val) :
    qblk1 V c t x = (V c main_v46 : S1x8192.Idx → Elt F .i32) k := by
  have hi := index1_2 t
  unfold qblk1 iblk1
  rw [View.read_apply]
  show V c main_v46 _ = V c main_v46 _
  congr 1
  funext a
  apply Fin.ext
  match a with
  | ⟨0, _⟩ => show win1_2.index t 0 * 1 + 1 * (x 0).val = (k 0).val; rw [hi.1, hk0]; omega
  | ⟨1, _⟩ => show win1_2.index t 1 * 2048 + 1 * (x 1).val = (k 1).val; rw [hi.2, hk1]; omega

theorem qblk1_ix2 (c : Dev nD) (t : Fin cfg1.N) (q : Fin 2048) :
    qblk1 V c t (ix2 0 q) = (V c main_v46 : S1x8192.Idx → Elt F .i32)
      (ix2 0 ⟨(t.val % 4) * 2048 + q.val, by omega⟩) :=
  qblk1_apply V c t _ _ rfl rfl

theorem nblk1_apply (c : Dev nD) (t : Fin cfg1.N) (x : S256x1.Idx) (k : S1024x1.Idx)
    (hk0 : (k 0).val = (t.val / 4) * 256 + (x 0).val) (hk1 : (k 1).val = 0 + (x 1).val) :
    nblk1 V c t x = (V c main_v48_1 : S1024x1.Idx → Elt F .f32) k := by
  have hi := index1_3 t
  unfold nblk1 iblk1
  rw [View.read_apply]
  show V c main_v48_1 _ = V c main_v48_1 _
  congr 1
  funext a
  apply Fin.ext
  match a with
  | ⟨0, _⟩ => show win1_3.index t 0 * 256 + 1 * (x 0).val = (k 0).val; rw [hi.1, hk0]; omega
  | ⟨1, _⟩ => show win1_3.index t 1 * 1 + 1 * (x 1).val = (k 1).val; rw [hi.2, hk1]; omega

theorem nblk1_ix2 (c : Dev nD) (t : Fin cfg1.N) (p : Fin 256) :
    nblk1 V c t (ix2 p 0) = (V c main_v48_1 : S1024x1.Idx → Elt F .f32)
      (ix2 ⟨(t.val / 4) * 256 + p.val, by have := t1_lt t; omega⟩ 0) :=
  nblk1_apply V c t _ _ rfl rfl

theorem flushed1_4_eq (c : Dev nD) (G : Buf (Elt F) ((c : Thread nD τ).loc main_v49)) (t : Fin cfg1.N)
    (hG : ∀ p : Fin 256, (acc1 V c t.val t.isLt) (ix2 p 0)
      = (G : S1024x1.Idx → Elt F .f32) (ix2 ⟨(t.val / 4) * 256 + p.val, by have := t1_lt t; omega⟩ 0)) :
    (dat1 V c).flushed 4 t = ((cfg1.win 4).blk t).view.read (Elt F) G := by
  have hi := index1_4 t
  show (cfg1.win 4).cut (grid1.coords t) ((dat1 V c).after 4 t) = _
  rw [after1_4]
  funext x
  rw [View.read_apply]
  obtain ⟨p, q, rfl⟩ : ∃ (p : Fin 256) (q : Fin 1), x = ix2 p q := ⟨x 0, x 1, eq_ix2 x⟩
  obtain rfl : q = 0 := Subsingleton.elim _ _
  refine (hG p).trans ?_
  show (G : S1024x1.Idx → Elt F .f32) _ = (G : S1024x1.Idx → Elt F .f32) _
  congr 1
  funext a
  apply Fin.ext
  match a with
  | ⟨0, _⟩ => show (t.val / 4) * 256 + p.val = win1_4.index t 0 * 256 + 1 * p.val; rw [hi.1]; omega
  | ⟨1, _⟩ => show (0 : ℕ) = win1_4.index t 1 * 1 + 1 * 0; rw [hi.2]

theorem cover1_4 (i : S1024x1.Idx) :
    ∃ t : Fin cfg1.N, (cfg1.win 4).flush t = true ∧ i ∈ ((cfg1.win 4).blk t).view.set := by
  have h0 : (i 0 : Nat) < 1024 := (i 0).isLt
  have h1 : (i 1 : Nat) < 1 := (i 1).isLt
  have hN : cfg1.N = 16 := N_1
  let t : Fin cfg1.N := ⟨4 * ((i 0 : Nat) / 256) + 3, by omega⟩
  have ht : t.val = 4 * ((i 0 : Nat) / 256) + 3 := rfl
  refine ⟨t, (flush1_4 t).mpr (by rw [ht]; omega), ?_⟩
  have hi := index1_4 t
  have hx := xsize1_4 t
  show i ∈ ((View.whole main_v49).slice (win1_4.rect t)).set
  rw [View.set_slice_whole, Rect.mem_set_unit]
  intro a
  match a with
  | ⟨0, _⟩ =>
    show win1_4.index t 0 * win1_4.size 0 ≤ (i 0 : Nat) ∧ (i 0 : Nat) < win1_4.index t 0 * win1_4.size 0 + win1_4.xsize (grid1.coords t) 0
    rw [hi.1, hx.1, show win1_4.size 0 = 256 from rfl, ht]; omega
  | ⟨1, _⟩ =>
    show win1_4.index t 1 * win1_4.size 1 ≤ (i 1 : Nat) ∧ (i 1 : Nat) < win1_4.index t 1 * win1_4.size 1 + win1_4.xsize (grid1.coords t) 1
    rw [hi.2, hx.2]; omega

theorem arr1_4_of (c : Dev nD) (G : Buf (Elt F) ((c : Thread nD τ).loc main_v49))
    (hG : ∀ t : Fin cfg1.N, t.val % 4 = 3 → ∀ p : Fin 256, (acc1 V c t.val t.isLt) (ix2 p 0)
      = (G : S1024x1.Idx → Elt F .f32) (ix2 ⟨(t.val / 4) * 256 + p.val, by have := t1_lt t; omega⟩ 0)) :
    (dat1 V c).arrAt 4 cfg1.N = G :=
  (dat1 V c).arrAt_eq_of_cover 4 G (fun t hf => flushed1_4_eq V c G t (hG t ((flush1_4 t).mp hf))) cover1_4

end Region1

end Cert.KernelIdeal.Hand

end
-- ==== Proof.KI.Pay1.lean ====
import proofs.«419856_j5566277616543_1_alg».proof.Proof.Gen.KernelIdeal.Skeleton
import proofs.«419856_j5566277616543_1_alg».proof.Proof.Spec
import proofs.«419856_j5566277616543_1_alg».proof.Proof.LibSums
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

theorem logf_apply {s : Shape} {φ : FTy} (a : FVec Ideal s φ) (i : s.Idx) :
    Idealize.ShloMosaic.log a i = Ideal.log (a i) := rfl

theorem cmpi_apply {s : Shape} {w : ℕ} (pr : CmpIPredicate) (a b : IVec s w) (i : s.Idx) :
    cmpi pr a b i = IntOp.cmpi pr (a i) (b i) := rfl

theorem select_cmpi_eq {α : Type} {w : ℕ} (a b : BitVec w) (A B : α) :
    Scalar.select (IntOp.cmpi .eq a b) A B = if a = b then A else B := by
  by_cases hab : a = b
  · have hb : (a == b) = true := by rw [hab]; exact beq_self_eq_true b
    have h1 : IntOp.cmpi .eq a b = 1#1 := by
      show BitVec.ofBool (a == b) = 1#1
      rw [hb]; rfl
    rw [if_pos hab, h1]; exact select_one A B
  · have hb : (a == b) = false := beq_eq_false_iff_ne.mpr hab
    have h0 : IntOp.cmpi .eq a b = 0#1 := by
      show BitVec.ofBool (a == b) = 0#1
      rw [hb]; rfl
    rw [if_neg hab, h0]; exact select_zero A B

theorem laneSum_apply (src : FVec Ideal S256x2048 .f32) (hφ : FKind.Formats .f32)
    (hacc : (0x00000000#32 : BitVec 32) = FKind.add.neutral .f32 hφ) (p : Fin 256) :
    multiReduction (F := Ideal) .add [1] S256 src 0x00000000#32 reduces_S256x2048_S256 hφ hacc (ix1 p)
      = ∑ q : Fin 2048, src (ix2 p q) := by
  refine (Ideal.multiReduction_add_single src 0x00000000#32 reduces_S256x2048_S256 hφ hacc (ix1 p)).trans ?_
  show ∑ k : Fin 2048, src (reduces_S256x2048_S256.lift (ix1 p) k) = _
  refine Finset.sum_congr rfl fun q _ => congrArg src ?_
  funext a
  match a with
  | ⟨0, _⟩ => rfl
  | ⟨1, _⟩ => rfl

theorem pay1_apply (p : Fin 256) : k1_pay1 (F := Ideal) (ix2 p 0) = 0 := by
  unfold k1_pay1
  simp only [shapeCast_self]
  exact Ideal.ofBits_zero_f32

theorem term_apply (x0 : Vec Ideal S256x2048 .f32) (x1 : Vec Ideal S256x1 .i32) (x2 : Vec Ideal S1x2048 .i32)
    (x3 : Vec Ideal S256x1 .f32) (p : Fin 256) (q : Fin 2048) :
    select (cmpi .eq (broadcastTo S256x2048 x2 broadcasts_S1x2048_S256x2048) (broadcastTo S256x2048 x1 broadcasts_S256x1_S256x2048))
        (subf (broadcast S256x2048 (Scalar.ofBits (F := Ideal) .f32 0x00000000#32))
          (Idealize.ShloMosaic.log (divf (addf x0 (broadcast S256x2048 (Scalar.ofBits (F := Ideal) .f32 0x2EDBE6FF#32)))
            (addf (addf x0 (broadcastTo S256x2048 x3 broadcasts_S256x1_S256x2048))
              (broadcast S256x2048 (Scalar.ofBits (F := Ideal) .f32 0x2EDBE6FF#32))))))
        (broadcast S256x2048 (Scalar.ofBits (F := Ideal) .f32 0x00000000#32)) (ix2 p q)
      = if x2 (ix2 0 q) = x1 (ix2 p 0) then Cert.Spec.pairLoss (x0 (ix2 p q)) (x3 (ix2 p 0)) else 0 := by
  rw [select_apply, cmpi_apply, subf_apply, logf_apply, divf_apply, addf_apply, addf_apply, addf_apply]
  simp only [broadcast_apply]
  rw [broadcastTo_1b_ab_apply x2 broadcasts_S1x2048_S256x2048 p q,
    broadcastTo_a1_ab_apply x1 broadcasts_S256x1_S256x2048 p q,
    broadcastTo_a1_ab_apply x3 broadcasts_S256x1_S256x2048 p q, select_cmpi_eq]
  show (if x2 (ix2 0 q) = x1 (ix2 p 0) then
      (Ideal.ofBits .f32 0x00000000#32 - Ideal.log (Ideal.div (x0 (ix2 p q) + Ideal.ofBits .f32 0x2EDBE6FF#32)
        ((x0 (ix2 p q) + x3 (ix2 p 0)) + Ideal.ofBits .f32 0x2EDBE6FF#32)) : EReal)
      else Ideal.ofBits .f32 0x00000000#32) = _
  rw [Ideal.ofBits_zero_f32, zero_sub]
  rfl

theorem pay2_apply (x0 : Vec Ideal S256x2048 .f32) (x1 : Vec Ideal S256x1 .i32) (x2 : Vec Ideal S1x2048 .i32)
    (x3 : Vec Ideal S256x1 .f32) (xs : Vec Ideal S256x1 .f32) (p : Fin 256) :
    k1_pay2 (F := Ideal) x0 x1 x2 x3 xs (ix2 p 0)
      = xs (ix2 p 0) + ∑ q : Fin 2048,
          (if x2 (ix2 0 q) = x1 (ix2 p 0) then Cert.Spec.pairLoss (x0 (ix2 p q)) (x3 (ix2 p 0)) else 0) := by
  unfold k1_pay2
  simp only [shapeCast_self]
  rw [addf_apply]
  refine congrArg (fun z : EReal => xs (ix2 p 0) + z) ?_
  refine (shapeCast_a_a1_apply _ shapeCasts_S256_S256x1 p 0).trans ?_
  refine (laneSum_apply _ _ _ p).trans ?_
  exact Finset.sum_congr rfl fun q _ => term_apply x0 x1 x2 x3 p q

end Cert.KernelIdeal.Hand
-- ==== Proof.KI.Val1.lean ====
import proofs.«419856_j5566277616543_1_alg».proof.Proof.KI.Blocks1
import proofs.«419856_j5566277616543_1_alg».proof.Proof.KI.Pay1
import proofs.«419856_j5566277616543_1_alg».proof.Proof.Spec
import proofs.«419856_j5566277616543_1_alg».proof.Proof.LibSums
import Mathlib.Algebra.BigOperators.Fin

set_option maxRecDepth 16384

noncomputable section

namespace Cert.KernelIdeal.Hand

open Cert.KernelIdeal Cert.KernelIdeal.Gen Idealize.ShloMosaic Idealize.ShloMosaic.ValueIdx
open Idealize.ShloMosaic.TcCoe
open Idealize.SL Idealize.SL.Sem
open Idealize.ShloMosaic.Pipeline (Dat Cfg Window)
open Cert.Spec

section RowTiles
variable (e : Fin 1024 → Fin 8192 → EReal) (ns : Fin 1024 → EReal) (lab : Fin 1024 → BitVec 32) (ql : Fin 8192 → BitVec 32)

abbrev tcol (q : Fin 4) (r : Fin 2048) : Fin 8192 := ⟨q.val * 2048 + r.val, by have := q.isLt; have := r.isLt; omega⟩

def tileLoss (i : Fin 1024) (q : Fin 4) : EReal :=
  ∑ r : Fin 2048, if ql (tcol q r) = lab i then pairLoss (e i (tcol q r)) (ns i) else 0

theorem rowLoss_eq_tiles (i : Fin 1024) : rowLoss e ns lab ql i = ∑ q : Fin 4, tileLoss e ns lab ql i q := by
  unfold rowLoss tileLoss
  exact Cert.LibSums.sum_tiles_8192 _

end RowTiles

theorem sum_le_zero (f : ℕ → EReal) : (∑ q : Fin 4, if q.val ≤ 0 then f q.val else 0) = f 0 := by
  rw [Fin.sum_univ_four]
  show (if 0 ≤ 0 then f 0 else 0) + (if 1 ≤ 0 then f 1 else 0) + (if 2 ≤ 0 then f 2 else 0) + (if 3 ≤ 0 then f 3 else 0) = f 0
  simp

theorem sum_le_succ (f : ℕ → EReal) (r : ℕ) (hr : r + 1 < 4) :
    (∑ q : Fin 4, if q.val ≤ r then f q.val else 0) + f (r + 1) = ∑ q : Fin 4, if q.val ≤ r + 1 then f q.val else 0 := by
  rw [Fin.sum_univ_four, Fin.sum_univ_four]
  show (if 0 ≤ r then f 0 else 0) + (if 1 ≤ r then f 1 else 0) + (if 2 ≤ r then f 2 else 0) + (if 3 ≤ r then f 3 else 0) + f (r + 1)
    = (if 0 ≤ r + 1 then f 0 else 0) + (if 1 ≤ r + 1 then f 1 else 0) + (if 2 ≤ r + 1 then f 2 else 0) + (if 3 ≤ r + 1 then f 3 else 0)
  obtain rfl | rfl | rfl : r = 0 ∨ r = 1 ∨ r = 2 := by omega
  · simp
  · simp
  · simp

theorem sum_le_three (f : ℕ → EReal) : (∑ q : Fin 4, if q.val ≤ 3 then f q.val else 0) = ∑ q : Fin 4, f q.val :=
  Finset.sum_congr rfl fun q _ => if_pos (by have := q.isLt; omega)

theorem acc_closed {N : ℕ} (T : ℕ → Fin 256 → ℕ → EReal) (a : (n : ℕ) → n < N → Fin 256 → EReal)
    (hstep : ∀ (n : ℕ) (hn : n < N) (p : Fin 256),
      a n hn p = (if n % 4 = 0 then 0 else a (n - 1) (Nat.lt_of_le_of_lt (Nat.sub_le _ _) hn) p) + T (n / 4) p (n % 4)) :
    ∀ (n : ℕ) (hn : n < N) (p : Fin 256),
      a n hn p = ∑ q : Fin 4, if q.val ≤ n % 4 then T (n / 4) p q.val else 0 := by
  intro n
  induction n with
  | zero =>
    intro hn p
    rw [hstep 0 hn p, if_pos (Nat.zero_mod 4), zero_add]
    exact (sum_le_zero (fun q => T (0 / 4) p q)).symm
  | succ m ih =>
    intro hn p
    rw [hstep (m + 1) hn p]
    by_cases h0 : (m + 1) % 4 = 0
    · rw [if_pos h0, zero_add, h0]
      exact (sum_le_zero (fun q => T ((m + 1) / 4) p q)).symm
    · rw [if_neg h0]
      have hm : (m + 1) % 4 = m % 4 + 1 := by omega
      have hk : (m + 1) / 4 = m / 4 := by omega
      have hlt : m % 4 + 1 < 4 := by omega
      have hprev := ih (Nat.lt_of_succ_lt hn) p
      show a m _ p + _ = _
      rw [hprev, hm, hk]
      exact sum_le_succ (fun q => T (m / 4) p q) (m % 4) hlt

section Region1Value
variable (V : (c : Dev nD) → (b : Ref sig .tc) → Buf (Elt Ideal) ((c : Thread nD τ).loc b))

abbrev eArr1 (c : Dev nD) : Fin 1024 → Fin 8192 → EReal :=
  fun i j => (V c main_v48_0 : S1024x8192.Idx → Elt Ideal .f32) (ix2 i j)
abbrev nsArr1 (c : Dev nD) : Fin 1024 → EReal := fun i => (V c main_v48_1 : S1024x1.Idx → Elt Ideal .f32) (ix2 i 0)
abbrev labArr1 (c : Dev nD) : Fin 1024 → BitVec 32 := fun i => (V c main_v45 : S1024x1.Idx → Elt Ideal .i32) (ix2 i 0)
abbrev qlArr1 (c : Dev nD) : Fin 8192 → BitVec 32 := fun j => (V c main_v46 : S1x8192.Idx → Elt Ideal .i32) (ix2 0 j)

def tileTerm1 (c : Dev nD) (k : ℕ) (p : Fin 256) (q : ℕ) : EReal :=
  if h : k < 4 ∧ q < 4 then
    tileLoss (eArr1 V c) (nsArr1 V c) (labArr1 V c) (qlArr1 V c) ⟨k * 256 + p.val, by have := p.isLt; omega⟩ ⟨q, h.2⟩
  else 0

theorem acc1_apply (c : Dev nD) (n : ℕ) (hn : n < cfg1.N) (p : Fin 256) :
    ((acc1 V c n hn) (ix2 p 0) : EReal)
      = (if n % 4 = 0 then (0 : EReal)
          else ((acc1 V c (n - 1) (Nat.lt_of_le_of_lt (Nat.sub_le _ _) hn)) (ix2 p 0) : EReal))
        + tileTerm1 V c (n / 4) p (n % 4) := by
  have h16 : n < 16 := lt_of_lt_of_eq hn (show cfg1.N = 16 from N_1)
  have hs := congrFun (acc1_step V c ⟨n, hn⟩) (ix2 p 0)
  refine hs.trans ((pay2_apply _ _ _ _ _ p).trans ?_)
  refine congrArg₂ (fun x y : EReal => x + y) ?_ ?_
  · by_cases h : n % 4 = 0
    · refine Eq.trans ?_ (if_pos h).symm
      refine (congrFun (if_pos h) (ix2 p 0)).trans ?_
      exact pay1_apply p
    · refine Eq.trans ?_ (if_neg h).symm
      exact congrFun (if_neg h) (ix2 p 0)
  · unfold tileTerm1
    rw [dif_pos (show n / 4 < 4 ∧ n % 4 < 4 from ⟨by omega, by omega⟩)]
    unfold tileLoss
    refine Finset.sum_congr rfl fun q _ => ?_
    rw [qblk1_ix2 V c ⟨n, hn⟩ q, lblk1_ix2 V c ⟨n, hn⟩ p, eblk1_ix2 V c ⟨n, hn⟩ p q, nblk1_ix2 V c ⟨n, hn⟩ p]
    try rfl

theorem acc1_closed (c : Dev nD) (n : ℕ) (hn : n < cfg1.N) (p : Fin 256) :
    ((acc1 V c n hn) (ix2 p 0) : EReal)
      = ∑ q : Fin 4, if q.val ≤ n % 4 then tileTerm1 V c (n / 4) p q.val else 0 :=
  acc_closed (tileTerm1 V c) (fun n hn p => ((acc1 V c n hn) (ix2 p 0) : EReal)) (acc1_apply V c) n hn p

theorem oblk1_last (c : Dev nD) (t : Fin cfg1.N) (h3 : t.val % 4 = 3) (p : Fin 256) :
    ((acc1 V c t.val t.isLt) (ix2 p 0) : EReal)
      = rowLoss (eArr1 V c) (nsArr1 V c) (labArr1 V c) (qlArr1 V c)
          ⟨(t.val / 4) * 256 + p.val, by have := t1_lt t; have := p.isLt; omega⟩ := by
  have h16 := t1_lt t
  refine (acc1_closed V c t.val t.isLt p).trans ?_
  rw [h3]
  refine (sum_le_three (fun q => tileTerm1 V c (t.val / 4) p q)).trans ?_
  rw [rowLoss_eq_tiles]
  refine Finset.sum_congr rfl fun q _ => ?_
  unfold tileTerm1
  rw [dif_pos (show t.val / 4 < 4 ∧ q.val < 4 from ⟨by omega, q.isLt⟩)]
  try rfl

theorem arr1_4 (c : Dev nD) (i : Fin 1024) :
    ((dat1 (F := Ideal) V c).arrAt 4 cfg1.N : S1024x1.Idx → Elt Ideal .f32) (ix2 i 0)
      = Cert.Spec.rowLoss (fun i j => (V c main_v48_0 : S1024x8192.Idx → Elt Ideal .f32) (ix2 i j))
          (fun i => (V c main_v48_1 : S1024x1.Idx → Elt Ideal .f32) (ix2 i 0))
          (fun i => (V c main_v45 : S1024x1.Idx → Elt Ideal .i32) (ix2 i 0))
          (fun j => (V c main_v46 : S1x8192.Idx → Elt Ideal .i32) (ix2 0 j)) i := by
  have hA := arr1_4_of V c
    ((fun x : S1024x1.Idx => rowLoss (eArr1 V c) (nsArr1 V c) (labArr1 V c) (qlArr1 V c) (x 0)) :
      S1024x1.Idx → Elt Ideal .f32)
    (fun t h3 p => oblk1_last V c t h3 p)
  rw [hA]

end Region1Value

end Cert.KernelIdeal.Hand
-- ==== Proof.KI.HostVals.lean ====
import proofs.«419856_j5566277616543_1_alg».proof.Defs
import proofs.«419856_j5566277616543_1_alg».proof.Proof.Gen.KernelIdeal.Regions
import proofs.«419856_j5566277616543_1_alg».proof.Proof.Gen.Pre_finite_inputs
import proofs.«419856_j5566277616543_1_alg».proof.Proof.Ref.Stages
import Idealize.ShloMosaic.Lib.StableHlo.Run
import Idealize.ShloMosaic.Lib.StableHlo.Predicate
import Idealize.ShloMosaic.Lib.ReduceAll
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

instance : Subsingleton Cert.Pre_finite_inputs.S_.Idx := ⟨fun a b => funext fun d => d.elim0⟩

theorem pre_words (hpre : Cert.Pre_KernelIdeal m) (c : Dev nD) :
    (∀ i : Cert.Pre_finite_inputs.S1024.Idx, IntOp.cmpi .sge (m ((c : Thread nD τ).loc main_arg2) i) 0#32 = 1#1)
    ∧ (∀ i : Cert.Pre_finite_inputs.S1024.Idx, IntOp.cmpi .slt (m ((c : Thread nD τ).loc main_arg2) i) 8192#32 = 1#1)
    ∧ (∀ j : Cert.Pre_finite_inputs.S8192.Idx, IntOp.cmpi .sge (m ((c : Thread nD τ).loc main_arg4) j) 0#32 = 1#1) := by
  have e := congrFun (hpre c) ValueIdx.ix0
  unfold Cert.Pre_finite_inputs.fn Cert.Pre_finite_inputs.fn_part1 at e
  dsimp only at e
  simp only [andi, IntOp.andi_eq_one] at e
  obtain ⟨⟨⟨-, h21⟩, h25⟩, h29⟩ := e
  exact ⟨fun i => Host.reduce_andi_all _ _ _ _ _ h21 i, fun i => Host.reduce_andi_all _ _ _ _ _ h25 i,
    fun j => Host.reduce_andi_all _ _ _ _ _ h29 j⟩

theorem lab_range (hpre : Cert.Pre_KernelIdeal m) (c : Dev nD) (i : Fin 1024) :
    0 ≤ (m ((c : Thread nD τ).loc main_arg2) (ix1 i)).toInt ∧ (m ((c : Thread nD τ).loc main_arg2) (ix1 i)).toInt < 8192 := by
  obtain ⟨h0, h8, -⟩ := pre_words m hpre c
  have a := IntOp.cmpi_sge.1 (h0 (ix1 i))
  have b := IntOp.cmpi_slt.1 (h8 (ix1 i))
  rw [show (0#32 : BitVec 32).toInt = 0 from by decide] at a
  rw [show (8192#32 : BitVec 32).toInt = 8192 from by decide] at b
  exact ⟨a, b⟩

theorem qlab_nonneg (hpre : Cert.Pre_KernelIdeal m) (c : Dev nD) (j : Fin 8192) :
    0 ≤ (m ((c : Thread nD τ).loc main_arg4) (ix1 j)).toInt := by
  obtain ⟨-, -, h0⟩ := pre_words m hpre c
  have a := IntOp.cmpi_sge.1 (h0 (ix1 j))
  rw [show (0#32 : BitVec 32).toInt = 0 from by decide] at a
  exact a

theorem ql_left (x2 : (⟨Cert.ReferenceIdeal.S1024, .i32⟩ : BufTy).Contents (Elt Ideal))
    (x4 : (⟨Cert.ReferenceIdeal.S8192, .i32⟩ : BufTy).Contents (Elt Ideal)) (j : Fin 8192) (hj : j.val < 1024) :
    Cert.ReferenceIdeal.Read.val_main_v3 (F := Ideal) x2 x4 (ix1 j) = x2 (ix1 ⟨j.val, hj⟩) := by
  unfold Cert.ReferenceIdeal.Read.val_main_v3
  exact concatenate_pair_apply_left (s₁ := Cert.ReferenceIdeal.S1024) (s₂ := Cert.ReferenceIdeal.S7168) 0 _ _ _ (ix1 j) rfl (ix1 (n := 1024) ⟨j.val, hj⟩) (fun b => by
    match b with | ⟨0, _⟩ => rfl)

theorem ql_right (x2 : (⟨Cert.ReferenceIdeal.S1024, .i32⟩ : BufTy).Contents (Elt Ideal))
    (x4 : (⟨Cert.ReferenceIdeal.S8192, .i32⟩ : BufTy).Contents (Elt Ideal)) (j : Fin 8192) (hj : 1024 ≤ j.val) :
    Cert.ReferenceIdeal.Read.val_main_v3 (F := Ideal) x2 x4 (ix1 j) = x4 (ix1 ⟨j.val - 1024, by have := j.isLt; omega⟩) := by
  unfold Cert.ReferenceIdeal.Read.val_main_v3
  have hlt : j.val - 1024 < 7168 := by have := j.isLt; omega
  refine (concatenate_pair_apply_right (s₁ := Cert.ReferenceIdeal.S1024) (s₂ := Cert.ReferenceIdeal.S7168) 0 _ _ _ (ix1 j) rfl rfl (ix1 (n := 7168) ⟨j.val - 1024, hlt⟩) (fun b hb => ?_) ?_).trans ?_
  · match b with | ⟨0, _⟩ => exact absurd rfl hb
  · show (j.val - 1024) + 1024 = j.val
    omega
  · rw [Cert.ReferenceIdeal.Read.val_main_v2_apply]
    exact congrArg x4 (funext fun a => by match a with | ⟨0, _⟩ => rfl)

theorem ql_nonneg (hpre : Cert.Pre_KernelIdeal m) (c : Dev nD) (j : Fin 8192) :
    0 ≤ (Cert.ReferenceIdeal.Read.val_main_v3 (F := Ideal) (m ((c : Thread nD τ).loc main_arg2)) (m ((c : Thread nD τ).loc main_arg4)) (ix1 j)).toInt := by
  by_cases hj : j.val < 1024
  · rw [ql_left _ _ j hj]
    exact (lab_range m hpre c ⟨j.val, hj⟩).1
  · rw [ql_right _ _ j (by omega)]
    exact qlab_nonneg m hpre c ⟨j.val - 1024, by have := j.isLt; omega⟩

theorem V1_v1 (c : Dev nD) : V1 (F := Ideal) m c main_v1 = Cert.ReferenceIdeal.Read.val_main_v1 (F := Ideal) (m ((c : Thread nD τ).loc main_arg1)) (m ((c : Thread nD τ).loc main_arg3)) := by
  show StableHlo.after hostOps0 (V0 m c) (Proc.devRef .tc main_v1) = _
  generalize hW : V0 (F := Ideal) m c = W
  after_results
  subst hW
  rfl

theorem V1_v3 (c : Dev nD) : V1 (F := Ideal) m c main_v3 = Cert.ReferenceIdeal.Read.val_main_v3 (F := Ideal) (m ((c : Thread nD τ).loc main_arg2)) (m ((c : Thread nD τ).loc main_arg4)) := by
  show StableHlo.after hostOps0 (V0 m c) (Proc.devRef .tc main_v3) = _
  generalize hW : V0 (F := Ideal) m c = W
  after_results
  subst hW
  rfl

theorem V2_v4 (c : Dev nD) : V2 (F := Ideal) m c main_v4 = Cert.ReferenceIdeal.Read.val_main_v4 (F := Ideal) (m ((c : Thread nD τ).loc main_arg0)) := by
  show StableHlo.after hostOps0_1 (V1 m c) (Proc.devRef .tc main_v4) = _
  generalize hW : V1 (F := Ideal) m c = W
  after_results
  subst hW
  rw [(V1_of m c main_arg0 (by decide))]
  rfl

theorem V3_cst (c : Dev nD) : V3 (F := Ideal) m c main_cst = Cert.ReferenceIdeal.Read.val_main_cst (F := Ideal) := by
  show StableHlo.after hostOps0_2 (V2 m c) (Proc.devRef .tc main_cst) = _
  generalize hW : V2 (F := Ideal) m c = W
  after_results
  rfl

theorem V4_v5 (c : Dev nD) : V4 (F := Ideal) m c main_v5 = Cert.ReferenceIdeal.Read.val_main_v5 (F := Ideal) (m ((c : Thread nD τ).loc main_arg0)) := by
  show StableHlo.after hostOps0_3 (V3 m c) (Proc.devRef .tc main_v5) = _
  generalize hW : V3 (F := Ideal) m c = W
  after_results
  subst hW
  rw [V3_cst m c, ((V3_of m c main_v4 (by decide))).trans (V2_v4 m c)]
  rfl

theorem V5_v7 (c : Dev nD) : V5 (F := Ideal) m c main_v7 = Cert.ReferenceIdeal.Read.val_main_v7 (F := Ideal) (m ((c : Thread nD τ).loc main_arg0)) := by
  show StableHlo.after hostOps0_4 (V4 m c) (Proc.devRef .tc main_v7) = _
  generalize hW : V4 (F := Ideal) m c = W
  after_results
  subst hW
  rw [V4_v5 m c, ((V4_of m c main_arg0 (by decide)).trans ((V3_of m c main_arg0 (by decide)).trans ((V2_of m c main_arg0 (by decide)).trans (V1_of m c main_arg0 (by decide)))))]
  rfl

theorem V6_v8 (c : Dev nD) : V6 (F := Ideal) m c main_v8 = Cert.ReferenceIdeal.Read.val_main_v8 (F := Ideal) (m ((c : Thread nD τ).loc main_arg1)) (m ((c : Thread nD τ).loc main_arg3)) := by
  show StableHlo.after hostOps0_5 (V5 m c) (Proc.devRef .tc main_v8) = _
  generalize hW : V5 (F := Ideal) m c = W
  after_results
  subst hW
  rw [(((V5_of m c main_v1 (by decide)).trans ((V4_of m c main_v1 (by decide)).trans ((V3_of m c main_v1 (by decide)).trans (V2_of m c main_v1 (by decide)))))).trans (V1_v1 m c)]
  rfl

theorem V7_cst_0 (c : Dev nD) : V7 (F := Ideal) m c main_cst_0 = Cert.ReferenceIdeal.Read.val_main_cst_0 (F := Ideal) := by
  show StableHlo.after hostOps0_6 (V6 m c) (Proc.devRef .tc main_cst_0) = _
  generalize hW : V6 (F := Ideal) m c = W
  after_results
  rfl

theorem V8_v9 (c : Dev nD) : V8 (F := Ideal) m c main_v9 = Cert.ReferenceIdeal.Read.val_main_v9 (F := Ideal) (m ((c : Thread nD τ).loc main_arg1)) (m ((c : Thread nD τ).loc main_arg3)) := by
  show StableHlo.after hostOps0_7 (V7 m c) (Proc.devRef .tc main_v9) = _
  generalize hW : V7 (F := Ideal) m c = W
  after_results
  subst hW
  rw [V7_cst_0 m c, ((V7_of m c main_v8 (by decide))).trans (V6_v8 m c)]
  rfl

theorem V9_v11 (c : Dev nD) : V9 (F := Ideal) m c main_v11 = Cert.ReferenceIdeal.Read.val_main_v11 (F := Ideal) (m ((c : Thread nD τ).loc main_arg1)) (m ((c : Thread nD τ).loc main_arg3)) := by
  show StableHlo.after hostOps0_8 (V8 m c) (Proc.devRef .tc main_v11) = _
  generalize hW : V8 (F := Ideal) m c = W
  after_results
  subst hW
  rw [V8_v9 m c, (((V8_of m c main_v1 (by decide)).trans ((V7_of m c main_v1 (by decide)).trans ((V6_of m c main_v1 (by decide)).trans ((V5_of m c main_v1 (by decide)).trans ((V4_of m c main_v1 (by decide)).trans ((V3_of m c main_v1 (by decide)).trans (V2_of m c main_v1 (by decide))))))))).trans (V1_v1 m c)]
  rfl

theorem V19_v7 (c : Dev nD) : V19 (F := Ideal) m c main_v7 = Cert.ReferenceIdeal.Read.val_main_v7 (F := Ideal) (m ((c : Thread nD τ).loc main_arg0)) :=
  (((V19_of m c main_v7 (by decide)).trans ((V18_of m c main_v7 (by decide)).trans ((V17_of m c main_v7 (by decide)).trans ((V16_of m c main_v7 (by decide)).trans ((V15_of m c main_v7 (by decide)).trans ((V14_of m c main_v7 (by decide)).trans ((V13_of m c main_v7 (by decide)).trans ((V12_of m c main_v7 (by decide)).trans ((V11_of m c main_v7 (by decide)).trans ((V10_of m c main_v7 (by decide)).trans ((V9_of m c main_v7 (by decide)).trans ((V8_of m c main_v7 (by decide)).trans ((V7_of m c main_v7 (by decide)).trans (V6_of m c main_v7 (by decide)))))))))))))))).trans (V5_v7 m c)

theorem V19_v11 (c : Dev nD) : V19 (F := Ideal) m c main_v11 = Cert.ReferenceIdeal.Read.val_main_v11 (F := Ideal) (m ((c : Thread nD τ).loc main_arg1)) (m ((c : Thread nD τ).loc main_arg3)) :=
  (((V19_of m c main_v11 (by decide)).trans ((V18_of m c main_v11 (by decide)).trans ((V17_of m c main_v11 (by decide)).trans ((V16_of m c main_v11 (by decide)).trans ((V15_of m c main_v11 (by decide)).trans ((V14_of m c main_v11 (by decide)).trans ((V13_of m c main_v11 (by decide)).trans ((V12_of m c main_v11 (by decide)).trans ((V11_of m c main_v11 (by decide)).trans (V10_of m c main_v11 (by decide)))))))))))).trans (V9_v11 m c)

theorem V19_v3 (c : Dev nD) : V19 (F := Ideal) m c main_v3 = Cert.ReferenceIdeal.Read.val_main_v3 (F := Ideal) (m ((c : Thread nD τ).loc main_arg2)) (m ((c : Thread nD τ).loc main_arg4)) :=
  (((V19_of m c main_v3 (by decide)).trans ((V18_of m c main_v3 (by decide)).trans ((V17_of m c main_v3 (by decide)).trans ((V16_of m c main_v3 (by decide)).trans ((V15_of m c main_v3 (by decide)).trans ((V14_of m c main_v3 (by decide)).trans ((V13_of m c main_v3 (by decide)).trans ((V12_of m c main_v3 (by decide)).trans ((V11_of m c main_v3 (by decide)).trans ((V10_of m c main_v3 (by decide)).trans ((V9_of m c main_v3 (by decide)).trans ((V8_of m c main_v3 (by decide)).trans ((V7_of m c main_v3 (by decide)).trans ((V6_of m c main_v3 (by decide)).trans ((V5_of m c main_v3 (by decide)).trans ((V4_of m c main_v3 (by decide)).trans ((V3_of m c main_v3 (by decide)).trans (V2_of m c main_v3 (by decide)))))))))))))))))))).trans (V1_v3 m c)

theorem V19_v43 (c : Dev nD) (y : S1024x2048.Idx) :
    V19 (F := Ideal) m c main_v43 y = Cert.ReferenceIdeal.Read.val_main_v7 (F := Ideal) (m ((c : Thread nD τ).loc main_arg0)) y := by
  show StableHlo.after hostOps0_18 (V18 m c) (Proc.devRef .tc main_v43) y = _
  generalize hW : V18 (F := Ideal) m c = W
  after_results
  subst hW
  rw [(((V18_of m c main_v7 (by decide)).trans ((V17_of m c main_v7 (by decide)).trans ((V16_of m c main_v7 (by decide)).trans ((V15_of m c main_v7 (by decide)).trans ((V14_of m c main_v7 (by decide)).trans ((V13_of m c main_v7 (by decide)).trans ((V12_of m c main_v7 (by decide)).trans ((V11_of m c main_v7 (by decide)).trans ((V10_of m c main_v7 (by decide)).trans ((V9_of m c main_v7 (by decide)).trans ((V8_of m c main_v7 (by decide)).trans ((V7_of m c main_v7 (by decide)).trans (V6_of m c main_v7 (by decide))))))))))))))).trans (V5_v7 m c)]
  rfl

theorem V19_v44 (c : Dev nD) (y : S8192x2048.Idx) :
    V19 (F := Ideal) m c main_v44 y = Cert.ReferenceIdeal.Read.val_main_v11 (F := Ideal) (m ((c : Thread nD τ).loc main_arg1)) (m ((c : Thread nD τ).loc main_arg3)) y := by
  show StableHlo.after hostOps0_18 (V18 m c) (Proc.devRef .tc main_v44) y = _
  generalize hW : V18 (F := Ideal) m c = W
  after_results
  subst hW
  rw [(((V18_of m c main_v11 (by decide)).trans ((V17_of m c main_v11 (by decide)).trans ((V16_of m c main_v11 (by decide)).trans ((V15_of m c main_v11 (by decide)).trans ((V14_of m c main_v11 (by decide)).trans ((V13_of m c main_v11 (by decide)).trans ((V12_of m c main_v11 (by decide)).trans ((V11_of m c main_v11 (by decide)).trans (V10_of m c main_v11 (by decide))))))))))).trans (V9_v11 m c)]
  rfl

theorem V19_v45 (c : Dev nD) (i : Fin 1024) :
    V19 (F := Ideal) m c main_v45 (ix2 i 0) = (m ((c : Thread nD τ).loc main_arg2)) (ix1 i) := by
  show StableHlo.after hostOps0_18 (V18 m c) (Proc.devRef .tc main_v45) (ix2 i 0) = _
  generalize hW : V18 (F := Ideal) m c = W
  after_results
  subst hW
  rw [((V18_of m c main_arg2 (by decide)).trans ((V17_of m c main_arg2 (by decide)).trans ((V16_of m c main_arg2 (by decide)).trans ((V15_of m c main_arg2 (by decide)).trans ((V14_of m c main_arg2 (by decide)).trans ((V13_of m c main_arg2 (by decide)).trans ((V12_of m c main_arg2 (by decide)).trans ((V11_of m c main_arg2 (by decide)).trans ((V10_of m c main_arg2 (by decide)).trans ((V9_of m c main_arg2 (by decide)).trans ((V8_of m c main_arg2 (by decide)).trans ((V7_of m c main_arg2 (by decide)).trans ((V6_of m c main_arg2 (by decide)).trans ((V5_of m c main_arg2 (by decide)).trans ((V4_of m c main_arg2 (by decide)).trans ((V3_of m c main_arg2 (by decide)).trans ((V2_of m c main_arg2 (by decide)).trans (V1_of m c main_arg2 (by decide)))))))))))))))))))]
  refine shapeCast_apply _ _ _ (ix1 i) ?_
  show ((⟨1, ![1024]⟩ : Shape).rowMajor (ix1 i)).val = ((⟨2, ![1024, 1]⟩ : Shape).rowMajor (ix2 i 0)).val
  rw [Shape.rowMajor_val_one, Shape.rowMajor_val_two]
  show i.val = i.val * 1 + 0
  omega

theorem V19_v46 (c : Dev nD) (j : Fin 8192) :
    V19 (F := Ideal) m c main_v46 (ix2 0 j) = Cert.ReferenceIdeal.Read.val_main_v3 (F := Ideal) (m ((c : Thread nD τ).loc main_arg2)) (m ((c : Thread nD τ).loc main_arg4)) (ix1 j) := by
  show StableHlo.after hostOps0_18 (V18 m c) (Proc.devRef .tc main_v46) (ix2 0 j) = _
  generalize hW : V18 (F := Ideal) m c = W
  after_results
  subst hW
  rw [(((V18_of m c main_v3 (by decide)).trans ((V17_of m c main_v3 (by decide)).trans ((V16_of m c main_v3 (by decide)).trans ((V15_of m c main_v3 (by decide)).trans ((V14_of m c main_v3 (by decide)).trans ((V13_of m c main_v3 (by decide)).trans ((V12_of m c main_v3 (by decide)).trans ((V11_of m c main_v3 (by decide)).trans ((V10_of m c main_v3 (by decide)).trans ((V9_of m c main_v3 (by decide)).trans ((V8_of m c main_v3 (by decide)).trans ((V7_of m c main_v3 (by decide)).trans ((V6_of m c main_v3 (by decide)).trans ((V5_of m c main_v3 (by decide)).trans ((V4_of m c main_v3 (by decide)).trans ((V3_of m c main_v3 (by decide)).trans (V2_of m c main_v3 (by decide))))))))))))))))))).trans (V1_v3 m c)]
  refine shapeCast_apply _ _ _ (ix1 j) ?_
  show ((⟨1, ![8192]⟩ : Shape).rowMajor (ix1 j)).val = ((⟨2, ![1, 8192]⟩ : Shape).rowMajor (ix2 0 j)).val
  rw [Shape.rowMajor_val_one, Shape.rowMajor_val_two]
  show j.val = 0 * 8192 + j.val
  omega

end Cert.KernelIdeal.Hand

end
-- ==== Proof.LibRowGather.lean ====
import Idealize.ShloMosaic.PureOps.ShapeOps
import Idealize.ShloMosaic.Lib.ValueIdx

noncomputable section

namespace Cert.LibRowGather

open Idealize.ShloMosaic Idealize.ShloMosaic.ValueIdx

abbrev rowGatherDims (N D n : Nat)
    (wf : GatherDims.WF ⟨2, ![N, D]⟩ ⟨2, ![n, 1]⟩ ⟨2, ![n, D]⟩ [1] [0] [] [0] [] 1 ![1, D]) :
    GatherDims ⟨2, ![N, D]⟩ ⟨2, ![n, 1]⟩ ⟨2, ![n, D]⟩ where
  offsetDims := [1]
  collapsedSliceDims := [0]
  operandBatchingDims := []
  startIndicesBatchingDims := []
  startIndexMap := [0]
  indexVectorDim := 1
  sliceSizes := ![1, D]
  wf := wf

theorem gather_rows_apply {α : Type} {N D n w : Nat} (hN : 0 < N)
    (wf : GatherDims.WF ⟨2, ![N, D]⟩ ⟨2, ![n, 1]⟩ ⟨2, ![n, D]⟩ [1] [0] [] [0] [] 1 ![1, D])
    (x : (⟨2, ![N, D]⟩ : Shape).Idx → α) (idx : IVec ⟨2, ![n, 1]⟩ w) (p : Fin n) (q : Fin D) :
    Host.gather (rowGatherDims N D n wf) x idx (ix2 p q)
      = x (ix2 ⟨min (idx (ix2 p (0 : Fin 1))).toInt.toNat (N - 1), by omega⟩ q) := by
  unfold Host.gather
  refine congrArg x (funext fun a => Fin.ext ?_)
  match a with
  | ⟨0, _⟩ =>
    show (rowGatherDims N D n wf).start (ix2 p q) idx 0 + (rowGatherDims N D n wf).batchCoord (ix2 p q) 0
      + (rowGatherDims N D n wf).offCoord (ix2 p q) 0 = min (idx (ix2 p (0 : Fin 1))).toInt.toNat (N - 1)
    rw [GatherDims.batchCoord_eq_zero (rowGatherDims N D n wf) _ 0 (by show (0 : Fin 2) ∉ ([] : List (Fin 2)); decide),
      GatherDims.offCoord_eq_zero (rowGatherDims N D n wf) _ 0
        (fun h => ((GatherDims.mem_sKept _ _).mp h).1 (List.mem_singleton.mpr rfl))]
    simp only [Nat.add_zero]
    unfold GatherDims.start
    rw [dif_pos (show (0 : Fin 2) ∈ (rowGatherDims N D n wf).startIndexMap from List.mem_singleton.mpr rfl)]
    have hsi : (rowGatherDims N D n wf).siIdx (ix2 p q)
        ⟨List.idxOf (0 : Fin 2) (rowGatherDims N D n wf).startIndexMap, List.idxOf_lt_length_iff.2 (List.mem_singleton.mpr rfl)⟩
        = ix2 p (0 : Fin 1) := funext fun b => Fin.ext (by
      match b with
      | ⟨0, _⟩ => rfl
      | ⟨1, _⟩ => rfl)
    rw [hsi]
    rfl
  | ⟨1, _⟩ =>
    show (rowGatherDims N D n wf).start (ix2 p q) idx 1 + (rowGatherDims N D n wf).batchCoord (ix2 p q) 1
      + (rowGatherDims N D n wf).offCoord (ix2 p q) 1 = q.val
    rw [GatherDims.batchCoord_eq_zero (rowGatherDims N D n wf) _ 1 (by show (1 : Fin 2) ∉ ([] : List (Fin 2)); decide)]
    have hs : (rowGatherDims N D n wf).start (ix2 p q) idx 1 = 0 := by
      unfold GatherDims.start
      rw [dif_neg (show (1 : Fin 2) ∉ (rowGatherDims N D n wf).startIndexMap from by
        show (1 : Fin 2) ∉ ([0] : List (Fin 2)); decide)]
    rw [hs]
    have hk : (1 : Fin 2) ∈ (rowGatherDims N D n wf).sKept :=
      (GatherDims.mem_sKept _ _).mpr ⟨by show (1 : Fin 2) ∉ ([0] : List (Fin 2)); decide,
        by show (1 : Fin 2) ∉ ([] : List (Fin 2)); decide⟩
    unfold GatherDims.offCoord
    rw [dif_pos hk]
    simp only [Nat.zero_add]
    rfl

end Cert.LibRowGather

end
-- ==== Proof.KI.HostCf.lean ====
import proofs.«419856_j5566277616543_1_alg».proof.Proof.Gen.KernelIdeal.Regions
import proofs.«419856_j5566277616543_1_alg».proof.Proof.Ref.Stages
import proofs.«419856_j5566277616543_1_alg».proof.Proof.LibRowGather
import Idealize.ShloMosaic.Lib.StableHlo.Run
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.SL.Sem
open Cert.ReferenceIdeal.Read
open Cert.LibRowGather

namespace HostCf

abbrev gwf := Cert.KernelIdeal.Facts₀.gather_S8192x2048_S1024x1_S1024x2048_1_0_n_n_0_1_12048_wf

theorem gdimsK_eq : Cert.KernelIdeal.gather_S8192x2048_S1024x1_S1024x2048_1_0_n_n_0_1_12048
    = rowGatherDims 8192 2048 1024 gwf := rfl

theorem gdimsR_eq : Cert.ReferenceIdeal.gather_S8192x2048_S1024x1_S1024x2048_1_0_n_n_0_1_12048
    = rowGatherDims 8192 2048 1024 gwf := rfl

theorem rowIdxK (p : Fin 1024) (q k : Fin 2048) :
    idx_main_call0_v1 (idx_main_call0_v2 (idx_main_v6 (ix2 p q))) k = ix2 p k := by
  funext a
  match a with
  | ⟨0, _⟩ => rfl
  | ⟨1, _⟩ => rfl

theorem rowIdxR (r : Fin 8192) (q k : Fin 2048) :
    idx_main_call4_v1 (idx_main_call4_v2 (idx_main_v16 (ix2 r q))) k = ix2 r k := by
  funext a
  match a with
  | ⟨0, _⟩ => rfl
  | ⟨1, _⟩ => rfl

theorem norm_gather_at (cf : (⟨2, ![8192, 2048]⟩ : Shape).Idx → EReal) (idx : IVec ⟨2, ![1024, 1]⟩ 32) (p : Fin 1024) (q : Fin 2048) :
    val_main_v7 (F := Ideal) (Host.gather (rowGatherDims 8192 2048 1024 gwf) cf idx) (ix2 p q)
      = Host.gather (rowGatherDims 8192 2048 1024 gwf) (val_main_v17 (F := Ideal) cf) idx (ix2 p q) := by
  rw [gather_rows_apply (by decide) gwf (val_main_v17 (F := Ideal) cf) idx p q]
  rw [val_main_v7_apply, val_main_v6_apply, val_main_v5_apply, val_main_v4_apply, val_main_call0_v2_apply, val_main_call0_v1_apply,
    val_main_call1_v1_apply]
  rw [val_main_v17_apply, val_main_v16_apply, val_main_v15_apply, val_main_v14_apply, val_main_call4_v2_apply, val_main_call4_v1_apply,
    val_main_call5_v1_apply]
  rw [gather_rows_apply (by decide) gwf cf idx p q]
  refine congrArg (FloatOps.hostDivf _) ?_
  refine congrArg (FloatOps.maximumf _) ?_
  refine congrArg (FloatOps.hostUnary HostUnaryOp.sqrt) ?_
  refine congrArg (_ + ·) (Finset.sum_congr rfl fun k _ => ?_)
  rw [rowIdxK, rowIdxR, val_main_call0_v0_apply, val_main_call4_v0_apply, gather_rows_apply (by decide) gwf cf idx p k]

theorem norm_gather (cf : (⟨2, ![8192, 2048]⟩ : Shape).Idx → EReal) (idx : IVec ⟨2, ![1024, 1]⟩ 32) :
    val_main_v7 (F := Ideal) (Host.gather Cert.KernelIdeal.gather_S8192x2048_S1024x1_S1024x2048_1_0_n_n_0_1_12048 cf idx)
      = Host.gather Cert.ReferenceIdeal.gather_S8192x2048_S1024x1_S1024x2048_1_0_n_n_0_1_12048 (val_main_v17 (F := Ideal) cf) idx := by
  rw [gdimsK_eq, gdimsR_eq]
  funext i
  obtain ⟨p, q, rfl⟩ : ∃ (p : Fin 1024) (q : Fin 2048), i = ix2 p q := ⟨i 0, i 1, eq_ix2 i⟩
  exact norm_gather_at cf idx p q

section Stretches

variable {F : FTy → Type} [FloatOps F]

def cosOf (nq G : (⟨S1024x2048, .f32⟩ : BufTy).Contents (Elt F)) : (⟨S1024, .f32⟩ : BufTy).Contents (Elt F) :=
  minimumf (broadcastInDim S1024 ![] Facts₀.bcast_S_S1024 (id (constant (F := F) S_ .f32 0x3F800000#32)))
    (maximumf (broadcastInDim S1024 ![] Facts₀.bcast_S_S1024 (id (constant (F := F) S_ .f32 0xBF800000#32)))
      (Host.reduceAdd (mulf nq G) (constant (F := F) S_ .f32 0x00000000#32) Facts₀.reducesTo_S1024x2048_S1024_d1 Facts₀.h_S_))

def sinSqOf (cs : (⟨S1024, .f32⟩ : BufTy).Contents (Elt F)) : (⟨S1024, .f32⟩ : BufTy).Contents (Elt F) :=
  minimumf (broadcastInDim S1024 ![] Facts₀.bcast_S_S1024 (id (constant (F := F) S_ .f32 0x3F800000#32)))
    (maximumf (broadcastInDim S1024 ![] Facts₀.bcast_S_S1024 (id (constant (F := F) S_ .f32 0x00000000#32)))
      (subf (broadcastInDim S1024 ![] Facts₀.bcast_S_S1024 (constant (F := F) S_ .f32 0x3F800000#32)) (mulf cs cs)))

def marginOfCos (cs : (⟨S1024, .f32⟩ : BufTy).Contents (Elt F)) : (⟨S1024, .f32⟩ : BufTy).Contents (Elt F) :=
  mulf (broadcastInDim S1024 ![] Facts₀.bcast_S_S1024 (constant (F := F) S_ .f32 0x42800000#32))
    (select (cmpf .ogt cs (broadcastInDim S1024 ![] Facts₀.bcast_S_S1024 (constant (F := F) S_ .f32 0xBF60A940#32)))
      (subf (mulf cs (broadcastInDim S1024 ![] Facts₀.bcast_S_S1024 (constant (F := F) S_ .f32 0x3F60A940#32))) (mulf (Host.sqrt (sinSqOf cs)) (broadcastInDim S1024 ![] Facts₀.bcast_S_S1024 (constant (F := F) S_ .f32 0x3EF57744#32))))
      (subf cs (broadcastInDim S1024 ![] Facts₀.bcast_S_S1024 (constant (F := F) S_ .f32 0x3E757744#32))))

def wrapIdx (lab : (⟨S1024, .i32⟩ : BufTy).Contents (Elt F)) : (⟨S1024x1, .i32⟩ : BufTy).Contents (Elt F) :=
  broadcastInDim S1024x1 ![0] Facts₀.bcast_S1024_S1024x1_0
    (select (cmpi .slt lab (broadcastInDim S1024 ![] Facts₀.bcast_S_S1024 (constantI S_ 32 0#32)))
      (addi lab (broadcastInDim S1024 ![] Facts₀.bcast_S_S1024 (constantI S_ 32 8192#32))) lab)

def normRows (x : (⟨S1024x2048, .f32⟩ : BufTy).Contents (Elt F)) : (⟨S1024x2048, .f32⟩ : BufTy).Contents (Elt F) :=
  Host.divf x (broadcastInDim S1024x2048 ![0, 1] Facts₀.bcast_S1024x1_S1024x2048_0_1
    (maximumf (broadcastInDim S1024x1 ![] Facts₀.bcast_S_S1024x1 (id (constant (F := F) S_ .f32 0x2B8CBCCC#32)))
      (Host.sqrt (broadcastInDim S1024x1 ![0] Facts₀.bcast_S1024_S1024x1_0
        (Host.reduceAdd (mulf x x) (constant (F := F) S_ .f32 0x00000000#32) Facts₀.reducesTo_S1024x2048_S1024_d1 Facts₀.h_S_)))))

theorem val_v7_eq (x : (⟨S1024x2048, .f32⟩ : BufTy).Contents (Elt F)) : val_main_v7 (F := F) x = normRows x := rfl

theorem val_v44_eq (x0 : (⟨S1024x2048, .f32⟩ : BufTy).Contents (Elt F)) (x2 : (⟨S1024, .i32⟩ : BufTy).Contents (Elt F)) (x5 : (⟨S8192x2048, .f32⟩ : BufTy).Contents (Elt F)) :
    val_main_v44 (F := F) x0 x2 x5 = marginOfCos (cosOf (val_main_v7 (F := F) x0) (val_main_v24 (F := F) x2 x5)) := rfl

theorem val_v23_eq (x2 : (⟨S1024, .i32⟩ : BufTy).Contents (Elt F)) : val_main_v23 (F := F) x2 = wrapIdx x2 := rfl

end Stretches

section Runs

variable {F : FTy → Type} [FloatOps F]

theorem s1_v4 (W : Valuation τ sig (Elt F)) :
    StableHlo.after hostOps0_1 W (Proc.devRef .tc main_v4) = (Host.sqrt (broadcastInDim S1024x1 ![0] Facts₀.bcast_S1024_S1024x1_0 (Host.reduceAdd (mulf (W main_arg0) (W main_arg0)) (constant (F := F) S_ .f32 0x00000000#32) Facts₀.reducesTo_S1024x2048_S1024_d1 Facts₀.h_S_)) : (⟨S1024x1, .f32⟩ : BufTy).Contents (Elt F)) := by
  after_results <;> rfl

theorem s2_cst (W : Valuation τ sig (Elt F)) :
    StableHlo.after hostOps0_2 W (Proc.devRef .tc main_cst) = ((constant (F := F) S_ .f32 0x2B8CBCCC#32) : (⟨S_, .f32⟩ : BufTy).Contents (Elt F)) := by
  after_results <;> rfl

theorem s3_v5 (W : Valuation τ sig (Elt F)) :
    StableHlo.after hostOps0_3 W (Proc.devRef .tc main_v5) = (maximumf (broadcastInDim S1024x1 ![] Facts₀.bcast_S_S1024x1 (id (W main_cst))) (W main_v4) : (⟨S1024x1, .f32⟩ : BufTy).Contents (Elt F)) := by
  after_results <;> rfl

theorem s4_v7 (W : Valuation τ sig (Elt F)) :
    StableHlo.after hostOps0_4 W (Proc.devRef .tc main_v7) = (Host.divf (W main_arg0) (broadcastInDim S1024x2048 ![0, 1] Facts₀.bcast_S1024x1_S1024x2048_0_1 (W main_v5)) : (⟨S1024x2048, .f32⟩ : BufTy).Contents (Elt F)) := by
  after_results <;> rfl

theorem s8_v18 (W : Valuation τ sig (Elt F)) :
    StableHlo.after hostOps0_8 W (Proc.devRef .tc main_v18) = (Host.gather gather_S8192x2048_S1024x1_S1024x2048_1_0_n_n_0_1_12048 (W main_arg5) (wrapIdx (W main_arg2)) : (⟨S1024x2048, .f32⟩ : BufTy).Contents (Elt F)) := by
  after_results <;> rfl

theorem s9_v19 (W : Valuation τ sig (Elt F)) :
    StableHlo.after hostOps0_9 W (Proc.devRef .tc main_v19) = (Host.sqrt (broadcastInDim S1024x1 ![0] Facts₀.bcast_S1024_S1024x1_0 (Host.reduceAdd (mulf (W main_v18) (W main_v18)) (constant (F := F) S_ .f32 0x00000000#32) Facts₀.reducesTo_S1024x2048_S1024_d1 Facts₀.h_S_)) : (⟨S1024x1, .f32⟩ : BufTy).Contents (Elt F)) := by
  after_results <;> rfl

theorem s10_cst2 (W : Valuation τ sig (Elt F)) :
    StableHlo.after hostOps0_10 W (Proc.devRef .tc main_cst_2) = ((constant (F := F) S_ .f32 0x2B8CBCCC#32) : (⟨S_, .f32⟩ : BufTy).Contents (Elt F)) := by
  after_results <;> rfl

theorem s11_v20 (W : Valuation τ sig (Elt F)) :
    StableHlo.after hostOps0_11 W (Proc.devRef .tc main_v20) = (maximumf (broadcastInDim S1024x1 ![] Facts₀.bcast_S_S1024x1 (id (W main_cst_2))) (W main_v19) : (⟨S1024x1, .f32⟩ : BufTy).Contents (Elt F)) := by
  after_results <;> rfl

theorem s12_v24 (W : Valuation τ sig (Elt F)) :
    StableHlo.after hostOps0_12 W (Proc.devRef .tc main_v24) = (Host.reduceAdd (mulf (W main_v7) (Host.divf (W main_v18) (broadcastInDim S1024x2048 ![0, 1] Facts₀.bcast_S1024x1_S1024x2048_0_1 (W main_v20)))) (constant (F := F) S_ .f32 0x00000000#32) Facts₀.reducesTo_S1024x2048_S1024_d1 Facts₀.h_S_ : (⟨S1024, .f32⟩ : BufTy).Contents (Elt F)) := by
  after_results <;> rfl

theorem s12_cst4 (W : Valuation τ sig (Elt F)) :
    StableHlo.after hostOps0_12 W (Proc.devRef .tc main_cst_4) = ((constant (F := F) S_ .f32 0xBF800000#32) : (⟨S_, .f32⟩ : BufTy).Contents (Elt F)) := by
  after_results <;> rfl

theorem s12_cst5 (W : Valuation τ sig (Elt F)) :
    StableHlo.after hostOps0_12 W (Proc.devRef .tc main_cst_5) = ((constant (F := F) S_ .f32 0x3F800000#32) : (⟨S_, .f32⟩ : BufTy).Contents (Elt F)) := by
  after_results <;> rfl

theorem s13_v25 (W : Valuation τ sig (Elt F)) :
    StableHlo.after hostOps0_13 W (Proc.devRef .tc main_v25) = (minimumf (broadcastInDim S1024 ![] Facts₀.bcast_S_S1024 (id (W main_cst_5))) (maximumf (broadcastInDim S1024 ![] Facts₀.bcast_S_S1024 (id (W main_cst_4))) (W main_v24)) : (⟨S1024, .f32⟩ : BufTy).Contents (Elt F)) := by
  after_results <;> rfl

theorem s14_v28 (W : Valuation τ sig (Elt F)) :
    StableHlo.after hostOps0_14 W (Proc.devRef .tc main_v28) = (subf (broadcastInDim S1024 ![] Facts₀.bcast_S_S1024 (constant (F := F) S_ .f32 0x3F800000#32)) (mulf (W main_v25) (W main_v25)) : (⟨S1024, .f32⟩ : BufTy).Contents (Elt F)) := by
  after_results <;> rfl

theorem s14_cst7 (W : Valuation τ sig (Elt F)) :
    StableHlo.after hostOps0_14 W (Proc.devRef .tc main_cst_7) = ((constant (F := F) S_ .f32 0x00000000#32) : (⟨S_, .f32⟩ : BufTy).Contents (Elt F)) := by
  after_results <;> rfl

theorem s14_cst8 (W : Valuation τ sig (Elt F)) :
    StableHlo.after hostOps0_14 W (Proc.devRef .tc main_cst_8) = ((constant (F := F) S_ .f32 0x3F800000#32) : (⟨S_, .f32⟩ : BufTy).Contents (Elt F)) := by
  after_results <;> rfl

theorem s15_v29 (W : Valuation τ sig (Elt F)) :
    StableHlo.after hostOps0_15 W (Proc.devRef .tc main_v29) = (minimumf (broadcastInDim S1024 ![] Facts₀.bcast_S_S1024 (id (W main_cst_8))) (maximumf (broadcastInDim S1024 ![] Facts₀.bcast_S_S1024 (id (W main_cst_7))) (W main_v28)) : (⟨S1024, .f32⟩ : BufTy).Contents (Elt F)) := by
  after_results <;> rfl

theorem s16_v35 (W : Valuation τ sig (Elt F)) :
    StableHlo.after hostOps0_16 W (Proc.devRef .tc main_v35) = (subf (mulf (W main_v25) (broadcastInDim S1024 ![] Facts₀.bcast_S_S1024 (constant (F := F) S_ .f32 0x3F60A940#32))) (mulf (Host.sqrt (W main_v29)) (broadcastInDim S1024 ![] Facts₀.bcast_S_S1024 (constant (F := F) S_ .f32 0x3EF57744#32))) : (⟨S1024, .f32⟩ : BufTy).Contents (Elt F)) := by
  after_results <;> rfl

theorem s16_v37 (W : Valuation τ sig (Elt F)) :
    StableHlo.after hostOps0_16 W (Proc.devRef .tc main_v37) = (cmpf .ogt (W main_v25) (broadcastInDim S1024 ![] Facts₀.bcast_S_S1024 (constant (F := F) S_ .f32 0xBF60A940#32)) : (⟨S1024, .i1⟩ : BufTy).Contents (Elt F)) := by
  after_results <;> rfl

theorem s16_v39 (W : Valuation τ sig (Elt F)) :
    StableHlo.after hostOps0_16 W (Proc.devRef .tc main_v39) = (subf (W main_v25) (broadcastInDim S1024 ![] Facts₀.bcast_S_S1024 (constant (F := F) S_ .f32 0x3E757744#32)) : (⟨S1024, .f32⟩ : BufTy).Contents (Elt F)) := by
  after_results <;> rfl

theorem s17_v40 (W : Valuation τ sig (Elt F)) :
    StableHlo.after hostOps0_17 W (Proc.devRef .tc main_v40) = (select (W main_v37) (W main_v35) (W main_v39) : (⟨S1024, .f32⟩ : BufTy).Contents (Elt F)) := by
  after_results <;> rfl

theorem s18_v42 (W : Valuation τ sig (Elt F)) :
    StableHlo.after hostOps0_18 W (Proc.devRef .tc main_v42) = (mulf (broadcastInDim S1024 ![] Facts₀.bcast_S_S1024 (constant (F := F) S_ .f32 0x42800000#32)) (W main_v40) : (⟨S1024, .f32⟩ : BufTy).Contents (Elt F)) := by
  after_results <;> rfl

theorem s18_v47 (W : Valuation τ sig (Elt F)) :
    StableHlo.after hostOps0_18 W (Proc.devRef .tc main_v47)
      = fun i => shapeCast S1024x1 (mulf (broadcastInDim S1024 ![] Facts₀.bcast_S_S1024 (constant (F := F) S_ .f32 0x42800000#32)) (W main_v40) : (⟨S1024, .f32⟩ : BufTy).Contents (Elt F)) Facts₀.shapeCasts_S1024_S1024x1 i := by
  after_results <;> rfl

end Runs

section Levels

variable {F : FTy → Type} [FloatOps F]
variable (m : (ℓ : Loc nD τ sig) → Buf (Elt F) ℓ) (c : Dev nD)

theorem V1_arg0 : V1 m c main_arg0 = (m ((c : Thread nD τ).loc main_arg0)) := (V1_of m c main_arg0 (by decide)).trans rfl
theorem V4_arg0 : V4 m c main_arg0 = (m ((c : Thread nD τ).loc main_arg0)) :=
  (V4_of m c main_arg0 (by decide)).trans <| (V3_of m c main_arg0 (by decide)).trans <| (V2_of m c main_arg0 (by decide)).trans <| V1_arg0 m c
theorem V8_arg2 : V8 m c main_arg2 = (m ((c : Thread nD τ).loc main_arg2)) :=
  (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans <| rfl
theorem V8_arg5 : V8 m c main_arg5 = (m ((c : Thread nD τ).loc main_arg5)) :=
  (V8_of m c main_arg5 (by decide)).trans <| (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide)).trans <| rfl

theorem V5_v7 : V5 m c main_v7 = normRows (m ((c : Thread nD τ).loc main_arg0)) := by
  unfold normRows
  rw [show V5 m c main_v7 = _ from s4_v7 (V4 m c), show V4 m c main_v5 = _ from s3_v5 (V3 m c),
    show V3 m c main_cst = _ from s2_cst (V2 m c), V3_of m c main_v4 (by decide), show V2 m c main_v4 = _ from s1_v4 (V1 m c),
    V4_arg0, V1_arg0]

theorem V9_v18 : V9 m c main_v18
    = Host.gather gather_S8192x2048_S1024x1_S1024x2048_1_0_n_n_0_1_12048 (m ((c : Thread nD τ).loc main_arg5)) (wrapIdx (m ((c : Thread nD τ).loc main_arg2))) := by
  rw [show V9 m c main_v18 = _ from s8_v18 (V8 m c), V8_arg5, V8_arg2]

theorem V14_v25 : V14 m c main_v25
    = cosOf (normRows (m ((c : Thread nD τ).loc main_arg0)))
        (normRows (Host.gather gather_S8192x2048_S1024x1_S1024x2048_1_0_n_n_0_1_12048 (m ((c : Thread nD τ).loc main_arg5)) (wrapIdx (m ((c : Thread nD τ).loc main_arg2))))) := by
  unfold cosOf
  rw [show V14 m c main_v25 = _ from s13_v25 (V13 m c),
    show V13 m c main_cst_5 = _ from s12_cst5 (V12 m c), show V13 m c main_cst_4 = _ from s12_cst4 (V12 m c),
    show V13 m c main_v24 = _ from s12_v24 (V12 m c),
    V12_of m c main_v7 (by decide), V11_of m c main_v7 (by decide), V10_of m c main_v7 (by decide), V9_of m c main_v7 (by decide), V8_of m c main_v7 (by decide), V7_of m c main_v7 (by decide), V6_of m c main_v7 (by decide), V5_v7,
    V12_of m c main_v18 (by decide), V11_of m c main_v18 (by decide), V10_of m c main_v18 (by decide), V9_v18,
    show V12 m c main_v20 = _ from s11_v20 (V11 m c), show V11 m c main_cst_2 = _ from s10_cst2 (V10 m c),
    V11_of m c main_v19 (by decide), show V10 m c main_v19 = _ from s9_v19 (V9 m c), V9_v18]
  rfl

theorem V19_v47_fun : V19 m c main_v47
    = fun i => shapeCast S1024x1 (marginOfCos (V14 m c main_v25)) Facts₀.shapeCasts_S1024_S1024x1 i := by
  rw [show V19 m c main_v47 = _ from s18_v47 (V18 m c), show V18 m c main_v40 = _ from s17_v40 (V17 m c),
    show V17 m c main_v37 = _ from s16_v37 (V16 m c), show V17 m c main_v35 = _ from s16_v35 (V16 m c),
    show V17 m c main_v39 = _ from s16_v39 (V16 m c),
    V16_of m c main_v25 (by decide), V15_of m c main_v25 (by decide),
    show V16 m c main_v29 = _ from s15_v29 (V15 m c), show V15 m c main_cst_8 = _ from s14_cst8 (V14 m c),
    show V15 m c main_cst_7 = _ from s14_cst7 (V14 m c), show V15 m c main_v28 = _ from s14_v28 (V14 m c)]
  generalize V14 m c main_v25 = cs
  rfl

end Levels

theorem shapeCast_col {α : Type} (x : (⟨1, ![1024]⟩ : Shape).Idx → α)
    (h : (⟨1, ![1024]⟩ : Shape).ShapeCasts ⟨2, ![1024, 1]⟩) (i : Fin 1024) :
    shapeCast ⟨2, ![1024, 1]⟩ x h (ix2 i (0 : Fin 1)) = x (ix1 i) :=
  shapeCast_apply x h _ _ (by
    rw [Shape.rowMajor_val_two, Shape.rowMajor_val_one]
    show i.val = i.val * 1 + 0
    omega)

end HostCf

theorem V19_v47 (m : (ℓ : Loc nD τ sig) → Buf (Elt Ideal) ℓ) (c : Dev nD) (i : Fin 1024) :
    V19 (F := Ideal) m c main_v47 (ix2 i 0)
      = Cert.ReferenceIdeal.Read.val_main_v44 (F := Ideal) (m ((c : Thread nD τ).loc main_arg0)) (m ((c : Thread nD τ).loc main_arg2)) (m ((c : Thread nD τ).loc main_arg5)) (ix1 i) := by
  refine (congrFun (HostCf.V19_v47_fun m c) (ix2 i 0)).trans ?_
  show shapeCast S1024x1 (HostCf.marginOfCos (V14 m c main_v25)) Facts₀.shapeCasts_S1024_S1024x1 (ix2 i (0 : Fin 1)) = _
  rw [HostCf.shapeCast_col, HostCf.V14_v25, HostCf.val_v44_eq, HostCf.val_v7_eq]
  refine congrArg (fun G => HostCf.marginOfCos (HostCf.cosOf (HostCf.normRows (m ((c : Thread nD τ).loc main_arg0))) G) (ix1 i)) ?_
  rw [← HostCf.val_v7_eq]
  exact HostCf.norm_gather (m ((c : Thread nD τ).loc main_arg5)) (HostCf.wrapIdx (m ((c : Thread nD τ).loc main_arg2)))

end Cert.KernelIdeal.Hand
end
-- ==== Proof.LibScatterAdd.lean ====
import Idealize.ShloMosaic.PureOps.ShapeOps
import Idealize.ShloMosaic.Lib.ValueIdx
import Idealize.ShloMosaic.Lib.ValueIdxRank1
import Mathlib.Data.Fintype.Card

namespace Cert.LibScatterAdd

open Idealize.ShloMosaic Idealize.ShloMosaic.ValueIdx

section Step
variable {s si u : Shape} {α : Type} {w : Nat}

def step (d : ScatterDims s si u) (f : α → α → α) (idx : IVec si w) (upd : u.Idx → α) (r : s.Idx → α)
    (n : Fin u.numel) : s.Idx → α :=
  match d.resultIdx? (u.rowMajor.symm n) idx with
  | some i => fun i' => if i' = i then f (r i) (upd (u.rowMajor.symm n)) else r i'
  | none => r

theorem scatter_eq_foldl (d : ScatterDims s si u) (f : α → α → α) (x : s.Idx → α) (idx : IVec si w) (upd : u.Idx → α) :
    Host.scatter d f x idx upd = (List.finRange u.numel).foldl (step d f idx upd) x := rfl

end Step

variable {N n w : Nat}

theorem window_eq (d : ScatterDims ⟨1, ![N]⟩ ⟨2, ![n, 1]⟩ ⟨1, ![n]⟩) (huw : d.updateWindowDims = [])
    (j : (⟨1, ![n]⟩ : Shape).Idx) (a : Fin 1) : d.window j a = 0 := by
  have hk : d.sKept = [] := List.length_eq_zero_iff.1 (by rw [← d.window_length, huw]; rfl)
  unfold ScatterDims.window
  rw [dif_neg (by rw [hk]; exact List.not_mem_nil)]

theorem start_eq (d : ScatterDims ⟨1, ![N]⟩ ⟨2, ![n, 1]⟩ ⟨1, ![n]⟩) (hsd : d.scatterDimsToOperandDims = [0])
    (hiv : d.indexVectorDim = 1) (j : (⟨1, ![n]⟩ : Shape).Idx) (idx : IVec ⟨2, ![n, 1]⟩ w) (a : Fin 1) :
    d.start j idx a = (idx (ix2 (j 0) 0)).toInt := by
  have ha : a ∈ d.scatterDimsToOperandDims := by
    rw [hsd, Subsingleton.elim a 0]; exact List.mem_singleton.mpr rfl
  unfold ScatterDims.start
  rw [dif_pos ha]
  refine congrArg (fun k => (idx k).toInt) ?_
  funext b
  match b with
  | ⟨0, _⟩ =>
    unfold ScatterDims.siIdx
    rw [dif_neg (by rw [hiv]; exact Nat.zero_ne_one)]
    unfold ScatterDims.siCoord
    apply Fin.ext
    simp only [Fin.val_cast]
    have e : ∀ X : Fin 1, (j X).val = (j 0).val := fun X => by rw [Subsingleton.elim X 0]
    exact e _
  | ⟨1, _⟩ =>
    unfold ScatterDims.siIdx
    rw [dif_pos (by rw [hiv])]
    apply Fin.ext
    show List.idxOf a d.scatterDimsToOperandDims = 0
    rw [hsd, Subsingleton.elim a 0]; rfl

theorem resultIdx?_eq (d : ScatterDims ⟨1, ![N]⟩ ⟨2, ![n, 1]⟩ ⟨1, ![n]⟩) (huw : d.updateWindowDims = [])
    (hsd : d.scatterDimsToOperandDims = [0]) (hiv : d.indexVectorDim = 1) (j : (⟨1, ![n]⟩ : Shape).Idx)
    (idx : IVec ⟨2, ![n, 1]⟩ w) :
    d.resultIdx? j idx
      = if h : 0 ≤ (idx (ix2 (j 0) 0)).toInt ∧ (idx (ix2 (j 0) 0)).toInt < (N : ℤ) then
          some (ix1 ⟨(idx (ix2 (j 0) 0)).toInt.toNat, by omega⟩)
        else none := by
  have hs : ∀ a, d.start j idx a + (d.window j a : ℤ) = (idx (ix2 (j 0) 0)).toInt := fun a => by
    rw [start_eq d hsd hiv, window_eq d huw]; exact Int.add_zero _
  have hsz : ∀ a : Fin 1, (((⟨1, ![N]⟩ : Shape).size a : ℕ) : ℤ) = (N : ℤ) := fun a => by
    rw [Subsingleton.elim a 0]; rfl
  unfold ScatterDims.resultIdx?
  by_cases h : 0 ≤ (idx (ix2 (j 0) 0)).toInt ∧ (idx (ix2 (j 0) 0)).toInt < (N : ℤ)
  · rw [dif_pos h, dif_pos (fun a => by rw [hs a, hsz a]; exact h)]
    refine congrArg some (funext fun a => ?_)
    match a with
    | ⟨0, _⟩ => exact Fin.ext (congrArg Int.toNat (hs _))
  · rw [dif_neg h, dif_neg (fun h' => h (by have := h' 0; rwa [hs 0, hsz 0] at this))]

variable {v : Nat}

theorem step_apply (d : ScatterDims ⟨1, ![N]⟩ ⟨2, ![n, 1]⟩ ⟨1, ![n]⟩) (huw : d.updateWindowDims = [])
    (hsd : d.scatterDimsToOperandDims = [0]) (hiv : d.indexVectorDim = 1) (idx : IVec ⟨2, ![n, 1]⟩ w)
    (r : (⟨1, ![N]⟩ : Shape).Idx → BitVec v) (p : Fin (⟨1, ![n]⟩ : Shape).numel) (c : Fin N) :
    step d IntOp.addi idx (fun _ => 1#v) r p (ix1 c)
      = r (ix1 c) + (if (idx (ix2 ((⟨1, ![n]⟩ : Shape).rowMajor.symm p 0) 0)).toInt = (c.val : ℤ) then 1#v else 0#v) := by
  unfold step
  rw [resultIdx?_eq d huw hsd hiv]
  generalize (⟨1, ![n]⟩ : Shape).rowMajor.symm p = j
  have hcN := c.isLt
  by_cases h : 0 ≤ (idx (ix2 (j 0) 0)).toInt ∧ (idx (ix2 (j 0) 0)).toInt < (N : ℤ)
  · rw [dif_pos h]
    dsimp only
    by_cases hc : (idx (ix2 (j 0) 0)).toInt = (c.val : ℤ)
    · have e : ix1 c = ix1 (⟨(idx (ix2 (j 0) 0)).toInt.toNat, by omega⟩ : Fin N) :=
        congrArg ix1 (Fin.ext (by show c.val = (idx (ix2 (j 0) 0)).toInt.toNat; omega))
      rw [if_pos hc, if_pos e, ← e]; rfl
    · have e : ¬ ix1 c = ix1 (⟨(idx (ix2 (j 0) 0)).toInt.toNat, by omega⟩ : Fin N) := fun e => hc (by
        have := congrArg (fun k : (⟨1, ![N]⟩ : Shape).Idx => (k 0).val) e
        change c.val = (idx (ix2 (j 0) 0)).toInt.toNat at this
        omega)
      rw [if_neg hc, if_neg e, BitVec.add_zero]
  · rw [dif_neg h, if_neg (by omega), BitVec.add_zero]

theorem foldl_count (d : ScatterDims ⟨1, ![N]⟩ ⟨2, ![n, 1]⟩ ⟨1, ![n]⟩) (huw : d.updateWindowDims = [])
    (hsd : d.scatterDimsToOperandDims = [0]) (hiv : d.indexVectorDim = 1) (idx : IVec ⟨2, ![n, 1]⟩ w)
    (L : List (Fin (⟨1, ![n]⟩ : Shape).numel)) (r : (⟨1, ![N]⟩ : Shape).Idx → BitVec v) (c : Fin N) :
    (L.foldl (step d IntOp.addi idx (fun _ => 1#v)) r) (ix1 c)
      = r (ix1 c) + BitVec.ofNat v (L.countP fun p =>
          decide ((idx (ix2 ((⟨1, ![n]⟩ : Shape).rowMajor.symm p 0) 0)).toInt = (c.val : ℤ))) := by
  induction L generalizing r with
  | nil => simp
  | cons p L ih =>
    rw [List.foldl_cons, ih, step_apply d huw hsd hiv idx r p c, List.countP_cons]
    by_cases hc : (idx (ix2 ((⟨1, ![n]⟩ : Shape).rowMajor.symm p 0) 0)).toInt = (c.val : ℤ)
    · simp only [hc, if_true, decide_true, BitVec.ofNat_add, BitVec.add_assoc]
      rw [BitVec.add_comm (BitVec.ofNat v _)]
    · simp [hc]

theorem countP_finRange (k : ℕ) (P : Fin k → Prop) [DecidablePred P] :
    (List.finRange k).countP (fun p => decide (P p)) = (Finset.univ.filter P).card := by
  rw [List.countP_eq_length_filter]
  simp [Finset.card, Finset.filter, Fin.univ_def]

theorem scatter_count_word (d : ScatterDims ⟨1, ![N]⟩ ⟨2, ![n, 1]⟩ ⟨1, ![n]⟩) (huw : d.updateWindowDims = [])
    (hsd : d.scatterDimsToOperandDims = [0]) (hiv : d.indexVectorDim = 1) (idx : IVec ⟨2, ![n, 1]⟩ w) (c : Fin N) :
    Host.scatter d IntOp.addi (fun _ => 0#v) idx (fun _ => 1#v) (ix1 c)
      = BitVec.ofNat v (Finset.univ.filter fun p : Fin n => (idx (ix2 p 0)).toInt = (c.val : ℤ)).card := by
  rw [scatter_eq_foldl, foldl_count d huw hsd hiv idx, BitVec.zero_add, countP_finRange]
  refine congrArg (BitVec.ofNat v) ?_
  exact Finset.card_equiv ((⟨1, ![n]⟩ : Shape).rowMajor.symm.trans idxEquiv1) (fun p => by
    simp only [Finset.mem_filter, Finset.mem_univ, true_and]; exact Iff.rfl)

theorem scatter_count (d : ScatterDims ⟨1, ![N]⟩ ⟨2, ![n, 1]⟩ ⟨1, ![n]⟩) (huw : d.updateWindowDims = [])
    (hsd : d.scatterDimsToOperandDims = [0]) (hiv : d.indexVectorDim = 1) (idx : IVec ⟨2, ![n, 1]⟩ w)
    (hn : n < 2 ^ v) (c : Fin N) :
    (Host.scatter d IntOp.addi (fun _ => 0#v) idx (fun _ => 1#v) (ix1 c)).toNat
      = (Finset.univ.filter fun p : Fin n => (idx (ix2 p 0)).toInt = (c.val : ℤ)).card := by
  rw [scatter_count_word d huw hsd hiv, BitVec.toNat_ofNat]
  refine Nat.mod_eq_of_lt (lt_of_le_of_lt ?_ hn)
  exact (Finset.card_le_univ _).trans (le_of_eq (Fintype.card_fin n))

end Cert.LibScatterAdd
-- ==== Proof.LibCount.lean ====
import Mathlib.Algebra.BigOperators.Ring.Finset
import Mathlib.Algebra.BigOperators.Group.Finset.Piecewise
import Mathlib.Algebra.BigOperators.Group.Finset.Sigma
import Mathlib.Algebra.Order.BigOperators.Group.Finset
import proofs.«419856_j5566277616543_1_alg».proof.Proof.Spec

namespace Cert.LibCount

open Finset Idealize.ShloMosaic

theorem sum_card_mul_card {n k N : ℕ} (l : Fin n → ℕ) (q : Fin k → ℕ) (hl : ∀ i, l i < N) :
    ∑ c : Fin N, (Finset.univ.filter fun i : Fin n => l i = c.val).card * (Finset.univ.filter fun j : Fin k => q j = c.val).card
      = ∑ i : Fin n, ∑ j : Fin k, if q j = l i then 1 else 0 := by
  simp only [Finset.card_filter, Finset.sum_mul_sum]
  rw [Finset.sum_comm]
  refine Finset.sum_congr rfl fun i _ => ?_
  rw [Finset.sum_comm]
  refine Finset.sum_congr rfl fun j _ => ?_
  rw [Finset.sum_eq_single (⟨l i, hl i⟩ : Fin N)]
  · simp
  · intro c _ hc
    have : l i ≠ c.val := fun h => hc (Fin.ext h.symm)
    simp [this]
  · intro h; exact absurd (Finset.mem_univ _) h

abbrev wrap (x : BitVec 32) : BitVec 32 := Scalar.select (IntOp.cmpi .slt x 0#32) (IntOp.addi x 8192#32) x

theorem wrap_eq (x : BitVec 32) (hx : 0 ≤ x.toInt) : wrap x = x := by
  have h0 : (0#32 : BitVec 32).toInt = 0 := by decide
  have hc : IntOp.cmpi .slt x 0#32 = 0#1 := by
    show BitVec.ofBool (x.slt 0#32) = 0#1
    rw [show x.slt 0#32 = false from by simp only [BitVec.slt, h0, decide_eq_false_iff_not]; omega]
    rfl
  show Scalar.select (IntOp.cmpi .slt x 0#32) (IntOp.addi x 8192#32) x = x
  rw [hc]
  exact if_neg (by decide)

theorem nPos_le (lab : Fin 1024 → BitVec 32) (ql : Fin 8192 → BitVec 32) : Cert.Spec.nPos lab ql ≤ 1024 * 8192 := by
  unfold Cert.Spec.nPos
  calc (∑ i : Fin 1024, ∑ j : Fin 8192, if ql j = lab i then 1 else 0)
      ≤ ∑ _i : Fin 1024, ∑ _j : Fin 8192, 1 :=
        Finset.sum_le_sum fun i _ => Finset.sum_le_sum fun j _ => by split <;> omega
    _ = 1024 * 8192 := by simp

theorem nPos_lt (lab : Fin 1024 → BitVec 32) (ql : Fin 8192 → BitVec 32) : Cert.Spec.nPos lab ql < 2 ^ 31 :=
  lt_of_le_of_lt (nPos_le lab ql) (by norm_num)

theorem sum_card_mul_card_words (lab : Fin 1024 → BitVec 32) (ql : Fin 8192 → BitVec 32)
    (hlab : ∀ i, 0 ≤ (lab i).toInt ∧ (lab i).toInt < 8192) (hql : ∀ j, 0 ≤ (ql j).toInt) :
    ∑ c : Fin 8192, (Finset.univ.filter fun i : Fin 1024 => (lab i).toInt = (c.val : ℤ)).card
        * (Finset.univ.filter fun j : Fin 8192 => (ql j).toInt = (c.val : ℤ)).card
      = Cert.Spec.nPos lab ql := by
  calc ∑ c : Fin 8192, (Finset.univ.filter fun i : Fin 1024 => (lab i).toInt = (c.val : ℤ)).card
          * (Finset.univ.filter fun j : Fin 8192 => (ql j).toInt = (c.val : ℤ)).card
      = ∑ c : Fin 8192, (Finset.univ.filter fun i : Fin 1024 => (lab i).toInt.toNat = c.val).card
          * (Finset.univ.filter fun j : Fin 8192 => (ql j).toInt.toNat = c.val).card := by
        refine Finset.sum_congr rfl fun c _ => ?_
        rw [Finset.filter_congr (fun i _ => (by have := (hlab i).1; omega :
              (lab i).toInt = (c.val : ℤ) ↔ (lab i).toInt.toNat = c.val)),
          Finset.filter_congr (fun j _ => (by have := hql j; omega :
              (ql j).toInt = (c.val : ℤ) ↔ (ql j).toInt.toNat = c.val))]
    _ = ∑ i : Fin 1024, ∑ j : Fin 8192, if (ql j).toInt.toNat = (lab i).toInt.toNat then 1 else 0 :=
        sum_card_mul_card (fun i => (lab i).toInt.toNat) (fun j => (ql j).toInt.toNat)
          (fun i => by have := hlab i; omega)
    _ = Cert.Spec.nPos lab ql := by
        unfold Cert.Spec.nPos
        refine Finset.sum_congr rfl fun i _ => Finset.sum_congr rfl fun j _ => if_congr ?_ rfl rfl
        constructor
        · intro h
          exact BitVec.eq_of_toInt_eq (by have := (hlab i).1; have := hql j; omega)
        · intro h; rw [h]

end Cert.LibCount
-- ==== Proof.KI.Tail.lean ====
import proofs.«419856_j5566277616543_1_alg».proof.Proof.Gen.KernelIdeal.Regions
import proofs.«419856_j5566277616543_1_alg».proof.Proof.Spec
import proofs.«419856_j5566277616543_1_alg».proof.Proof.LibScatterAdd
import proofs.«419856_j5566277616543_1_alg».proof.Proof.LibCount
import Idealize.ShloMosaic.Lib.StableHlo.Run
import Idealize.ShloMosaic.Lib.StableHlo.Predicate
import Idealize.ShloMosaic.PureOps.Ideal.Laws
import Idealize.ShloMosaic.Lib.Pipeline.Value
import Idealize.ShloMosaic.Lib.ValueIdxRank1

set_option maxRecDepth 16384

noncomputable section

namespace Cert.KernelIdeal.Hand

open Cert.KernelIdeal Cert.KernelIdeal.Gen
open Idealize.ShloMosaic Idealize.ShloMosaic.TcCoe Idealize.ShloMosaic.ValueIdx

theorem bcast_col_apply {α : Type} {n : Nat} (h₁ : (⟨1, ![n]⟩ : Shape).BroadcastsInDim ⟨2, ![n, 1]⟩ ![0])
    (v : (⟨1, ![n]⟩ : Shape).Idx → α) (p : Fin n) :
    broadcastInDim ⟨2, ![n, 1]⟩ ![0] h₁ v (ix2 p (0 : Fin 1)) = v (ix1 p) := by
  have e1 : (ix2 p (0 : Fin 1) : (⟨2, ![n, 1]⟩ : Shape).Idx) = StableHlo.Predicate.ixP p := by
    funext a; match a with | ⟨0, _⟩ => rfl | ⟨1, _⟩ => rfl
  have e2 : (Shape.Idx.ofFin p : (⟨1, ![n]⟩ : Shape).Idx) = ix1 p := by
    funext a; match a with | ⟨0, _⟩ => rfl
  rw [e1, StableHlo.Predicate.bcast_col1 h₁ v p, e2]

abbrev labCol (lab : IVec S1024 32) : IVec S1024x1 32 :=
  broadcastInDim S1024x1 ![0] bcast_S1024_S1024x1_0
    (select (cmpi CmpIPredicate.slt lab (broadcastInDim S1024 ![] bcast_S_S1024 (constantI S_ 32 0#32)))
      (addi lab (broadcastInDim S1024 ![] bcast_S_S1024 (constantI S_ 32 8192#32))) lab)

abbrev qlCol (ql : IVec S8192 32) : IVec S8192x1 32 :=
  broadcastInDim S8192x1 ![0] bcast_S8192_S8192x1_0
    (select (cmpi CmpIPredicate.slt ql (broadcastInDim S8192 ![] bcast_S_S8192 (constantI S_ 32 0#32)))
      (addi ql (broadcastInDim S8192 ![] bcast_S_S8192 (constantI S_ 32 8192#32))) ql)

theorem labCol_apply (lab : IVec S1024 32) (i : Fin 1024) (h : 0 ≤ (lab (ix1 i)).toInt) :
    labCol lab (ix2 i (0 : Fin 1)) = lab (ix1 i) :=
  (bcast_col_apply bcast_S1024_S1024x1_0 _ i).trans (Cert.LibCount.wrap_eq (lab (ix1 i)) h)

theorem qlCol_apply (ql : IVec S8192 32) (j : Fin 8192) (h : 0 ≤ (ql (ix1 j)).toInt) :
    qlCol ql (ix2 j (0 : Fin 1)) = ql (ix1 j) :=
  (bcast_col_apply bcast_S8192_S8192x1_0 _ j).trans (Cert.LibCount.wrap_eq (ql (ix1 j)) h)

abbrev histB (lab : IVec S1024 32) : IVec S8192 32 :=
  Host.scatter scatter_S8192_S1024x1_S1024_n_0_0_1 IntOp.addi (broadcastInDim S8192 ![] bcast_S_S8192 (constantI S_ 32 0#32))
    (labCol lab) (broadcastInDim S1024 ![] bcast_S_S1024 (constantI S_ 32 1#32))

abbrev histQ (ql : IVec S8192 32) : IVec S8192 32 :=
  Host.scatter scatter_S8192_S8192x1_S8192_n_0_0_1 IntOp.addi (broadcastInDim S8192 ![] bcast_S_S8192 (constantI S_ 32 0#32))
    (qlCol ql) (broadcastInDim S8192 ![] bcast_S_S8192 (constantI S_ 32 1#32))

theorem histB_toNat (lab : IVec S1024 32) (hlab : ∀ i : Fin 1024, 0 ≤ (lab (ix1 i)).toInt) (c : Fin 8192) :
    (histB lab (ix1 c)).toNat = (Finset.univ.filter fun i : Fin 1024 => (lab (ix1 i)).toInt = (c.val : ℤ)).card := by
  have e := Cert.LibScatterAdd.scatter_count (v := 32) scatter_S8192_S1024x1_S1024_n_0_0_1 rfl rfl rfl (labCol lab)
    (by norm_num) c
  refine Eq.trans ?_ (e.trans ?_)
  · rfl
  · exact congrArg Finset.card (Finset.filter_congr fun i _ => by rw [labCol_apply lab i (hlab i)])

theorem histQ_toNat (ql : IVec S8192 32) (hql : ∀ j : Fin 8192, 0 ≤ (ql (ix1 j)).toInt) (c : Fin 8192) :
    (histQ ql (ix1 c)).toNat = (Finset.univ.filter fun j : Fin 8192 => (ql (ix1 j)).toInt = (c.val : ℤ)).card := by
  have e := Cert.LibScatterAdd.scatter_count (v := 32) scatter_S8192_S8192x1_S8192_n_0_0_1 rfl rfl rfl (qlCol ql)
    (by norm_num) c
  refine Eq.trans ?_ (e.trans ?_)
  · rfl
  · exact congrArg Finset.card (Finset.filter_congr fun j _ => by rw [qlCol_apply ql j (hql j)])

theorem count_word (lab : IVec S1024 32) (ql : IVec S8192 32)
    (hlab : ∀ i : Fin 1024, 0 ≤ (lab (ix1 i)).toInt ∧ (lab (ix1 i)).toInt < 8192)
    (hql : ∀ j : Fin 8192, 0 ≤ (ql (ix1 j)).toInt) :
    Host.reduce IntOp.addi (muli (histB lab) (histQ ql)) (constantI S_ 32 0#32) reducesTo_S8192_S_d0 h_S_ ix0
      = BitVec.ofNat 32 (Cert.Spec.nPos (fun i => lab (ix1 i)) (fun j => ql (ix1 j))) := by
  classical
  rw [Host.reduce_eq_fold IntOp.addi _ _ reducesTo_S8192_S_d0 h_S_ ix0,
    Finset.filter_true_of_mem fun i _ => funext fun b => b.elim0]
  have hB : ∀ c : Fin 8192, (histB lab (ix1 c)).toNat ≤ 1024 := fun c => by
    rw [histB_toNat lab (fun i => (hlab i).1) c]
    exact (Finset.card_le_univ _).trans (le_of_eq (Fintype.card_fin 1024))
  have hQ : ∀ c : Fin 8192, (histQ ql (ix1 c)).toNat ≤ 8192 := fun c => by
    rw [histQ_toNat ql hql c]
    exact (Finset.card_le_univ _).trans (le_of_eq (Fintype.card_fin 8192))
  have hval : ∀ c : Fin 8192, (muli (histB lab) (histQ ql) (ix1 c)).toNat
      = (Finset.univ.filter fun i : Fin 1024 => (lab (ix1 i)).toInt = (c.val : ℤ)).card
        * (Finset.univ.filter fun j : Fin 8192 => (ql (ix1 j)).toInt = (c.val : ℤ)).card := fun c => by
    show (histB lab (ix1 c) * histQ ql (ix1 c)).toNat = _
    rw [BitVec.toNat_mul, ← histB_toNat lab (fun i => (hlab i).1) c, ← histQ_toNat ql hql c]
    have h1 := hB c; have h2 := hQ c
    exact Nat.mod_eq_of_lt (lt_of_le_of_lt (Nat.mul_le_mul h1 h2) (by norm_num))
  have hsum : ∑ i : S8192.Idx, (muli (histB lab) (histQ ql) i).toNat
      = Cert.Spec.nPos (fun i => lab (ix1 i)) (fun j => ql (ix1 j)) := by
    rw [← Equiv.sum_comp (idxEquiv1 (n := 8192)).symm fun i : S8192.Idx => (muli (histB lab) (histQ ql) i).toNat]
    show ∑ c : Fin 8192, (muli (histB lab) (histQ ql) (ix1 c)).toNat = _
    rw [Finset.sum_congr rfl fun c _ => hval c]
    exact Cert.LibCount.sum_card_mul_card_words (fun i => lab (ix1 i)) (fun j => ql (ix1 j)) hlab hql
  have hlt := Cert.LibCount.nPos_lt (fun i => lab (ix1 i)) (fun j => ql (ix1 j))
  apply BitVec.eq_of_toNat_eq
  show (Finset.fold IntOp.addi 0#32 (muli (histB lab) (histQ ql)) Finset.univ).toNat = _
  rw [StableHlo.Predicate.toNat_fold_addi _ _ (by rw [hsum]; omega), hsum, BitVec.toNat_ofNat]
  exact (Nat.mod_eq_of_lt (by omega)).symm

theorem tail_eval (rl : FVec Ideal S1024x1 .f32) (lab : IVec S1024 32) (ql : IVec S8192 32)
    (hlab : ∀ i : Fin 1024, 0 ≤ (lab (ix1 i)).toInt ∧ (lab (ix1 i)).toInt < 8192)
    (hql : ∀ j : Fin 8192, 0 ≤ (ql (ix1 j)).toInt) :
    (Host.divf (Host.reduceAdd rl (constant S_ .f32 0x00000000#32) reducesTo_S1024x1_S_d0_1 h_S_)
        (sitofp .f32 (maxsi
          (Host.reduce IntOp.addi (muli (histB lab) (histQ ql)) (constantI S_ 32 0#32) reducesTo_S8192_S_d0 h_S_)
          (constantI S_ 32 1#32))) : FVec Ideal S_ .f32) ix0
      = Ideal.div (∑ i : Fin 1024, rl (ix2 i (0 : Fin 1)))
          (FloatOps.sitofp (F := Ideal) .f32
            (IntOp.maxsi (BitVec.ofNat 32 (Cert.Spec.nPos (fun i => lab (ix1 i)) (fun j => ql (ix1 j)))) 1#32)) := by
  have hs : Ideal.hostReduceAdd reducesTo_S1024x1_S_d0_1 rl (Ideal.ofBits .f32 0x00000000#32) ix0
      = ∑ i : Fin 1024, rl (ix2 i (0 : Fin 1)) := by
    rw [Ideal.hostReduceAdd_total _ (fun b => b.elim0), Ideal.ofBits_zero_f32, zero_add, sum_idx2]
    exact Finset.sum_congr rfl fun i _ => Fin.sum_univ_one _
  show Ideal.div (Ideal.hostReduceAdd reducesTo_S1024x1_S_d0_1 rl (Ideal.ofBits .f32 0x00000000#32) ix0)
      (FloatOps.sitofp (F := Ideal) .f32 (IntOp.maxsi
        (Host.reduce IntOp.addi (muli (histB lab) (histQ ql)) (constantI S_ 32 0#32) reducesTo_S8192_S_d0 h_S_ ix0) 1#32)) = _
  rw [hs, count_word lab ql hlab hql]

variable (m : (ℓ : Loc nD τ sig) → Buf (Elt Ideal) ℓ) (outs : Outs (F := Ideal))

theorem V22_v73 (c : Dev nD)
    (hlab : ∀ i : Fin 1024, 0 ≤ (m ((c : Thread nD τ).loc main_arg2) (ix1 i)).toInt
      ∧ (m ((c : Thread nD τ).loc main_arg2) (ix1 i)).toInt < 8192)
    (hql : ∀ j : Fin 8192, 0 ≤ (V19 (F := Ideal) m c main_v3 (ix1 j)).toInt) :
    V22 (F := Ideal) m outs c main_v73 ix0
      = Ideal.div (∑ i : Fin 1024, outs 21 main_v49 c (ix2 i (0 : Fin 1)))
          (FloatOps.sitofp (F := Ideal) .f32 (IntOp.maxsi (BitVec.ofNat 32
            (Cert.Spec.nPos (fun i => m ((c : Thread nD τ).loc main_arg2) (ix1 i))
              (fun j => V19 (F := Ideal) m c main_v3 (ix1 j)))) 1#32)) := by
  have h49 : V21 (F := Ideal) m outs c main_v49 = outs 21 main_v49 c := Function.update_self ..
  have h2 : V21 (F := Ideal) m outs c main_arg2 = m ((c : Thread nD τ).loc main_arg2) :=
    (V22_of m outs c main_arg2 (by decide)).symm.trans (V22_main_arg2 m outs c)
  have h3 : V21 (F := Ideal) m outs c main_v3 = V19 (F := Ideal) m c main_v3 :=
    (V21_of m outs c main_v3 (by decide)).trans (V20_of m outs c main_v3 (by decide))
  have e : (V22 (F := Ideal) m outs c main_v73 : FVec Ideal S_ .f32)
      = Host.divf (F := Ideal) (Host.reduceAdd (V21 (F := Ideal) m outs c main_v49) (constant S_ .f32 0x00000000#32) reducesTo_S1024x1_S_d0_1 h_S_)
        (sitofp .f32 (maxsi
          (Host.reduce IntOp.addi (muli (histB (V21 (F := Ideal) m outs c main_arg2)) (histQ (V21 (F := Ideal) m outs c main_v3)))
            (constantI S_ 32 0#32) reducesTo_S8192_S_d0 h_S_)
          (constantI S_ 32 1#32))) := by
    show StableHlo.after hostOps2 (V21 (F := Ideal) m outs c) (Proc.devRef .tc main_v73) = _
    generalize V21 (F := Ideal) m outs c = W
    after_results_simp
  rw [e, h49, h2, h3]
  exact tail_eval _ _ _ hlab hql

end Cert.KernelIdeal.Hand
-- ==== Proof.LibScatterSet.lean ====
import Idealize.ShloMosaic.PureOps.ShapeOps
import Idealize.ShloMosaic.Lib.ValueIdx

noncomputable section

namespace Cert.LibScatterSet

open Idealize.ShloMosaic Idealize.ShloMosaic.ValueIdx

theorem foldl_set_apply {α ι κ : Type} [DecidableEq ι] [DecidableEq κ] (T : κ → Option ι) (upd : κ → α) (owner : ι → κ)
    (hown : ∀ p e, T p = some e → p = owner e)
    (step : (ι → α) → κ → (ι → α)) (hstep : ∀ r p e, step r p e = if T p = some e then upd p else r e)
    (L : List κ) (x : ι → α) (e : ι) :
    L.foldl step x e = if owner e ∈ L ∧ T (owner e) = some e then upd (owner e) else x e := by
  induction L generalizing x with
  | nil => simp
  | cons p L ih =>
    rw [List.foldl_cons, ih, hstep]
    by_cases h1 : owner e ∈ L ∧ T (owner e) = some e
    · rw [if_pos h1, if_pos ⟨List.mem_cons_of_mem _ h1.1, h1.2⟩]
    · rw [if_neg h1]
      by_cases h2 : T p = some e
      · have hp := hown p e h2
        subst hp
        rw [if_pos h2, if_pos ⟨List.mem_cons_self, h2⟩]
      · rw [if_neg h2, if_neg]
        rintro ⟨hm, ht⟩
        rcases List.mem_cons.mp hm with h | h
        · exact h2 (h ▸ ht)
        · exact h1 ⟨h, ht⟩

theorem resultIdx?_eq_some_iff {s si u : Shape} {w : Nat} (d : ScatterDims s si u) (j : u.Idx) (idx : IVec si w)
    (e : s.Idx) :
    d.resultIdx? j idx = some e ↔ ∀ a, d.start j idx a + (d.window j a : Int) = ((e a).val : Int) := by
  unfold ScatterDims.resultIdx?
  constructor
  · intro h a
    split at h
    · rename_i hh
      have he := Option.some.inj h
      have hv : (d.start j idx a + d.window j a).toNat = (e a).val := congrArg Fin.val (congrFun he a)
      have := (hh a).1
      omega
    · exact absurd h (by simp)
  · intro h
    have hh : ∀ a, 0 ≤ d.start j idx a + d.window j a ∧ d.start j idx a + d.window j a < s.size a := by
      intro a
      rw [h a]
      exact ⟨Int.natCast_nonneg _, by exact_mod_cast (e a).isLt⟩
    rw [dif_pos hh]
    congr 1
    funext a
    apply Fin.ext
    show (d.start j idx a + d.window j a).toNat = (e a).val
    rw [h a]
    simp

theorem scatter_set_apply_of_owner {α : Type} {s si u : Shape} {w : Nat} (d : ScatterDims s si u)
    (x : s.Idx → α) (idx : IVec si w) (upd : u.Idx → α) (owner : s.Idx → u.Idx)
    (hown : ∀ p e, d.resultIdx? p idx = some e → p = owner e) (e : s.Idx) :
    Host.scatter d (fun _ b => b) x idx upd e
      = if d.resultIdx? (owner e) idx = some e then upd (owner e) else x e := by
  unfold Host.scatter
  rw [foldl_set_apply (fun n => d.resultIdx? (u.rowMajor.symm n) idx) (fun n => upd (u.rowMajor.symm n))
    (fun e => u.rowMajor (owner e))
    (fun n e h => (Equiv.symm_apply_eq _).mp (hown _ e h)) _ (fun r n e' => by
      cases hT : d.resultIdx? (u.rowMajor.symm n) idx with
      | none => simp
      | some i =>
        by_cases hi : e' = i
        · subst hi; simp
        · have : ¬ (some i = some e') := fun h => hi (Option.some.inj h).symm
          simp [hi, this])]
  simp only [List.mem_finRange, true_and, Equiv.symm_apply_apply]

abbrev rowSetDims (R C : Nat)
    (wf : ScatterDims.WF ⟨2, ![R, C]⟩ ⟨2, ![R, 2]⟩ ⟨1, ![R]⟩ [] [0, 1] [0, 1] 1) :
    ScatterDims ⟨2, ![R, C]⟩ ⟨2, ![R, 2]⟩ ⟨1, ![R]⟩ where
  updateWindowDims := []
  insertedWindowDims := [0, 1]
  scatterDimsToOperandDims := [0, 1]
  indexVectorDim := 1
  wf := wf

theorem rowSet_start0 {R C w : Nat} (wf : ScatterDims.WF ⟨2, ![R, C]⟩ ⟨2, ![R, 2]⟩ ⟨1, ![R]⟩ [] [0, 1] [0, 1] 1)
    (idx : IVec ⟨2, ![R, 2]⟩ w) (p : Fin R) :
    (rowSetDims R C wf).start (ix1 p) idx 0 = (idx (ix2 p (0 : Fin 2))).toInt := by
  unfold ScatterDims.start
  rw [dif_pos (show (0 : Fin 2) ∈ (rowSetDims R C wf).scatterDimsToOperandDims from by
    show (0 : Fin 2) ∈ ([0, 1] : List (Fin 2)); decide)]
  refine congrArg (fun k => (idx k).toInt) (funext fun b => Fin.ext ?_)
  match b with
  | ⟨0, _⟩ => rfl
  | ⟨1, _⟩ => rfl

theorem rowSet_start1 {R C w : Nat} (wf : ScatterDims.WF ⟨2, ![R, C]⟩ ⟨2, ![R, 2]⟩ ⟨1, ![R]⟩ [] [0, 1] [0, 1] 1)
    (idx : IVec ⟨2, ![R, 2]⟩ w) (p : Fin R) :
    (rowSetDims R C wf).start (ix1 p) idx 1 = (idx (ix2 p (1 : Fin 2))).toInt := by
  unfold ScatterDims.start
  rw [dif_pos (show (1 : Fin 2) ∈ (rowSetDims R C wf).scatterDimsToOperandDims from by
    show (1 : Fin 2) ∈ ([0, 1] : List (Fin 2)); decide)]
  refine congrArg (fun k => (idx k).toInt) (funext fun b => Fin.ext ?_)
  match b with
  | ⟨0, _⟩ => rfl
  | ⟨1, _⟩ => rfl

theorem rowSet_window {R C : Nat} (wf : ScatterDims.WF ⟨2, ![R, C]⟩ ⟨2, ![R, 2]⟩ ⟨1, ![R]⟩ [] [0, 1] [0, 1] 1)
    (j : (⟨1, ![R]⟩ : Shape).Idx) (a : Fin 2) : (rowSetDims R C wf).window j a = 0 := by
  unfold ScatterDims.window
  rw [dif_neg]
  show a ∉ (⟨2, ![R, C]⟩ : Shape).kept ([0, 1] : List (Fin 2))
  intro hmem
  have hnot : a ∉ ([0, 1] : List (Fin 2)) := by
    simpa [Shape.kept, List.mem_filter] using hmem
  apply hnot
  have h01 : a = 0 ∨ a = 1 := by
    rcases a with ⟨v, hv⟩
    interval_cases v
    · exact Or.inl rfl
    · exact Or.inr rfl
  simpa using h01

theorem rowSet_resultIdx?_iff {R C w : Nat}
    (wf : ScatterDims.WF ⟨2, ![R, C]⟩ ⟨2, ![R, 2]⟩ ⟨1, ![R]⟩ [] [0, 1] [0, 1] 1)
    (idx : IVec ⟨2, ![R, 2]⟩ w) (p : Fin R) (e : (⟨2, ![R, C]⟩ : Shape).Idx) :
    (rowSetDims R C wf).resultIdx? (ix1 p) idx = some e
      ↔ (idx (ix2 p (0 : Fin 2))).toInt = ((e 0).val : Int) ∧ (idx (ix2 p (1 : Fin 2))).toInt = ((e 1).val : Int) := by
  rw [resultIdx?_eq_some_iff]
  constructor
  · intro h
    have h0 := h 0
    have h1 := h 1
    rw [rowSet_start0, rowSet_window] at h0
    rw [rowSet_start1, rowSet_window] at h1
    exact ⟨by simpa using h0, by simpa using h1⟩
  · rintro ⟨h0, h1⟩ a
    match a with
    | ⟨0, _⟩ =>
      show (rowSetDims R C wf).start (ix1 p) idx 0 + ((rowSetDims R C wf).window (ix1 p) 0 : Int) = ((e 0).val : Int)
      rw [rowSet_start0, rowSet_window, h0]; simp
    | ⟨1, _⟩ =>
      show (rowSetDims R C wf).start (ix1 p) idx 1 + ((rowSetDims R C wf).window (ix1 p) 1 : Int) = ((e 1).val : Int)
      rw [rowSet_start1, rowSet_window, h1]; simp

theorem scatter_rowset_apply {α : Type} {R C w : Nat}
    (wf : ScatterDims.WF ⟨2, ![R, C]⟩ ⟨2, ![R, 2]⟩ ⟨1, ![R]⟩ [] [0, 1] [0, 1] 1)
    (x : (⟨2, ![R, C]⟩ : Shape).Idx → α) (idx : IVec ⟨2, ![R, 2]⟩ w) (upd : (⟨1, ![R]⟩ : Shape).Idx → α)
    (hrow : ∀ p : Fin R, (idx (ix2 p (0 : Fin 2))).toInt = (p.val : Int)) (i : Fin R) (j : Fin C) :
    Host.scatter (rowSetDims R C wf) (fun _ b => b) x idx upd (ix2 i j)
      = if (idx (ix2 i (1 : Fin 2))).toInt = (j.val : Int) then upd (ix1 i) else x (ix2 i j) := by
  rw [scatter_set_apply_of_owner (rowSetDims R C wf) x idx upd
    (fun e => ix1 (⟨(e 0).val, (e 0).isLt⟩ : Fin R)) (fun p e h => by
      obtain ⟨q, rfl⟩ : ∃ q : Fin R, p = ix1 q := ⟨p 0, eq_ix1 p⟩
      have h0 := ((rowSet_resultIdx?_iff wf idx q e).mp h).1
      rw [hrow] at h0
      have hq : q = (⟨(e 0).val, (e 0).isLt⟩ : Fin R) := Fin.ext (by exact_mod_cast h0)
      rw [hq])]
  show (if (rowSetDims R C wf).resultIdx? (ix1 i) idx = some (ix2 i j) then upd (ix1 i) else x (ix2 i j)) = _
  have hiff := rowSet_resultIdx?_iff wf idx i (ix2 i j)
  by_cases hc : (idx (ix2 i (1 : Fin 2))).toInt = (j.val : Int)
  · rw [if_pos hc, if_pos (hiff.mpr ⟨hrow i, hc⟩)]
  · rw [if_neg hc, if_neg (fun h => hc (hiff.mp h).2)]

end Cert.LibScatterSet

end
-- ==== Proof.Ref.EMat.lean ====
import proofs.«419856_j5566277616543_1_alg».proof.Proof.Ref.Stages
import proofs.«419856_j5566277616543_1_alg».proof.Proof.Spec
import proofs.«419856_j5566277616543_1_alg».proof.Proof.LibScatterSet
import Idealize.ShloMosaic.Lib.StableHlo.Predicate
import Idealize.ShloMosaic.Lib.Pipeline.Value
import Idealize.ShloMosaic.Lib.ValueIdx

noncomputable section

namespace Cert.ReferenceIdeal.Hand

open Cert.ReferenceIdeal Cert.ReferenceIdeal.Gen Cert.ReferenceIdeal.Read Idealize.ShloMosaic Idealize.ShloMosaic.ValueIdx
  Idealize.ShloMosaic.StableHlo

theorem slt_zero_of_nonneg (w : BitVec 32) (h : 0 ≤ w.toInt) : IntOp.cmpi .slt w 0#32 = 0#1 := by
  unfold IntOp.cmpi
  show BitVec.ofBool (w.slt 0#32) = 0#1
  have hf : w.slt 0#32 = false := by
    simp only [BitVec.slt, BitVec.toInt_zero]
    exact decide_eq_false (by omega)
  rw [hf]
  rfl

theorem toInt_eq_iff_ofNat_eq (w : BitVec 32) (j : Fin 8192) :
    w.toInt = (j.val : Int) ↔ BitVec.ofNat 32 j.val = w := by
  have hj : j.val < 2 ^ 31 := by have := j.isLt; omega
  constructor
  · intro h
    apply BitVec.eq_of_toInt_eq
    rw [Predicate.toInt_ofNat_small j.val hj, h]
  · intro h
    rw [← h, Predicate.toInt_ofNat_small j.val hj]

theorem v58_row (x2 : (⟨S1024, .i32⟩ : BufTy).Contents (Elt Ideal)) (i : Fin 1024) :
    val_main_v58 (F := Ideal) x2 (ix2 i (0 : Fin 2)) = BitVec.ofNat 32 i.val := by
  unfold val_main_v58
  rw [concatenate_pair_apply_left (1 : Fin S1024x2.rank) _ _ concatenates_S1024x1_S1024x1_S1024x2_d1
    (ix2 i (0 : Fin 2)) rfl (ix2 i (0 : Fin 1)) (fun b => by
      match b with
      | ⟨0, _⟩ => rfl
      | ⟨1, _⟩ => rfl)]
  rw [val_main_v56_apply, val_main_v50_apply, val_main_v47_apply, val_main_v45_apply, val_main_v46_apply,
    val_main_c_14_apply]
  show Scalar.select (IntOp.cmpi .slt (BitVec.ofNat 32 i.val) 0#32) _ (BitVec.ofNat 32 i.val) = BitVec.ofNat 32 i.val
  rw [slt_zero_of_nonneg _ (by
    rw [Predicate.toInt_ofNat_small i.val (by have := i.isLt; omega)]
    exact Int.natCast_nonneg _), select_zero]

theorem v58_col (x2 : (⟨S1024, .i32⟩ : BufTy).Contents (Elt Ideal))
    (hlab : ∀ i : Fin 1024, 0 ≤ (x2 (ix1 i)).toInt ∧ (x2 (ix1 i)).toInt < 8192) (i : Fin 1024) :
    val_main_v58 (F := Ideal) x2 (ix2 i (1 : Fin 2)) = x2 (ix1 i) := by
  unfold val_main_v58
  rw [concatenate_pair_apply_right (1 : Fin S1024x2.rank) _ _ concatenates_S1024x1_S1024x1_S1024x2_d1
    (ix2 i (1 : Fin 2)) rfl rfl (ix2 i (0 : Fin 1)) (fun b hb => by
      match b, hb with
      | ⟨0, _⟩, _ => rfl
      | ⟨1, _⟩, hb => exact absurd rfl hb) rfl]
  rw [val_main_v57_apply, val_main_v55_apply, val_main_v52_apply, val_main_v51_apply, val_main_c_16_apply]
  have hix : idx_main_v57 (ix2 i (0 : Fin 1)) = ix1 i := funext fun a => Fin.ext (by
    match a with
    | ⟨0, _⟩ => rfl)
  rw [hix, slt_zero_of_nonneg _ (hlab i).1, select_zero]

theorem scatter_read (X : (⟨S1024x8192, .f32⟩ : BufTy).Contents (Elt Ideal))
    (U : (⟨S1024, .f32⟩ : BufTy).Contents (Elt Ideal)) (x2 : (⟨S1024, .i32⟩ : BufTy).Contents (Elt Ideal))
    (hlab : ∀ i : Fin 1024, 0 ≤ (x2 (ix1 i)).toInt ∧ (x2 (ix1 i)).toInt < 8192) (i : Fin 1024) (j : Fin 8192) :
    Host.scatter scatter_S1024x8192_S1024x2_S1024_n_01_01_1 (fun _ b => b) X (val_main_v58 (F := Ideal) x2) U (ix2 i j)
      = if BitVec.ofNat 32 j.val = x2 (ix1 i) then U (ix1 i) else X (ix2 i j) := by
  have hd : scatter_S1024x8192_S1024x2_S1024_n_01_01_1
      = Cert.LibScatterSet.rowSetDims 1024 8192 scatter_S1024x8192_S1024x2_S1024_n_01_01_1_wf := rfl
  rw [hd, Cert.LibScatterSet.scatter_rowset_apply scatter_S1024x8192_S1024x2_S1024_n_01_01_1_wf X
    (val_main_v58 (F := Ideal) x2) U (fun p => by
      rw [v58_row x2 p]
      exact Predicate.toInt_ofNat_small p.val (by have := p.isLt; omega)) i j]
  rw [v58_col x2 hlab i]
  by_cases h : BitVec.ofNat 32 j.val = x2 (ix1 i)
  · rw [if_pos h, if_pos ((toInt_eq_iff_ofNat_eq _ j).mpr h)]
  · rw [if_neg h, if_neg (fun h' => h ((toInt_eq_iff_ofNat_eq _ j).mp h'))]

theorem v13_read (x0 x1 : (⟨S1024x2048, .f32⟩ : BufTy).Contents (Elt Ideal))
    (x3 : (⟨S8192x2048, .f32⟩ : BufTy).Contents (Elt Ideal)) (i : Fin 1024) (j : Fin 8192) :
    val_main_v13 (F := Ideal) x0 x1 x3 (ix2 i j)
      = ∑ k : Fin 2048, val_main_v7 (F := Ideal) x0 (ix2 i k) * val_main_v11 (F := Ideal) x1 x3 (ix2 j k) := by
  rw [val_main_v13_apply]
  refine Finset.sum_congr rfl fun k _ => ?_
  rw [val_main_v12_apply]
  have hl : lidx_main_v13 (ix2 i j) k = ix2 i k := funext fun a => Fin.ext (by
    match a with
    | ⟨0, _⟩ => rfl
    | ⟨1, _⟩ => rfl)
  have hr : idx_main_v12 (ridx_main_v13 (ix2 i j) k) = ix2 j k := funext fun a => Fin.ext (by
    match a with
    | ⟨0, _⟩ => rfl
    | ⟨1, _⟩ => rfl)
  rw [hl, hr]

theorem ref_e (x0 x1 : (⟨S1024x2048, .f32⟩ : BufTy).Contents (Elt Ideal))
    (x2 : (⟨S1024, .i32⟩ : BufTy).Contents (Elt Ideal)) (x3 x5 : (⟨S8192x2048, .f32⟩ : BufTy).Contents (Elt Ideal))
    (hlab : ∀ i : Fin 1024, 0 ≤ (x2 (ix1 i)).toInt ∧ (x2 (ix1 i)).toInt < 8192) (i : Fin 1024) (j : Fin 8192) :
    val_main_v67 (F := Ideal) x0 x1 x2 x3 x5 (ix2 i j)
      = Cert.Spec.eAt (val_main_v7 (F := Ideal) x0) (val_main_v11 (F := Ideal) x1 x3) (fun i => x2 (ix1 i))
          (fun i => val_main_v44 (F := Ideal) x0 x2 x5 (ix1 i)) i j := by
  have key : val_main_v59 (F := Ideal) x0 x1 x2 x3 x5 (ix2 i j)
      = Cert.Spec.cosAt (val_main_v7 (F := Ideal) x0) (val_main_v11 (F := Ideal) x1 x3) (fun i => x2 (ix1 i))
          (fun i => val_main_v44 (F := Ideal) x0 x2 x5 (ix1 i)) i j := by
    unfold val_main_v59 Cert.Spec.cosAt
    rw [scatter_read _ _ x2 hlab i j, v13_read]
  rw [val_main_v67_apply, val_main_v66_apply, val_main_v65_apply, val_main_cst_18_apply, key]
  rfl

end Cert.ReferenceIdeal.Hand

end
-- ==== Proof.Ref.Loss.lean ====
import proofs.«419856_j5566277616543_1_alg».proof.Proof.Ref.Stages
import proofs.«419856_j5566277616543_1_alg».proof.Proof.Spec
import Idealize.ShloMosaic.Lib.StableHlo.Predicate
import Idealize.ShloMosaic.PureOps.Ideal.Laws
import Idealize.ShloMosaic.Lib.ValueIdx
import Idealize.ShloMosaic.Lib.Pipeline.Value

noncomputable section

namespace Cert.ReferenceIdeal.Hand

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx
open scoped BigOperators

namespace Loss

theorem count_le {n m : Nat} (p : Fin n → Fin m → Prop) [∀ a b, Decidable (p a b)] :
    (∑ a : Fin n, ∑ b : Fin m, if p a b then 1 else 0) ≤ n * m := by
  calc (∑ a : Fin n, ∑ b : Fin m, if p a b then 1 else 0)
      ≤ ∑ _a : Fin n, ∑ _b : Fin m, 1 :=
        Finset.sum_le_sum fun a _ => Finset.sum_le_sum fun b _ => by split <;> omega
    _ = n * m := by simp

theorem toNat_reduce_count_all {n m : Nat} (hnm : n * m < 2 ^ 32) (mask : IVec ⟨2, ![n, m]⟩ 1) (hw : 1 < 32)
    (h : (⟨2, ![n, m]⟩ : Shape).ReducesTo [0, 1] ⟨0, ![]⟩) {u : Shape} (hu : 0 < u.numel) (j : (⟨0, ![]⟩ : Shape).Idx) :
    (Host.reduce IntOp.addi (extui 32 mask hw) (constantI u 32 0#32) h hu j).toNat
      = ∑ a : Fin n, ∑ b : Fin m, if mask (ix2 a b) = 1#1 then 1 else 0 := by
  classical
  rw [Host.reduce_eq_fold]
  have hall : (Finset.univ.filter fun i : (⟨2, ![n, m]⟩ : Shape).Idx => h.drop i = j) = Finset.univ :=
    Finset.filter_true_of_mem fun i _ => funext fun a => a.elim0
  rw [hall]
  have hsum : ∑ i : (⟨2, ![n, m]⟩ : Shape).Idx, (extui 32 mask hw i).toNat
      = ∑ a : Fin n, ∑ b : Fin m, if mask (ix2 a b) = 1#1 then 1 else 0 := by
    rw [sum_idx2]
    exact Finset.sum_congr rfl fun a _ => Finset.sum_congr rfl fun b _ => Predicate.toNat_setWidth_bit (mask (ix2 a b))
  show (Finset.fold IntOp.addi 0#32 (extui 32 mask hw) Finset.univ).toNat = _
  rw [Predicate.toNat_fold_addi _ _ (by rw [hsum]; exact lt_of_le_of_lt (count_le _) hnm), hsum]

section Stages

variable (x0 x1 : (⟨S1024x2048, .f32⟩ : BufTy).Contents (Elt Ideal)) (x2 : (⟨S1024, .i32⟩ : BufTy).Contents (Elt Ideal))
  (x3 : (⟨S8192x2048, .f32⟩ : BufTy).Contents (Elt Ideal)) (x4 : (⟨S8192, .i32⟩ : BufTy).Contents (Elt Ideal))
  (x5 : (⟨S8192x2048, .f32⟩ : BufTy).Contents (Elt Ideal))

abbrev labOf (x2 : (⟨S1024, .i32⟩ : BufTy).Contents (Elt Ideal)) : Fin 1024 → BitVec 32 := fun i => x2 (ix1 i)
abbrev qlOf (x2 : (⟨S1024, .i32⟩ : BufTy).Contents (Elt Ideal)) (x4 : (⟨S8192, .i32⟩ : BufTy).Contents (Elt Ideal)) :
    Fin 8192 → BitVec 32 := fun j => val_main_v3 (F := Ideal) x2 x4 (ix1 j)

theorem pos_iff (i : Fin 1024) (j : Fin 8192) :
    val_main_v64 (F := Ideal) x2 x4 (ix2 i j) = 1#1 ↔ qlOf x2 x4 j = labOf x2 i := by
  rw [val_main_v64_apply, Predicate.cmpi_eq_iff, val_main_v62_apply, val_main_v60_apply, val_main_v63_apply,
    val_main_v61_apply]
  have h1 : idx_main_v60 (idx_main_v62 (ix2 i j)) = ix1 j := by
    funext a; match a with | ⟨0, _⟩ => rfl
  have h2 : idx_main_v61 (idx_main_v63 (ix2 i j)) = ix1 i := by
    funext a; match a with | ⟨0, _⟩ => rfl
  rw [h1, h2]

variable (E : Fin 1024 → Fin 8192 → EReal)
  (he : ∀ i j, val_main_v67 (F := Ideal) x0 x1 x2 x3 x5 (ix2 i j) = E i j)

include he in
theorem v69_eq (i : Fin 1024) :
    val_main_v69 (F := Ideal) x0 x1 x2 x3 x4 x5 (ix1 i) = Cert.Spec.negSum E (labOf x2) (qlOf x2 x4) i := by
  rw [val_main_v69_apply, val_main_cst_20_apply, Ideal.ofBits_def, Ideal.ofBits_zero_f32, zero_add]
  unfold Cert.Spec.negSum
  refine Finset.sum_congr rfl fun k _ => ?_
  have hk : idx_main_v69 (ix1 i) k = ix2 i k := by
    funext a; match a with | ⟨0, _⟩ => rfl | ⟨1, _⟩ => rfl
  rw [hk, val_main_v68_apply, he]
  by_cases h : qlOf x2 x4 k = labOf x2 i
  · rw [if_pos h, (pos_iff x2 x4 i k).2 h, select_one, val_main_call9_v1_apply, val_main_call9_v0_apply,
      val_main_cst_19_apply, Ideal.ofBits_def, Ideal.ofBits_zero_f32]
  · rw [if_neg h, eq_zero_of_ne_one (fun h1 => h ((pos_iff x2 x4 i k).1 h1)), select_zero]

include he in
theorem v79_eq (i : Fin 1024) (j : Fin 8192) :
    val_main_v79 (F := Ideal) x0 x1 x2 x3 x4 x5 (ix2 i j)
      = Cert.Spec.pairLoss (E i j) (Cert.Spec.negSum E (labOf x2) (qlOf x2 x4) i) := by
  rw [val_main_v79_apply, val_main_v78_apply, val_main_v77_apply, val_main_v72_apply, val_main_v76_apply,
    val_main_v74_apply, val_main_v73_apply, val_main_v70_apply, val_main_v71_apply, val_main_v75_apply,
    val_main_cst_21_apply, val_main_cst_22_apply, he]
  have h : idx_main_v70 (idx_main_v73 (ix2 i j)) = ix1 i := by
    funext a; match a with | ⟨0, _⟩ => rfl
  rw [h, v69_eq x0 x1 x2 x3 x4 x5 E he i]
  rfl

include he in
theorem v84_eq :
    val_main_v84 (F := Ideal) x0 x1 x2 x3 x4 x5 ix0
      = Cert.Spec.total E (Cert.Spec.negSum E (labOf x2) (qlOf x2 x4)) (labOf x2) (qlOf x2 x4) := by
  rw [val_main_v84_apply, val_main_cst_26_apply, Ideal.ofBits_def, Ideal.ofBits_zero_f32, zero_add, sum_idx2]
  unfold Cert.Spec.total Cert.Spec.rowLoss
  refine Finset.sum_congr rfl fun i _ => Finset.sum_congr rfl fun j _ => ?_
  rw [val_main_v83_apply]
  by_cases h : qlOf x2 x4 j = labOf x2 i
  · rw [if_pos h, (pos_iff x2 x4 i j).2 h, select_one, v79_eq x0 x1 x2 x3 x4 x5 E he i j]
  · rw [if_neg h, eq_zero_of_ne_one (fun h1 => h ((pos_iff x2 x4 i j).1 h1)), select_zero, val_main_call10_v1_apply,
      val_main_call10_v0_apply, val_main_cst_25_apply, Ideal.ofBits_def, Ideal.ofBits_zero_f32]

theorem v81_eq :
    val_main_v81 (F := Ideal) x2 x4 ix0 = BitVec.ofNat 32 (Cert.Spec.nPos (labOf x2) (qlOf x2 x4)) := by
  have hlt : Cert.Spec.nPos (labOf x2) (qlOf x2 x4) < 2 ^ 32 :=
    lt_of_le_of_lt (count_le fun i j => qlOf x2 x4 j = labOf x2 i) (by norm_num)
  apply BitVec.eq_of_toNat_eq
  rw [BitVec.toNat_ofNat, Nat.mod_eq_of_lt hlt]
  unfold val_main_v81 val_main_v80 val_main_c_23
  rw [toNat_reduce_count_all (by norm_num)]
  unfold Cert.Spec.nPos
  exact Finset.sum_congr rfl fun i _ => Finset.sum_congr rfl fun j _ => if_congr (pos_iff x2 x4 i j) rfl rfl

include he in
theorem ref_loss_of_e' :
    val_main_v86 (F := Ideal) x0 x1 x2 x3 x4 x5 ix0
      = Ideal.div (Cert.Spec.total E (Cert.Spec.negSum E (labOf x2) (qlOf x2 x4)) (labOf x2) (qlOf x2 x4))
          (FloatOps.sitofp (F := Ideal) .f32
            (IntOp.maxsi (BitVec.ofNat 32 (Cert.Spec.nPos (labOf x2) (qlOf x2 x4))) 1#32)) := by
  rw [val_main_v86_apply, val_main_v85_apply, val_main_v82_apply, val_main_c_24_apply, v81_eq x2 x4,
    v84_eq x0 x1 x2 x3 x4 x5 E he, Ideal.hostDivf_def]

end Stages

end Loss

theorem ref_loss_of_e (x0 x1 : (⟨S1024x2048, .f32⟩ : BufTy).Contents (Elt Ideal))
    (x2 : (⟨S1024, .i32⟩ : BufTy).Contents (Elt Ideal)) (x3 : (⟨S8192x2048, .f32⟩ : BufTy).Contents (Elt Ideal))
    (x4 : (⟨S8192, .i32⟩ : BufTy).Contents (Elt Ideal)) (x5 : (⟨S8192x2048, .f32⟩ : BufTy).Contents (Elt Ideal))
    (E : Fin 1024 → Fin 8192 → EReal)
    (he : ∀ i j, Cert.ReferenceIdeal.Read.val_main_v67 (F := Ideal) x0 x1 x2 x3 x5 (ix2 i j) = E i j) :
    Cert.ReferenceIdeal.Read.val_main_v86 (F := Ideal) x0 x1 x2 x3 x4 x5 ix0
      = Ideal.div
          (Cert.Spec.total E
            (Cert.Spec.negSum E (fun i : Fin 1024 => x2 (ix1 i))
              (fun j : Fin 8192 => Cert.ReferenceIdeal.Read.val_main_v3 (F := Ideal) x2 x4 (ix1 j)))
            (fun i : Fin 1024 => x2 (ix1 i))
            (fun j : Fin 8192 => Cert.ReferenceIdeal.Read.val_main_v3 (F := Ideal) x2 x4 (ix1 j)))
          (FloatOps.sitofp (F := Ideal) .f32
            (IntOp.maxsi
              (BitVec.ofNat 32
                (Cert.Spec.nPos (fun i : Fin 1024 => x2 (ix1 i))
                  (fun j : Fin 8192 => Cert.ReferenceIdeal.Read.val_main_v3 (F := Ideal) x2 x4 (ix1 j))))
              1#32)) :=
  Loss.ref_loss_of_e' x0 x1 x2 x3 x4 x5 E he

end Cert.ReferenceIdeal.Hand

end
-- ==== Proof.Bridge.lean ====
import proofs.«419856_j5566277616543_1_alg».proof.Proof.Assemble
import proofs.«419856_j5566277616543_1_alg».proof.Proof.KI.RunVal
import proofs.«419856_j5566277616543_1_alg».proof.Proof.KI.Val0
import proofs.«419856_j5566277616543_1_alg».proof.Proof.KI.Val1
import proofs.«419856_j5566277616543_1_alg».proof.Proof.KI.HostVals
import proofs.«419856_j5566277616543_1_alg».proof.Proof.KI.HostCf
import proofs.«419856_j5566277616543_1_alg».proof.Proof.KI.Tail
import proofs.«419856_j5566277616543_1_alg».proof.Proof.Ref.EMat
import proofs.«419856_j5566277616543_1_alg».proof.Proof.Ref.Loss

noncomputable section

namespace Cert.Proof.Bridge

open Idealize.ShloMosaic Idealize.ShloMosaic.TcCoe Idealize.SL.Sem Idealize.ShloMosaic.ValueIdx
open Cert.KernelIdeal Cert.KernelIdeal.Gen Cert.KernelIdeal.Hand

abbrev outsI (m : (ℓ : Loc nD τ sig) → Buf (Elt Ideal) ℓ) : Outs (F := Ideal) := Cert.KernelIdeal.Hand.outs (F := Ideal) m

theorem kernel_loss (m : (ℓ : Loc nD τ sig) → Buf (Elt Ideal) ℓ) (hP : Cert.Pre_finite_inputs.Facts)
    (hpre : Cert.Pre_KernelIdeal (hPre_finite_inputs := hP) m) (c : Dev nD) :
    V22 (F := Ideal) m (outsI m) c main_v73 ix0
      = Cert.Spec.loss (Cert.ReferenceIdeal.Read.val_main_v7 (F := Ideal) (Assemble.a0 m c)) (Cert.ReferenceIdeal.Read.val_main_v11 (F := Ideal) (Assemble.a1 m c) (Assemble.a3 m c))
          (fun i => Assemble.a2 m c (ix1 i)) (fun j => Cert.ReferenceIdeal.Read.val_main_v3 (F := Ideal) (Assemble.a2 m c) (Assemble.a4 m c) (ix1 j))
          (fun i => Cert.ReferenceIdeal.Read.val_main_v44 (F := Ideal) (Assemble.a0 m c) (Assemble.a2 m c) (Assemble.a5 m c) (ix1 i)) := by
  refine Assemble.kernel_value outsI m c (V19_v43 m c) (V19_v44 m c) (V19_v45 m c) (V19_v46 m c) (V19_v3 m c) (V19_v47 m c) ?_ ?_ ?_ ?_
  · intro i j
    rw [show outsI m 20 main_v48_0 c = _ from outs_20_0 m c]
    exact arr0_5 (fun c b => V19 (F := Ideal) m c b) c i j
  · intro i
    rw [show outsI m 20 main_v48_1 c = _ from outs_20_1 m c]
    exact arr0_6 (fun c b => V19 (F := Ideal) m c b) c i
  · intro i
    rw [show outsI m 21 main_v49 c = _ from outs_21 m c]
    exact arr1_4 (fun c b => V20 (F := Ideal) m (outsI m) c b) c i
  · exact V22_v73 m (outsI m) c (lab_range m hpre c) (fun j => by rw [V19_v3]; exact ql_nonneg m hpre c j)

theorem reference_loss (x0 x1 : (⟨Cert.ReferenceIdeal.S1024x2048, .f32⟩ : BufTy).Contents (Elt Ideal)) (x2 : (⟨Cert.ReferenceIdeal.S1024, .i32⟩ : BufTy).Contents (Elt Ideal))
    (x3 : (⟨Cert.ReferenceIdeal.S8192x2048, .f32⟩ : BufTy).Contents (Elt Ideal)) (x4 : (⟨Cert.ReferenceIdeal.S8192, .i32⟩ : BufTy).Contents (Elt Ideal))
    (x5 : (⟨Cert.ReferenceIdeal.S8192x2048, .f32⟩ : BufTy).Contents (Elt Ideal))
    (hlab : ∀ i : Fin 1024, 0 ≤ (x2 (ix1 i)).toInt ∧ (x2 (ix1 i)).toInt < 8192) :
    Cert.ReferenceIdeal.Read.val_main_v86 (F := Ideal) x0 x1 x2 x3 x4 x5 ix0
      = Cert.Spec.loss (Cert.ReferenceIdeal.Read.val_main_v7 (F := Ideal) x0) (Cert.ReferenceIdeal.Read.val_main_v11 (F := Ideal) x1 x3)
          (fun i => x2 (ix1 i)) (fun j => Cert.ReferenceIdeal.Read.val_main_v3 (F := Ideal) x2 x4 (ix1 j))
          (fun i => Cert.ReferenceIdeal.Read.val_main_v44 (F := Ideal) x0 x2 x5 (ix1 i)) :=
  Cert.ReferenceIdeal.Hand.ref_loss_of_e x0 x1 x2 x3 x4 x5 _ (Cert.ReferenceIdeal.Hand.ref_e x0 x1 x2 x3 x5 hlab)

theorem algebraic [hKI : Cert.KernelIdeal.Facts] [hRI : Cert.ReferenceIdeal.Facts] [hP : Cert.Pre_finite_inputs.Facts] :
    Cert.algebraic_KernelIdeal_ReferenceIdeal :=
  Assemble.algebraic_of outsI (fun m ρ => Cert.KernelIdeal.Hand.run_val (F := Ideal) m ρ)
    (fun m hP hpre c => kernel_loss m hP hpre c)
    (fun m hP hpre c i => lab_range m hpre c i)
    reference_loss

end Cert.Proof.Bridge

end
-- ==== Proof.lean ====
/-
  With rows i < 1024 and columns j < 8192, e(i, j) = exp(s(i, j) / τ), s the inner product of the normalised query i and
  the normalised queue entry j, with the margin logit in its place at column j = label(i). The first kernel writes e and
  each row's sum of e over the columns that are not positive pairs, the second each row's sum of the positive pairs'
  losses, and the tail divides their total by the number of positive pairs. The reference computes the same over the
  whole matrix at once: the sums differ only in grouping, which commutative, associative addition does not see.
-/
import proofs.«419856_j5566277616543_1_alg».proof.Defs
import proofs.«419856_j5566277616543_1_alg».proof.Proof.Gen.Kernel
import proofs.«419856_j5566277616543_1_alg».proof.Proof.Gen.KernelIdeal
import proofs.«419856_j5566277616543_1_alg».proof.Proof.Gen.ReferenceIdeal
import proofs.«419856_j5566277616543_1_alg».proof.Proof.Gen.Pre_finite_inputs
import proofs.«419856_j5566277616543_1_alg».proof.Proof.K.Run
import proofs.«419856_j5566277616543_1_alg».proof.Proof.Bridge

noncomputable section

namespace Cert.Proof

open Idealize.ShloMosaic Idealize.SL.Sem

theorem frame_k [Cert.Kernel.Facts] [Cert.Pre_finite_inputs.Facts] : Cert.frame_Kernel :=
  fun m ρ _ => Cert.Kernel.Hand.frame (F := Bits) m ρ

theorem frame_ki [Cert.KernelIdeal.Facts] [Cert.Pre_finite_inputs.Facts] : Cert.frame_KernelIdeal :=
  fun m ρ _ => Cert.KernelIdeal.Hand.frame (F := Ideal) m ρ

theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Proof.Bridge.algebraic⟩

end Cert.Proof

end
